-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S2x3200000 : Shape := ⟨2, ![2, 3200000]⟩
abbrev S3200000x3 : Shape := ⟨2, ![3200000, 3]⟩
abbrev S100000 : Shape := ⟨1, ![100000]⟩
abbrev S14x32 : Shape := ⟨2, ![14, 32]⟩
abbrev S32 : Shape := ⟨1, ![32]⟩
abbrev S3x32 : Shape := ⟨2, ![3, 32]⟩
abbrev S2x32x75 : Shape := ⟨3, ![2, 32, 75]⟩
abbrev S2x75 : Shape := ⟨2, ![2, 75]⟩
abbrev S2x75x32 : Shape := ⟨3, ![2, 75, 32]⟩
abbrev S2x32 : Shape := ⟨2, ![2, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩
abbrev S1x3200000 : Shape := ⟨2, ![1, 3200000]⟩
abbrev S3200000 : Shape := ⟨1, ![3200000]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S14x32 : S_.BroadcastsInDim S14x32 (![] : Fin 0 → Fin S14x32.rank)
  reducesTo_S14x32_S_d0_1 : S14x32.ReducesTo [0, 1] S_
  bcast_S_S32 : S_.BroadcastsInDim S32 (![] : Fin 0 → Fin S32.rank)
  reducesTo_S32_S_d0 : S32.ReducesTo [0] S_
  bcast_S_S3x32 : S_.BroadcastsInDim S3x32 (![] : Fin 0 → Fin S3x32.rank)
  reducesTo_S3x32_S_d0_1 : S3x32.ReducesTo [0, 1] S_
  bcast_S_S2x32x75 : S_.BroadcastsInDim S2x32x75 (![] : Fin 0 → Fin S2x32x75.rank)
  reducesTo_S2x32x75_S_d0_1_2 : S2x32x75.ReducesTo [0, 1, 2] S_
  bcast_S_S2x75 : S_.BroadcastsInDim S2x75 (![] : Fin 0 → Fin S2x75.rank)
  reducesTo_S2x75_S_d0_1 : S2x75.ReducesTo [0, 1] S_
  bcast_S_S2x75x32 : S_.BroadcastsInDim S2x75x32 (![] : Fin 0 → Fin S2x75x32.rank)
  reducesTo_S2x75x32_S_d0_1_2 : S2x75x32.ReducesTo [0, 1, 2] S_
  bcast_S_S2x32 : S_.BroadcastsInDim S2x32 (![] : Fin 0 → Fin S2x32.rank)
  reducesTo_S2x32_S_d0_1 : S2x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part5 {F : FTy → Type} [FloatOps F] (main_v84 : IVec S_ 1) (main_v85 : IVec S1x3200000 32) : IVec S_ 1 :=
  let main_v86 : IVec S3200000 32 := shapeCast S3200000 main_v85 shapeCasts_S1x3200000_S3200000
  let main_c_32 : IVec S_ 32 := constantI S_ 32 100000#32
  let main_v87 : IVec S3200000 32 := broadcastInDim S3200000 ![] bcast_S_S3200000 main_c_32
  let main_v88 : IVec S3200000 1 := cmpi .slt main_v86 main_v87
  let main_c_33 : IVec S_ 1 := constantI S_ 1 1#1
  let main_v89 : IVec S_ 1 := (fun x v => Host.reduce IntOp.andi x v reducesTo_S3200000_S_d0 h_S_) main_v88 main_c_33
  let main_v90 : IVec S_ 1 := andi main_v84 main_v89
  main_v90

def fn_part4 {F : FTy → Type} [FloatOps F] (main_arg1 : IVec S2x3200000 32) (main_arg16 : FVec F S16x2 .f32) (main_arg17 : FVec F S2 .f32) (main_v63 : IVec S_ 1) (main_v67 : IVec S_ 1) : IVec S_ 1 :=
  let main_v68 : IVec S_ 1 := andi main_v63 main_v67
  let main_v69 : FVec F S16x2 .f32 := Host.absf main_arg16
  let main_cst_26 : FVec F S_ .f32 := constant S_ .f32 0x7F800000#32
  let main_v70 : FVec F S16x2 .f32 := broadcastInDim S16x2 ![] bcast_S_S16x2 main_cst_26
  let main_v71 : IVec S16x2 1 := cmpf .olt main_v69 main_v70
  let main_c_27 : IVec S_ 1 := constantI S_ 1 1#1
  let main_v72 : IVec S_ 1 := (fun x v => Host.reduce IntOp.andi x v reducesTo_S16x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : IVec S1x3200000 32 := (extractStridedSlice S1x3200000 ![0, 0] · slices_S2x3200000_S1x3200000_0_0) main_arg1
  let main_v80 : IVec S3200000 32 := shapeCast S3200000 main_v79 shapeCasts_S1x3200000_S3200000
  let main_c_30 : IVec S_ 32 := constantI S_ 32 0#32
  let main_v81 : IVec S3200000 32 := broadcastInDim S3200000 ![] bcast_S_S3200000 main_c_30
  let main_v82 : IVec S3200000 1 := cmpi .sge main_v80 main_v81
  let main_c_31 : IVec S_ 1 := constantI S_ 1 1#1
  let main_v83 : IVec S_ 1 := (fun x v => Host.reduce IntOp.andi x v reducesTo_S3200000_S_d0 h_S_) main_v82 main_c_31
  let main_v84 : IVec S_ 1 := andi main_v78 main_v83
  let main_v85 : IVec S1x3200000 32 := (extractStridedSlice S1x3200000 ![0, 0] · slices_S2x3200000_S1x3200000_0_0) main_arg1
  fn_part5 (F := F) main_v84 main_v85

def fn_part3 {F : FTy → Type} [FloatOps F] (main_arg1 : IVec S2x3200000 32) (main_arg13 : FVec F S2x32 .f32) (main_arg14 : FVec F S32x16 .f32) (main_arg15 : FVec F S16 .f32) (main_arg16 : FVec F S16x2 .f32) (main_arg17 : FVec F S2 .f32) (main_v48 : IVec S_ 1) (main_v49 : FVec F S2x32 .f32) (main_v50 : FVec F S2x32 .f32) : IVec S_ 1 :=
  let main_v51 : IVec S2x32 1 := cmpf .olt main_v49 main_v50
  let main_c_19 : IVec S_ 1 := constantI S_ 1 1#1
  let main_v52 : IVec S_ 1 := (fun x v => Host.reduce IntOp.andi x v reducesTo_S2x32_S_d0_1 h_S_) main_v51 main_c_19
  let main_v53 : IVec S_ 1 := andi main_v48 main_v52
  let main_v54 : FVec F S2x32 .f32 := Host.absf main_arg13
  let main_cst_20 : FVec F S_ .f32 := constant S_ .f32 0x7F800000#32
  let main_v55 : FVec F S2x32 .f32 := broadcastInDim S2x32 ![] bcast_S_S2x32 main_cst_20
  let main_v56 : IVec S2x32 1 := cmpf .olt main_v54 main_v55
  let main_c_21 : IVec S_ 1 := constantI S_ 1 1#1
  let main_v57 : IVec S_ 1 := (fun x v => Host.reduce IntOp.andi x v reducesTo_S2x32_S_d0_1 h_S_) main_v56 main_c_21
  let main_v58 : IVec S_ 1 := andi main_v53 main_v57
  let main_v59 : FVec F S32x16 .f32 := Host.absf main_arg14
  let main_cst_22 : FVec F S_ .f32 := constant S_ .f32 0x7F800000#32
  let main_v60 : FVec F S32x16 .f32 := broadcastInDim S32x16 ![] bcast_S_S32x16 main_cst_22
  let main_v61 : IVec S32x16 1 := cmpf .olt main_v59 main_v60
  let main_c_23 : IVec S_ 1 := constantI S_ 1 1#1
  let main_v62 : IVec S_ 1 := (fun x v => Host.reduce IntOp.andi x v reducesTo_S32x16_S_d0_1 h_S_) main_v61 main_c_23
  let main_v63 : IVec S_ 1 := andi main_v58 main_v62
  let main_v64 : FVec F S16 .f32 := Host.absf main_arg15
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg1 main_arg16 main_arg17 main_v63 main_v67

def fn_part2 {F : FTy → Type} [FloatOps F] (main_arg1 : IVec S2x3200000 32) (main_arg9 : FVec F S2x75 .f32) (main_arg10 : FVec F S2x75x32 .f32) (main_arg11 : FVec F S2x32 .f32) (main_arg12 : FVec F S2x32 .f32) (main_arg13 : FVec F S2x32 .f32) (main_arg14 : FVec F S32x16 .f32) (main_arg15 : FVec F S16 .f32) (main_arg16 : FVec F S16x2 .f32) (main_arg17 : FVec F S2 .f32) (main_v33 : IVec S_ 1) : IVec S_ 1 :=
  let main_v34 : FVec F S2x75 .f32 := Host.absf main_arg9
  let main_cst_12 : FVec F S_ .f32 := constant S_ .f32 0x7F800000#32
  let main_v35 : FVec F S2x75 .f32 := broadcastInDim S2x75 ![] bcast_S_S2x75 main_cst_12
  let main_v36 : IVec S2x75 1 := cmpf .olt main_v34 main_v35
  let main_c_13 : IVec S_ 1 := constantI S_ 1 1#1
  let main_v37 : IVec S_ 1 := (fun x v => Host.reduce IntOp.andi x v reducesTo_S2x75_S_d0_1 h_S_) main_v36 main_c_13
  let main_v38 : IVec S_ 1 := andi main_v33 main_v37
  let main_v39 : FVec F S2x75x32 .f32 := Host.absf main_arg10
  let main_cst_14 : FVec F S_ .f32 := constant S_ .f32 0x7F800000#32
  let main_v40 : FVec F S2x75x32 .f32 := broadcastInDim S2x75x32 ![] bcast_S_S2x75x32 main_cst_14
  let main_v41 : IVec S2x75x32 1 := cmpf .olt main_v39 main_v40
  let main_c_15 : IVec S_ 1 := constantI S_ 1 1#1
  let main_v42 : IVec S_ 1 := (fun x v => Host.reduce IntOp.andi x v reducesTo_S2x75x32_S_d0_1_2 h_S_) main_v41 main_c_15
  let main_v43 : IVec S_ 1 := andi main_v38 main_v42
  let main_v44 : FVec F S2x32 .f32 := Host.absf main_arg11
  let main_cst_16 : FVec F S_ .f32 := constant S_ .f32 0x7F800000#32
  let main_v45 : FVec F S2x32 .f32 := broadcastInDim S2x32 ![] bcast_S_S2x32 main_cst_16
  let main_v46 : IVec S2x32 1 := cmpf .olt main_v44 main_v45
  let main_c_17 : IVec S_ 1 := constantI S_ 1 1#1
  let main_v47 : IVec S_ 1 := (fun x v => Host.reduce IntOp.andi x v reducesTo_S2x32_S_d0_1 h_S_) main_v46 main_c_17
  let main_v48 : IVec S_ 1 := andi main_v43 main_v47
  let main_v49 : FVec F S2x32 .f32 := Host.absf main_arg12
  let main_cst_18 : FVec F S_ .f32 := constant S_ .f32 0x7F800000#32
  let main_v50 : FVec F S2x32 .f32 := broadcastInDim S2x32 ![] bcast_S_S2x32 main_cst_18
  fn_part3 (F := F) main_arg1 main_arg13 main_arg14 main_arg15 main_arg16 main_arg17 main_v48 main_v49 main_v50

def fn_part1 {F : FTy → Type} [FloatOps F] (main_arg1 : IVec S2x3200000 32) (main_arg6 : FVec F S3x32 .f32) (main_arg7 : FVec F S32 .f32) (main_arg8 : FVec F S2x32x75 .f32) (main_arg9 : FVec F S2x75 .f32) (main_arg10 : FVec F S2x75x32 .f32) (main_arg11 : FVec F S2x32 .f32) (main_arg12 : FVec F S2x32 .f32) (main_arg13 : FVec F S2x32 .f32) (main_arg14 : FVec F S32x16 .f32) (main_arg15 : FVec F S16 .f32) (main_arg16 : FVec F S16x2 .f32) (main_arg17 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S3x32 .f32 := Host.absf main_arg6
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S2x32x75 .f32 := Host.absf main_arg8
  let main_cst_10 : FVec F S_ .f32 := constant S_ .f32 0x7F800000#32
  let main_v30 : FVec F S2x32x75 .f32 := broadcastInDim S2x32x75 ![] bcast_S_S2x32x75 main_cst_10
  let main_v31 : IVec S2x32x75 1 := cmpf .olt main_v29 main_v30
  let main_c_11 : IVec S_ 1 := constantI S_ 1 1#1
  let main_v32 : IVec S_ 1 := (fun x v => Host.reduce IntOp.andi x v reducesTo_S2x32x75_S_d0_1_2 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S100000x14 .f32) (main_arg1 : IVec S2x3200000 32) (main_arg2 : FVec F S3200000x3 .f32) (main_arg3 : IVec S100000 32) (main_arg4 : FVec F S14x32 .f32) (main_arg5 : FVec F S32 .f32) (main_arg6 : FVec F S3x32 .f32) (main_arg7 : FVec F S32 .f32) (main_arg8 : FVec F S2x32x75 .f32) (main_arg9 : FVec F S2x75 .f32) (main_arg10 : FVec F S2x75x32 .f32) (main_arg11 : FVec F S2x32 .f32) (main_arg12 : FVec F S2x32 .f32) (main_arg13 : FVec F S2x32 .f32) (main_arg14 : FVec F S32x16 .f32) (main_arg15 : FVec F S16 .f32) (main_arg16 : FVec F S16x2 .f32) (main_arg17 : FVec F S2 .f32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S3200000x3 .f32 := Host.absf main_arg2
  let main_cst_0 : FVec F S_ .f32 := constant S_ .f32 0x7F800000#32
  let main_v5 : FVec F S3200000x3 .f32 := broadcastInDim S3200000x3 ![] bcast_S_S3200000x3 main_cst_0
  let main_v6 : IVec S3200000x3 1 := cmpf .olt main_v4 main_v5
  let main_c_1 : IVec S_ 1 := constantI S_ 1 1#1
  let main_v7 : IVec S_ 1 := (fun x v => Host.reduce IntOp.andi x v reducesTo_S3200000x3_S_d0_1 h_S_) main_v6 main_c_1
  let main_v8 : IVec S_ 1 := andi main_v3 main_v7
  let main_v9 : FVec F S14x32 .f32 := Host.absf main_arg4
  let main_cst_2 : FVec F S_ .f32 := constant S_ .f32 0x7F800000#32
  let main_v10 : FVec F S14x32 .f32 := broadcastInDim S14x32 ![] bcast_S_S14x32 main_cst_2
  let main_v11 : IVec S14x32 1 := cmpf .olt main_v9 main_v10
  let main_c_3 : IVec S_ 1 := constantI S_ 1 1#1
  let main_v12 : IVec S_ 1 := (fun x v => Host.reduce IntOp.andi x v reducesTo_S14x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S100000x14 : Shape := ⟨2, ![100000, 14]⟩
abbrev S2x3200000 : Shape := ⟨2, ![2, 3200000]⟩
abbrev S3200000x3 : Shape := ⟨2, ![3200000, 3]⟩
abbrev S100000 : Shape := ⟨1, ![100000]⟩
abbrev S14x32 : Shape := ⟨2, ![14, 32]⟩
abbrev S32 : Shape := ⟨1, ![32]⟩
abbrev S3x32 : Shape := ⟨2, ![3, 32]⟩
abbrev S2x32x75 : Shape := ⟨3, ![2, 32, 75]⟩
abbrev S2x75 : Shape := ⟨2, ![2, 75]⟩
abbrev S2x75x32 : Shape := ⟨3, ![2, 75, 32]⟩
abbrev S2x32 : Shape := ⟨2, ![2, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000x32 : Shape := ⟨2, ![100000, 32]⟩
abbrev S10000x14 : Shape := ⟨2, ![10000, 14]⟩
abbrev S10000x32 : Shape := ⟨2, ![10000, 32]⟩
abbrev S1x32 : Shape := ⟨2, ![1, 32]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x32 : Shape := ⟨2, ![3200000, 32]⟩
abbrev S12800x32 : Shape := ⟨2, ![12800, 32]⟩
abbrev S12800x3 : Shape := ⟨2, ![12800, 3]⟩
abbrev S1x32x75 : Shape := ⟨3, ![1, 32, 75]⟩
abbrev S32x75 : Shape := ⟨2, ![32, 75]⟩
abbrev S1x75 : Shape := ⟨2, ![1, 75]⟩
abbrev S75 : Shape := ⟨1, ![75]⟩
abbrev S1x75x32 : Shape := ⟨3, ![1, 75, 32]⟩
abbrev S75x32 : Shape := ⟨2, ![75, 32]⟩
abbrev S10000x75 : Shape := ⟨2, ![10000, 75]⟩
abbrev S5000x32 : Shape := ⟨2, ![5000, 32]⟩
abbrev S100000x1 : Shape := ⟨2, ![100000, 1]⟩
abbrev S5000 : Shape := ⟨1, ![5000]⟩
abbrev S5000x1 : Shape := ⟨2, ![5000, 1]⟩
abbrev S5000x16 : Shape := ⟨2, ![5000, 16]⟩
abbrev S1x16 : Shape := ⟨2, ![1, 16]⟩
abbrev S5000x2 : Shape := ⟨2, ![5000, 2]⟩
abbrev S1x2 : Shape := ⟨2, ![1, 2]⟩

abbrev nBuf : Space → Nat
  | .hbm => 168
  | .vmem => 62
  | .smem => 0
  | _ => 0

abbrev hbmTy0_0 (i : Nat) : BufTy := match i % 128 with
  | 0 => ⟨S100000x14, .f32⟩
  | 1 => ⟨S2x3200000, .i32⟩
  | 2 => ⟨S3200000x3, .f32⟩
  | 3 => ⟨S100000, .i32⟩
  | 4 => ⟨S14x32, .f32⟩
  | 5 => ⟨S32, .f32⟩
  | 6 => ⟨S3x32, .f32⟩
  | 7 => ⟨S32, .f32⟩
  | 8 => ⟨S2x32x75, .f32⟩
  | 9 => ⟨S2x75, .f32⟩
  | 10 => ⟨S2x75x32, .f32⟩
  | 11 => ⟨S2x32, .f32⟩
  | 12 => ⟨S2x32, .f32⟩
  | 13 => ⟨S2x32, .f32⟩
  | 14 => ⟨S32x16, .f32⟩
  | 15 => ⟨S16, .f32⟩
  | 16 => ⟨S16x2, .f32⟩
  | 17 => ⟨S2, .f32⟩
  | 18 => ⟨S1x3200000, .i32⟩
  | 19 => ⟨S3200000, .i32⟩
  | 20 => ⟨S1x3200000, .i32⟩
  | 21 => ⟨S3200000, .i32⟩
  | 22 => ⟨S100000x32, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S1, .i32⟩
  | 32 => ⟨S_, .i32⟩
  | 33 => ⟨S3200000x1, .i32⟩
  | 34 => ⟨S3200000x1, .i1⟩
  | 35 => ⟨S1x1, .i32⟩
  | 36 => ⟨S3200000x1, .i32⟩
  | 37 => ⟨S3200000x1, .i1⟩
  | 38 => ⟨S3200000x1, .i1⟩
  | 39 => ⟨S_, .i1⟩
  | 40 => ⟨S3200000, .i1⟩
  | 41 => ⟨S3200000x32, .f32⟩
  | 42 => ⟨S3200000x32, .i1⟩
  | 43 => ⟨S_, .f32⟩
  | 44 => ⟨S3200000x32, .f32⟩
  | 45 => ⟨S3200000x32, .f32⟩
  | 46 => ⟨S3200000x32, .f32⟩
  | 47 => ⟨S_, .f32⟩
  | 48 => ⟨S100000x32, .f32⟩
  | 49 => ⟨S3200000x1, .i32⟩
  | 50 => ⟨S100000x32, .f32⟩
  | 51 => ⟨S1x32x75, .f32⟩
  | 52 => ⟨S32x75, .f32⟩
  | 53 => ⟨S1x75, .f32⟩
  | 54 => ⟨S75, .f32⟩
  | 55 => ⟨S1x75x32, .f32⟩
  | 56 => ⟨S75x32, .f32⟩
  | 57 => ⟨S1x32, .f32⟩
  | 58 => ⟨S32, .f32⟩
  | 59 => ⟨S100000x32, .f32⟩
  | 60 => ⟨S32, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S32, .f32⟩
  | 69 => ⟨S32, .f32⟩
  | 70 => ⟨S1x32, .f32⟩
  | 71 => ⟨S32, .f32⟩
  | 72 => ⟨S_, .f32⟩
  | 73 => ⟨S32, .f32⟩
  | 74 => ⟨S32, .f32⟩
  | 75 => ⟨S32, .f32⟩
  | 76 => ⟨S32, .f32⟩
  | 77 => ⟨S1x32, .f32⟩
  | 78 => ⟨S32, .f32⟩
  | 79 => ⟨S32, .f32⟩
  | 80 => ⟨S32, .f32⟩
  | 81 => ⟨S100000x32, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S1, .i32⟩
  | 91 => ⟨S_, .i32⟩
  | 92 => ⟨S3200000x1, .i32⟩
  | 93 => ⟨S3200000x1, .i1⟩
  | 94 => ⟨S1x1, .i32⟩
  | 95 => ⟨S3200000x1, .i32⟩
  | 96 => ⟨S3200000x1, .i1⟩
  | 97 => ⟨S3200000x1, .i1⟩
  | 98 => ⟨S_, .i1⟩
  | 99 => ⟨S3200000, .i1⟩
  | 100 => ⟨S3200000x32, .f32⟩
  | 101 => ⟨S3200000x32, .i1⟩
  | 102 => ⟨S_, .f32⟩
  | 103 => ⟨S3200000x32, .f32⟩
  | 104 => ⟨S3200000x32, .f32⟩
  | 105 => ⟨S3200000x32, .f32⟩
  | 106 => ⟨S_, .f32⟩
  | 107 => ⟨S100000x32, .f32⟩
  | 108 => ⟨S3200000x1, .i32⟩
  | 109 => ⟨S100000x32, .f32⟩
  | 110 => ⟨S1x32x75, .f32⟩
  | 111 => ⟨S32x75, .f32⟩
  | 112 => ⟨S1x75, .f32⟩
  | 113 => ⟨S75, .f32⟩
  | 114 => ⟨S1x75x32, .f32⟩
  | 115 => ⟨S75x32, .f32⟩
  | 116 => ⟨S1x32, .f32⟩
  | 117 => ⟨S32, .f32⟩
  | 118 => ⟨S100000x32, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S32, .f32⟩
  | _ => ⟨S100000x14, .f32⟩

abbrev hbmTy0_1 (i : Nat) : BufTy := match i % 128 with
  | 0 => ⟨S32, .f32⟩
  | 1 => ⟨S1x32, .f32⟩
  | 2 => ⟨S32, .f32⟩
  | 3 => ⟨S_, .f32⟩
  | 4 => ⟨S32, .f32⟩
  | 5 => ⟨S32, .f32⟩
  | 6 => ⟨S32, .f32⟩
  | 7 => ⟨S32, .f32⟩
  | 8 => ⟨S1x32, .f32⟩
  | 9 => ⟨S32, .f32⟩
  | 10 => ⟨S32, .f32⟩
  | 11 => ⟨S32, .f32⟩
  | 12 => ⟨S100000x32, .f32⟩
  | 13 => ⟨S_, .f32⟩
  | 14 => ⟨S5000x32, .f32⟩
  | 15 => ⟨S100000x1, .i32⟩
  | 16 => ⟨S5000x32, .f32⟩
  | 17 => ⟨S_, .f32⟩
  | 18 => ⟨S100000, .f32⟩
  | 19 => ⟨S_, .f32⟩
  | 20 => ⟨S5000, .f32⟩
  | 21 => ⟨S100000x1, .i32⟩
  | 22 => ⟨S5000, .f32⟩
  | 23 => ⟨S_, .f32⟩
  | 24 => ⟨S5000, .f32⟩
  | 25 => ⟨S5000, .f32⟩
  | 26 => ⟨S5000x1, .f32⟩
  | 27 => ⟨S5000x32, .f32⟩
  | 28 => ⟨S5000x32, .f32⟩
  | 29 => ⟨S5000x16, .f32⟩
  | 30 => ⟨S1x16, .f32⟩
  | 31 => ⟨S5000x16, .f32⟩
  | 32 => ⟨S5000x16, .f32⟩
  | 33 => ⟨S_, .f32⟩
  | 34 => ⟨S5000x16, .f32⟩
  | 35 => ⟨S5000x16, .f32⟩
  | 36 => ⟨S5000x2, .f32⟩
  | 37 => ⟨S1x2, .f32⟩
  | 38 => ⟨S5000x2, .f32⟩
  | 39 => ⟨S5000x2, .f32⟩
  | _ => ⟨S100000x14, .f32⟩

abbrev hbmTy (i : Nat) : BufTy := match i / 128 with
  | 0 => hbmTy0_0 i
  | 1 => hbmTy0_1 i
  | _ => ⟨S100000x14, .f32⟩

abbrev bufTy : (tb : Table) → Fin (tcTables nBuf tb) → BufTy
  | .hbm, ⟨i, _⟩ => hbmTy i
  | .local _ .vmem, ⟨0, _⟩ => ⟨S10000x14, .f32⟩
  | .local _ .vmem, ⟨1, _⟩ => ⟨S10000x14, .f32⟩
  | .local _ .vmem, ⟨2, _⟩ => ⟨S14x32, .f32⟩
  | .local _ .vmem, ⟨3, _⟩ => ⟨S32, .f32⟩
  | .local _ .vmem, ⟨4, _⟩ => ⟨S10000x32, .f32⟩
  | .local _ .vmem, ⟨5, _⟩ => ⟨S10000x32, .f32⟩
  | .local _ .vmem, ⟨6, _⟩ => ⟨S12800x32, .f32⟩
  | .local _ .vmem, ⟨7, _⟩ => ⟨S12800x32, .f32⟩
  | .local _ .vmem, ⟨8, _⟩ => ⟨S12800x3, .f32⟩
  | .local _ .vmem, ⟨9, _⟩ => ⟨S12800x3, .f32⟩
  | .local _ .vmem, ⟨10, _⟩ => ⟨S3x32, .f32⟩
  | .local _ .vmem, ⟨11, _⟩ => ⟨S32, .f32⟩
  | .local _ .vmem, ⟨12, _⟩ => ⟨S12800x32, .f32⟩
  | .local _ .vmem, ⟨13, _⟩ => ⟨S12800x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S32x75, .f32⟩
  | .local _ .vmem, ⟨19, _⟩ => ⟨S75, .f32⟩
  | .local _ .vmem, ⟨20, _⟩ => ⟨S75x32, .f32⟩
  | .local _ .vmem, ⟨21, _⟩ => ⟨S32, .f32⟩
  | .local _ .vmem, ⟨22, _⟩ => ⟨S10000x32, .f32⟩
  | .local _ .vmem, ⟨23, _⟩ => ⟨S10000x32, .f32⟩
  | .local _ .vmem, ⟨24, _⟩ => ⟨S32, .f32⟩
  | .local _ .vmem, ⟨25, _⟩ => ⟨S32, .f32⟩
  | .local _ .vmem, ⟨26, _⟩ => ⟨S32, .f32⟩
  | .local _ .vmem, ⟨27, _⟩ => ⟨S32, .f32⟩
  | .local _ .vmem, ⟨28, _⟩ => ⟨S10000x32, .f32⟩
  | .local _ .vmem, ⟨29, _⟩ => ⟨S10000x32, .f32⟩
  | .local _ .vmem, ⟨30, _⟩ => ⟨S32, .f32⟩
  | .local _ .vmem, ⟨31, _⟩ => ⟨S32, .f32⟩
  | .local _ .vmem, ⟨32, _⟩ => ⟨S10000x32, .f32⟩
  | .local _ .vmem, ⟨33, _⟩ => ⟨S10000x32, .f32⟩
  | .local _ .vmem, ⟨34, _⟩ => ⟨S12800x32, .f32⟩
  | .local _ .vmem, ⟨35, _⟩ => ⟨S12800x32, .f32⟩
  | .local _ .vmem, ⟨36, _⟩ => ⟨S12800x3, .f32⟩
  | .local _ .vmem, ⟨37, _⟩ => ⟨S12800x3, .f32⟩
  | .local _ .vmem, ⟨38, _⟩ => ⟨S3x32, .f32⟩
  | .local _ .vmem, ⟨39, _⟩ => ⟨S32, .f32⟩
  | .local _ .vmem, ⟨40, _⟩ => ⟨S12800x32, .f32⟩
  | .local _ .vmem, ⟨41, _⟩ => ⟨S12800x32, .f32⟩
  | .local _ .vmem, ⟨42, _⟩ => ⟨S10000x32, .f32⟩
  | .local _ .vmem, ⟨43, _⟩ => ⟨S10000x32, .f32⟩
  | .local _ .vmem, ⟨44, _⟩ => ⟨S10000x32, .f32⟩
  | .local _ .vmem, ⟨45, _⟩ => ⟨S10000x32, .f32⟩
  | .local _ .vmem, ⟨46, _⟩ => ⟨S32x75, .f32⟩
  | .local _ .vmem, ⟨47, _⟩ => ⟨S75, .f32⟩
  | .local _ .vmem, ⟨48, _⟩ => ⟨S75x32, .f32⟩
  | .local _ .vmem, ⟨49, _⟩ => ⟨S32, .f32⟩
  | .local _ .vmem, ⟨50, _⟩ => ⟨S10000x32, .f32⟩
  | .local _ .vmem, ⟨51, _⟩ => ⟨S10000x32, .f32⟩
  | .local _ .vmem, ⟨52, _⟩ => ⟨S32, .f32⟩
  | .local _ .vmem, ⟨53, _⟩ => ⟨S32, .f32⟩
  | .local _ .vmem, ⟨54, _⟩ => ⟨S32, .f32⟩
  | .local _ .vmem, ⟨55, _⟩ => ⟨S32, .f32⟩
  | .local _ .vmem, ⟨56, _⟩ => ⟨S10000x32, .f32⟩
  | .local _ .vmem, ⟨57, _⟩ => ⟨S10000x32, .f32⟩
  | .local _ .vmem, ⟨58, _⟩ => ⟨S32, .f32⟩
  | .local _ .vmem, ⟨59, _⟩ => ⟨S32, .f32⟩
  | .local _ .vmem, ⟨60, _⟩ => ⟨S10000x32, .f32⟩
  | .local _ .vmem, ⟨61, _⟩ => ⟨S10000x32, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18_0 : Ref sig .tc := ⟨.hbm, 59, rfl⟩
abbrev main_v18_1 : Ref sig .tc := ⟨.hbm, 60, rfl⟩
abbrev main_v18_2 : Ref sig .tc := ⟨.hbm, 61, rfl⟩
abbrev main_cst_0 : Ref sig .tc := ⟨.hbm, 62, rfl⟩
abbrev main_v19 : Ref sig .tc := ⟨.hbm, 63, rfl⟩
abbrev main_v20 : Ref sig .tc := ⟨.hbm, 64, rfl⟩
abbrev main_cst_1 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_2 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v36 : Ref sig .tc := ⟨.hbm, 104, rfl⟩
abbrev main_v37 : Ref sig .tc := ⟨.hbm, 105, rfl⟩
abbrev main_cst_3 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49_0 : Ref sig .tc := ⟨.hbm, 118, rfl⟩
abbrev main_v49_1 : Ref sig .tc := ⟨.hbm, 119, rfl⟩
abbrev main_v49_2 : Ref sig .tc := ⟨.hbm, 120, rfl⟩
abbrev main_cst_4 : Ref sig .tc := ⟨.hbm, 121, rfl⟩
abbrev main_v50 : Ref sig .tc := ⟨.hbm, 122, rfl⟩
abbrev main_v51 : Ref sig .tc := ⟨.hbm, 123, rfl⟩
abbrev main_cst_5 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_cst_6 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_cst_7 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_cst_8 : Ref sig .tc := ⟨.hbm, 145, rfl⟩
abbrev main_v70 : Ref sig .tc := ⟨.hbm, 146, rfl⟩
abbrev main_cst_9 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_cst_10 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_call2_cst : Ref sig .tc := ⟨.hbm, 161, rfl⟩
abbrev main_call2_v0 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg8_0 : Ref sig .tc := ⟨.vmem, 25, rfl⟩
abbrev cc2_scratch0 : Ref sig .tc := ⟨.vmem, 26, rfl⟩
abbrev cc2_scratch1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc5_stg7_0 : Ref sig .tc := ⟨.vmem, 52, rfl⟩
abbrev cc5_stg8_0 : Ref sig .tc := ⟨.vmem, 53, rfl⟩
abbrev cc5_scratch0 : Ref sig .tc := ⟨.vmem, 54, rfl⟩
abbrev cc5_scratch1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg3_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem8_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48
abbrev cc5_sem6_1 : DmaSem sig := 49
abbrev cc5_sem7_0 : DmaSem sig := 50
abbrev cc5_sem8_0 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12800x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S12800x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v44 : BitVec 1 := Scalar.cmpi .eq arg0 c9_i32
  let v45 : BitVec 32 := Scalar.extui v44
  let c0_i32_20 : BitVec 32 := 0#32
  let v46 : BitVec 1 := Scalar.cmpi .ne v45 c0_i32_20
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x75 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S75 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S75x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12800x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12800x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S3x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S12800x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v44 : BitVec 1 := Scalar.cmpi .eq arg0 c9_i32
  let v45 : BitVec 32 := Scalar.extui v44
  let c0_i32_20 : BitVec 32 := 0#32
  let v46 : BitVec 1 := Scalar.cmpi .ne v45 c0_i32_20
  v46

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x75 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S75 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S75x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S32 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S10000x14_S10000x14_0_0 : ∀ a, (![0, 0] : Fin 2 → Nat) a + S10000x14.size a ≤ S10000x14.size a
  h_S10000x14 : 0 < S10000x14.numel
  bitsLt_bf16_f32 : FTy.bits .bf16 < FTy.bits .f32
  inb_S14x32_S14x32_0_0 : ∀ a, (![0, 0] : Fin 2 → Nat) a + S14x32.size a ≤ S14x32.size a
  h_S14x32 : 0 < S14x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x32_0 : S3200000.BroadcastsInDim S3200000x32 (![0] : Fin 1 → Fin S3200000x32.rank)
  bcast_S_S3200000x32 : S_.BroadcastsInDim S3200000x32 (![] : Fin 0 → Fin S3200000x32.rank)
  inb_S12800x3_S12800x3_0_0 : ∀ a, (![0, 0] : Fin 2 → Nat) a + S12800x3.size a ≤ S12800x3.size a
  h_S12800x3 : 0 < S12800x3.numel
  inb_S3x32_S3x32_0_0 : ∀ a, (![0, 0] : Fin 2 → Nat) a + S3x32.size a ≤ S3x32.size a
  h_S3x32 : 0 < S3x32.numel
  broadcasts_S1x32_S12800x32 : S1x32.Broadcasts S12800x32
  inb_S12800x32_S12800x32_0_0 : ∀ a, (![0, 0] : Fin 2 → Nat) a + S12800x32.size a ≤ S12800x32.size a
  h_S12800x32 : 0 < S12800x32.numel
  shapeCasts_S12800x32_S12800x32 : S12800x32.ShapeCasts S12800x32
  bcast_S_S100000x32 : S_.BroadcastsInDim S100000x32 (![] : Fin 0 → Fin S100000x32.rank)
  slices_S2x32x75_S1x32x75_0_0_0 : S2x32x75.Slices ![0, 0, 0] S1x32x75
  shapeCasts_S1x32x75_S32x75 : S1x32x75.ShapeCasts S32x75
  slices_S2x75_S1x75_0_0 : S2x75.Slices ![0, 0] S1x75
  shapeCasts_S1x75_S75 : S1x75.ShapeCasts S75
  slices_S2x75x32_S1x75x32_0_0_0 : S2x75x32.Slices ![0, 0, 0] S1x75x32
  shapeCasts_S1x75x32_S75x32 : S1x75x32.ShapeCasts S75x32
  slices_S2x32_S1x32_0_0 : S2x32.Slices ![0, 0] S1x32
  shapeCasts_S1x32_S32 : S1x32.ShapeCasts S32
  shapeCasts_S32_S32 : S32.ShapeCasts S32
  shapeCasts_S10000x32_S10000x32 : S10000x32.ShapeCasts S10000x32
  inb_S32x75_S32x75_0_0 : ∀ a, (![0, 0] : Fin 2 → Nat) a + S32x75.size a ≤ S32x75.size a
  h_S32x75 : 0 < S32x75.numel
  shapeCasts_S32x75_S32x75 : S32x75.ShapeCasts S32x75
  inb_S75_S75_0 : ∀ a, (![0] : Fin 1 → Nat) a + S75.size a ≤ S75.size a
  h_S75 : 0 < S75.numel
  shapeCasts_S75_S75 : S75.ShapeCasts S75
  shapeCasts_S75_S1x75 : S75.ShapeCasts S1x75
  broadcasts_S1x75_S10000x75 : S1x75.Broadcasts S10000x75
  inb_S75x32_S75x32_0_0 : ∀ a, (![0, 0] : Fin 2 → Nat) a + S75x32.size a ≤ S75x32.size a
  h_S75x32 : 0 < S75x32.numel
  shapeCasts_S75x32_S75x32 : S75x32.ShapeCasts S75x32
  reduces_S10000x32_S32 : S10000x32.Reduces [0] S32
  bcast_S_S32 : S_.BroadcastsInDim S32 (![] : Fin 0 → Fin S32.rank)
  slices_S2x32x75_S1x32x75_1_0_0 : S2x32x75.Slices ![1, 0, 0] S1x32x75
  slices_S2x75_S1x75_1_0 : S2x75.Slices ![1, 0] S1x75
  slices_S2x75x32_S1x75x32_1_0_0 : S2x75x32.Slices ![1, 0, 0] S1x75x32
  slices_S2x32_S1x32_1_0 : S2x32.Slices ![1, 0] S1x32
  bcast_S_S5000x32 : S_.BroadcastsInDim S5000x32 (![] : Fin 0 → Fin S5000x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x32_0_1 : S5000x1.BroadcastsInDim S5000x32 (![0, 1] : Fin 2 → Fin S5000x32.rank)
  bcast_S16_S1x16_1 : S16.BroadcastsInDim S1x16 (![1] : Fin 1 → Fin S1x16.rank)
  bcast_S1x16_S5000x16_0_1 : S1x16.BroadcastsInDim S5000x16 (![0, 1] : Fin 2 → Fin S5000x16.rank)
  bcast_S_S5000x16 : S_.BroadcastsInDim S5000x16 (![] : Fin 0 → Fin S5000x16.rank)
  bcast_S2_S1x2_1 : S2.BroadcastsInDim S1x2 (![1] : Fin 1 → Fin S1x2.rank)
  bcast_S1x2_S5000x2_0_1 : S1x2.BroadcastsInDim S5000x2 (![0, 1] : Fin 2 → Fin S5000x2.rank)
  dot_S10000x14_S14x32_S10000x32_1_0_0_1_n_n_wf : DotDims.WF S10000x14 S14x32 S10000x32 [1] [0] [0] [1] [] []
  gather_S100000x32_S3200000x1_S3200000x32_1_0_n_n_0_1_132_wf : GatherDims.WF S100000x32 S3200000x1 S3200000x32 [1] [0] [] [0] [] 1 ![1, 32]
  dot_S12800x3_S3x32_S12800x32_1_0_0_1_n_n_wf : DotDims.WF S12800x3 S3x32 S12800x32 [1] [0] [0] [1] [] []
  scatter_S100000x32_S3200000x1_S3200000x32_1_0_0_1_wf : ScatterDims.WF S100000x32 S3200000x1 S3200000x32 [1] [0] [0] 1
  dot_S10000x32_S32x75_S10000x75_1_0_0_1_n_n_wf : DotDims.WF S10000x32 S32x75 S10000x75 [1] [0] [0] [1] [] []
  dot_S10000x75_S75x32_S10000x32_1_0_0_1_n_n_wf : DotDims.WF S10000x75 S75x32 S10000x32 [1] [0] [0] [1] [] []
  scatter_S5000x32_S100000x1_S100000x32_1_0_0_1_wf : ScatterDims.WF S5000x32 S100000x1 S100000x32 [1] [0] [0] 1
  scatter_S5000_S100000x1_S100000_n_0_0_1_wf : ScatterDims.WF S5000 S100000x1 S100000 [] [0] [0] 1
  dot_S5000x32_S32x16_S5000x16_1_0_0_1_n_n_wf : DotDims.WF S5000x32 S32x16 S5000x16 [1] [0] [0] [1] [] []
  dot_S5000x16_S16x2_S5000x2_1_0_0_1_n_n_wf : DotDims.WF S5000x16 S16x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x14.size a ≤ S100000x14.size a
  hwx0_0 : ∀ i : grid0.Coords, EltTy.bits .f32 = 32 ∨ (Rect.block (s := S100000x14) S10000x14.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x32.size a ≤ S14x32.size a
  hwx0_1 : ∀ i : grid0.Coords, EltTy.bits .f32 = 32 ∨ (Rect.block (s := S14x32) S14x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x32.size a ≤ S3200000x32.size a
  hwx1_0 : ∀ i : grid1.Coords, EltTy.bits .f32 = 32 ∨ (Rect.block (s := S3200000x32) S12800x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x3.size a ≤ S3200000x3.size a
  hwx1_1 : ∀ i : grid1.Coords, EltTy.bits .f32 = 32 ∨ (Rect.block (s := S3200000x3) S12800x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x32.size a ≤ S3x32.size a
  hwx1_2 : ∀ i : grid1.Coords, EltTy.bits .f32 = 32 ∨ (Rect.block (s := S3x32) S3x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S12800x32.size a ≤ S3200000x32.size a
  hwx1_4 : ∀ i : grid1.Coords, EltTy.bits .f32 = 32 ∨ (Rect.block (s := S3200000x32) S12800x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x75.size a ≤ S32x75.size a
  hwx2_2 : ∀ i : grid2.Coords, EltTy.bits .f32 = 32 ∨ (Rect.block (s := S32x75) S32x75.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S75.size a ≤ S75.size a
  hwx2_3 : ∀ i : grid2.Coords, EltTy.bits .f32 = 32 ∨ (Rect.block (s := S75) S75.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S75x32.size a ≤ S75x32.size a
  hwx2_4 : ∀ i : grid2.Coords, EltTy.bits .f32 = 32 ∨ (Rect.block (s := S75x32) S75x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32.size a ≤ S32.size a
  hwx2_5 : ∀ i : grid2.Coords, EltTy.bits .f32 = 32 ∨ (Rect.block (s := S32) S32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x32.size a ≤ S100000x32.size a
  hwx2_6 : ∀ i : grid2.Coords, EltTy.bits .f32 = 32 ∨ (Rect.block (s := S100000x32) S10000x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32.size a ≤ S32.size a
  hwx2_7 : ∀ i : grid2.Coords, EltTy.bits .f32 = 32 ∨ (Rect.block (s := S32) S32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32.size a ≤ S32.size a
  hwx2_8 : ∀ i : grid2.Coords, EltTy.bits .f32 = 32 ∨ (Rect.block (s := S32) S32.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32.size a ≤ S32.size a
  hwx3_1 : ∀ i : grid3.Coords, EltTy.bits .f32 = 32 ∨ (Rect.block (s := S32) S32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12800x32.size a ≤ S3200000x32.size a
  hwx4_0 : ∀ i : grid4.Coords, EltTy.bits .f32 = 32 ∨ (Rect.block (s := S3200000x32) S12800x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12800x3.size a ≤ S3200000x3.size a
  hwx4_1 : ∀ i : grid4.Coords, EltTy.bits .f32 = 32 ∨ (Rect.block (s := S3200000x3) S12800x3.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3x32.size a ≤ S3x32.size a
  hwx4_2 : ∀ i : grid4.Coords, EltTy.bits .f32 = 32 ∨ (Rect.block (s := S3x32) S3x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32.size a ≤ S32.size a
  hwx4_3 : ∀ i : grid4.Coords, EltTy.bits .f32 = 32 ∨ (Rect.block (s := S32) S32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S12800x32.size a ≤ S3200000x32.size a
  hwx4_4 : ∀ i : grid4.Coords, EltTy.bits .f32 = 32 ∨ (Rect.block (s := S3200000x32) S12800x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S100000x32.size a
  hwx5_1 : ∀ i : grid5.Coords, EltTy.bits .f32 = 32 ∨ (Rect.block (s := S100000x32) S10000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x75.size a ≤ S32x75.size a
  hwx5_2 : ∀ i : grid5.Coords, EltTy.bits .f32 = 32 ∨ (Rect.block (s := S32x75) S32x75.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S75.size a ≤ S75.size a
  hwx5_3 : ∀ i : grid5.Coords, EltTy.bits .f32 = 32 ∨ (Rect.block (s := S75) S75.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S75x32.size a ≤ S75x32.size a
  hwx5_4 : ∀ i : grid5.Coords, EltTy.bits .f32 = 32 ∨ (Rect.block (s := S75x32) S75x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32.size a ≤ S32.size a
  hwx5_5 : ∀ i : grid5.Coords, EltTy.bits .f32 = 32 ∨ (Rect.block (s := S32) S32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x32.size a ≤ S100000x32.size a
  hwx5_6 : ∀ i : grid5.Coords, EltTy.bits .f32 = 32 ∨ (Rect.block (s := S100000x32) S10000x32.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S32.size a ≤ S32.size a
  hwx5_7 : ∀ i : grid5.Coords, EltTy.bits .f32 = 32 ∨ (Rect.block (s := S32) S32.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S32.size a ≤ S32.size a
  hwx5_8 : ∀ i : grid5.Coords, EltTy.bits .f32 = 32 ∨ (Rect.block (s := S32) S32.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32.size a ≤ S32.size a
  hwx6_1 : ∀ i : grid6.Coords, EltTy.bits .f32 = 32 ∨ (Rect.block (s := S32) S32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32.size a ≤ S32.size a
  hwx6_2 : ∀ i : grid6.Coords, EltTy.bits .f32 = 32 ∨ (Rect.block (s := S32) S32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x32.size a ≤ S100000x32.size a
  hwx6_3 : ∀ i : grid6.Coords, EltTy.bits .f32 = 32 ∨ (Rect.block (s := S100000x32) S10000x32.size (cc6_transform_3 i) (hinb6_3 i)).WholeWords (EltTy.packing .f32)

variable [Facts₀]

def dot_S10000x14_S14x32_S10000x32_1_0_0_1_n_n : DotDims S10000x14 S14x32 S10000x32 where
  lhsContracting := [1]
  rhsContracting := [0]
  lhsNonContracting := [0]
  rhsNonContracting := [1]
  lhsBatch := []
  rhsBatch := []
  wf := dot_S10000x14_S14x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S12800x3_S3x32_S12800x32_1_0_0_1_n_n : DotDims S12800x3 S3x32 S12800x32 where
  lhsContracting := [1]
  rhsContracting := [0]
  lhsNonContracting := [0]
  rhsNonContracting := [1]
  lhsBatch := []
  rhsBatch := []
  wf := dot_S12800x3_S3x32_S12800x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x75_S10000x75_1_0_0_1_n_n : DotDims S10000x32 S32x75 S10000x75 where
  lhsContracting := [1]
  rhsContracting := [0]
  lhsNonContracting := [0]
  rhsNonContracting := [1]
  lhsBatch := []
  rhsBatch := []
  wf := dot_S10000x32_S32x75_S10000x75_1_0_0_1_n_n_wf
def dot_S10000x75_S75x32_S10000x32_1_0_0_1_n_n : DotDims S10000x75 S75x32 S10000x32 where
  lhsContracting := [1]
  rhsContracting := [0]
  lhsNonContracting := [0]
  rhsNonContracting := [1]
  lhsBatch := []
  rhsBatch := []
  wf := dot_S10000x75_S75x32_S10000x32_1_0_0_1_n_n_wf
def scatter_S5000x32_S100000x1_S100000x32_1_0_0_1 : ScatterDims S5000x32 S100000x1 S100000x32 where
  updateWindowDims := [1]
  insertedWindowDims := [0]
  scatterDimsToOperandDims := [0]
  indexVectorDim := 1
  wf := scatter_S5000x32_S100000x1_S100000x32_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

abbrev win0_0 : Pipeline.Window sig grid0 :=
  Pipeline.Window.ofSpec (Memref.whole main_arg0) S10000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S14x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S12800x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S12800x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S3x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S12800x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S32x75.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S75.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S75x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18_0) S10000x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v18_1) S32.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v18_2) S32.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v18_0) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v36) S12800x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S12800x3.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S3x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v37) S12800x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v35) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S10000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S32x75.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S75.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v46) S75x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v48) S32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v49_0) S10000x32.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v49_1) S32.size cc5_transform_7 reads5_7 true true 1 stage5_7 sem5_7
    hrank5 hreads5_7 hinb5_7 nbuf5_7 (Memref.isWhole_whole _) hwx5_7 hstage5_7

abbrev win5_8 : Pipeline.Window sig grid5 :=
  Pipeline.Window.ofSpec (Memref.whole main_v49_2) S32.size cc5_transform_8 reads5_8 true true 1 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev idle5 : Fin 9 → grid5.Coords → Bool := fun | 0 => fun _ => false | 1 => fun _ => false | 2 => fun _ => false | 3 => fun _ => false | 4 => fun _ => false | 5 => fun _ => false | 6 => fun _ => false | 7 => fun i => !(k5_cond2 i == 1#1) | 8 => fun i => !(k5_cond2 i == 1#1) | ⟨_ + 9, h⟩ => absurd h (Nat.not_lt.2 (Nat.le_add_left _ _))

abbrev win6_0 : Pipeline.Window sig grid6 :=
  Pipeline.Window.ofSpec (Memref.whole main_v49_0) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v66) S10000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x14 : Shape := ⟨2, ![100000, 14]⟩
abbrev S2x3200000 : Shape := ⟨2, ![2, 3200000]⟩
abbrev S3200000x3 : Shape := ⟨2, ![3200000, 3]⟩
abbrev S100000 : Shape := ⟨1, ![100000]⟩
abbrev S14x32 : Shape := ⟨2, ![14, 32]⟩
abbrev S32 : Shape := ⟨1, ![32]⟩
abbrev S3x32 : Shape := ⟨2, ![3, 32]⟩
abbrev S2x32x75 : Shape := ⟨3, ![2, 32, 75]⟩
abbrev S2x75 : Shape := ⟨2, ![2, 75]⟩
abbrev S2x75x32 : Shape := ⟨3, ![2, 75, 32]⟩
abbrev S2x32 : Shape := ⟨2, ![2, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000x32 : Shape := ⟨2, ![100000, 32]⟩
abbrev S1x32 : Shape := ⟨2, ![1, 32]⟩
abbrev S3200000x32 : Shape := ⟨2, ![3200000, 32]⟩
abbrev S_ : Shape := ⟨0, ![]⟩
abbrev S3200000x1 : Shape := ⟨2, ![3200000, 1]⟩
abbrev S1x32x75 : Shape := ⟨3, ![1, 32, 75]⟩
abbrev S32x75 : Shape := ⟨2, ![32, 75]⟩
abbrev S100000x75 : Shape := ⟨2, ![100000, 75]⟩
abbrev S1x75 : Shape := ⟨2, ![1, 75]⟩
abbrev S75 : Shape := ⟨1, ![75]⟩
abbrev S1x75x32 : Shape := ⟨3, ![1, 75, 32]⟩
abbrev S75x32 : Shape := ⟨2, ![75, 32]⟩
abbrev S5000x32 : Shape := ⟨2, ![5000, 32]⟩
abbrev S100000x1 : Shape := ⟨2, ![100000, 1]⟩
abbrev S5000 : Shape := ⟨1, ![5000]⟩
abbrev S5000x1 : Shape := ⟨2, ![5000, 1]⟩
abbrev S5000x16 : Shape := ⟨2, ![5000, 16]⟩
abbrev S1x16 : Shape := ⟨2, ![1, 16]⟩
abbrev S5000x2 : Shape := ⟨2, ![5000, 2]⟩
abbrev S1x2 : Shape := ⟨2, ![1, 2]⟩

abbrev nBuf : Space → Nat
  | .hbm => 233
  | .vmem => 0
  | .smem => 0
  | _ => 0

abbrev hbmTy0_0 (i : Nat) : BufTy := match i % 128 with
  | 0 => ⟨S100000x14, .f32⟩
  | 1 => ⟨S2x3200000, .i32⟩
  | 2 => ⟨S3200000x3, .f32⟩
  | 3 => ⟨S100000, .i32⟩
  | 4 => ⟨S14x32, .f32⟩
  | 5 => ⟨S32, .f32⟩
  | 6 => ⟨S3x32, .f32⟩
  | 7 => ⟨S32, .f32⟩
  | 8 => ⟨S2x32x75, .f32⟩
  | 9 => ⟨S2x75, .f32⟩
  | 10 => ⟨S2x75x32, .f32⟩
  | 11 => ⟨S2x32, .f32⟩
  | 12 => ⟨S2x32, .f32⟩
  | 13 => ⟨S2x32, .f32⟩
  | 14 => ⟨S32x16, .f32⟩
  | 15 => ⟨S16, .f32⟩
  | 16 => ⟨S16x2, .f32⟩
  | 17 => ⟨S2, .f32⟩
  | 18 => ⟨S1x3200000, .i32⟩
  | 19 => ⟨S3200000, .i32⟩
  | 20 => ⟨S1x3200000, .i32⟩
  | 21 => ⟨S3200000, .i32⟩
  | 22 => ⟨S100000x32, .f32⟩
  | 23 => ⟨S1x32, .f32⟩
  | 24 => ⟨S100000x32, .f32⟩
  | 25 => ⟨S100000x32, .f32⟩
  | 26 => ⟨S3200000x32, .f32⟩
  | 27 => ⟨S1x32, .f32⟩
  | 28 => ⟨S3200000x32, .f32⟩
  | 29 => ⟨S3200000x32, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x32, .f32⟩
  | 39 => ⟨S3200000x32, .f32⟩
  | 40 => ⟨S_, .f32⟩
  | 41 => ⟨S3200000x32, .f32⟩
  | 42 => ⟨S3200000x32, .f32⟩
  | 43 => ⟨S_, .f32⟩
  | 44 => ⟨S100000x32, .f32⟩
  | 45 => ⟨S3200000x1, .i32⟩
  | 46 => ⟨S100000x32, .f32⟩
  | 47 => ⟨S100000x32, .f32⟩
  | 48 => ⟨S1x32x75, .f32⟩
  | 49 => ⟨S32x75, .f32⟩
  | 50 => ⟨S100000x75, .f32⟩
  | 51 => ⟨S1x75, .f32⟩
  | 52 => ⟨S75, .f32⟩
  | 53 => ⟨S1x75, .f32⟩
  | 54 => ⟨S100000x75, .f32⟩
  | 55 => ⟨S100000x75, .f32⟩
  | 56 => ⟨S_, .f32⟩
  | 57 => ⟨S100000x75, .f32⟩
  | 58 => ⟨S100000x75, .f32⟩
  | 59 => ⟨S1x75x32, .f32⟩
  | 60 => ⟨S75x32, .f32⟩
  | 61 => ⟨S100000x32, .f32⟩
  | 62 => ⟨S1x32, .f32⟩
  | 63 => ⟨S32, .f32⟩
  | 64 => ⟨S1x32, .f32⟩
  | 65 => ⟨S100000x32, .f32⟩
  | 66 => ⟨S100000x32, .f32⟩
  | 67 => ⟨S_, .f32⟩
  | 68 => ⟨S32, .f32⟩
  | 69 => ⟨S_, .f32⟩
  | 70 => ⟨S32, .f32⟩
  | 71 => ⟨S32, .f32⟩
  | 72 => ⟨S_, .i32⟩
  | 73 => ⟨S_, .f32⟩
  | 74 => ⟨S32, .f32⟩
  | 75 => ⟨S1x32, .f32⟩
  | 76 => ⟨S_, .f32⟩
  | 77 => ⟨S1x32, .f32⟩
  | 78 => ⟨S1x32, .f32⟩
  | 79 => ⟨S100000x32, .f32⟩
  | 80 => ⟨S100000x32, .f32⟩
  | 81 => ⟨S100000x32, .f32⟩
  | 82 => ⟨S_, .f32⟩
  | 83 => ⟨S_, .f32⟩
  | 84 => ⟨S_, .f32⟩
  | 85 => ⟨S_, .f32⟩
  | 86 => ⟨S32, .f32⟩
  | 87 => ⟨S32, .f32⟩
  | 88 => ⟨S32, .f32⟩
  | 89 => ⟨S_, .f32⟩
  | 90 => ⟨S_, .i1⟩
  | 91 => ⟨S_, .f32⟩
  | 92 => ⟨S_, .f32⟩
  | 93 => ⟨S32, .f32⟩
  | 94 => ⟨S32, .f32⟩
  | 95 => ⟨S1x32, .f32⟩
  | 96 => ⟨S100000x32, .f32⟩
  | 97 => ⟨S100000x32, .f32⟩
  | 98 => ⟨S_, .f32⟩
  | 99 => ⟨S32, .f32⟩
  | 100 => ⟨S32, .f32⟩
  | 101 => ⟨S32, .f32⟩
  | 102 => ⟨S1x32, .f32⟩
  | 103 => ⟨S100000x32, .f32⟩
  | 104 => ⟨S100000x32, .f32⟩
  | 105 => ⟨S1x32, .f32⟩
  | 106 => ⟨S32, .f32⟩
  | 107 => ⟨S1x32, .f32⟩
  | 108 => ⟨S100000x32, .f32⟩
  | 109 => ⟨S100000x32, .f32⟩
  | 110 => ⟨S1x32, .f32⟩
  | 111 => ⟨S32, .f32⟩
  | 112 => ⟨S1x32, .f32⟩
  | 113 => ⟨S100000x32, .f32⟩
  | 114 => ⟨S100000x32, .f32⟩
  | 115 => ⟨S_, .f32⟩
  | 116 => ⟨S100000x32, .f32⟩
  | 117 => ⟨S100000x32, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S3200000x32, .f32⟩
  | 127 => ⟨S3200000x32, .f32⟩
  | _ => ⟨S100000x14, .f32⟩

abbrev hbmTy0_1 (i : Nat) : BufTy := match i % 128 with
  | 0 => ⟨S_, .f32⟩
  | 1 => ⟨S3200000x32, .f32⟩
  | 2 => ⟨S3200000x32, .f32⟩
  | 3 => ⟨S_, .f32⟩
  | 4 => ⟨S100000x32, .f32⟩
  | 5 => ⟨S3200000x1, .i32⟩
  | 6 => ⟨S100000x32, .f32⟩
  | 7 => ⟨S100000x32, .f32⟩
  | 8 => ⟨S1x32x75, .f32⟩
  | 9 => ⟨S32x75, .f32⟩
  | 10 => ⟨S100000x75, .f32⟩
  | 11 => ⟨S1x75, .f32⟩
  | 12 => ⟨S75, .f32⟩
  | 13 => ⟨S1x75, .f32⟩
  | 14 => ⟨S100000x75, .f32⟩
  | 15 => ⟨S100000x75, .f32⟩
  | 16 => ⟨S_, .f32⟩
  | 17 => ⟨S100000x75, .f32⟩
  | 18 => ⟨S100000x75, .f32⟩
  | 19 => ⟨S1x75x32, .f32⟩
  | 20 => ⟨S75x32, .f32⟩
  | 21 => ⟨S100000x32, .f32⟩
  | 22 => ⟨S1x32, .f32⟩
  | 23 => ⟨S32, .f32⟩
  | 24 => ⟨S1x32, .f32⟩
  | 25 => ⟨S100000x32, .f32⟩
  | 26 => ⟨S100000x32, .f32⟩
  | 27 => ⟨S_, .f32⟩
  | 28 => ⟨S32, .f32⟩
  | 29 => ⟨S_, .f32⟩
  | 30 => ⟨S32, .f32⟩
  | 31 => ⟨S32, .f32⟩
  | 32 => ⟨S_, .i32⟩
  | 33 => ⟨S_, .f32⟩
  | 34 => ⟨S32, .f32⟩
  | 35 => ⟨S1x32, .f32⟩
  | 36 => ⟨S_, .f32⟩
  | 37 => ⟨S1x32, .f32⟩
  | 38 => ⟨S1x32, .f32⟩
  | 39 => ⟨S100000x32, .f32⟩
  | 40 => ⟨S100000x32, .f32⟩
  | 41 => ⟨S100000x32, .f32⟩
  | 42 => ⟨S_, .f32⟩
  | 43 => ⟨S_, .f32⟩
  | 44 => ⟨S_, .f32⟩
  | 45 => ⟨S_, .f32⟩
  | 46 => ⟨S32, .f32⟩
  | 47 => ⟨S32, .f32⟩
  | 48 => ⟨S32, .f32⟩
  | 49 => ⟨S_, .f32⟩
  | 50 => ⟨S_, .i1⟩
  | 51 => ⟨S_, .f32⟩
  | 52 => ⟨S_, .f32⟩
  | 53 => ⟨S32, .f32⟩
  | 54 => ⟨S32, .f32⟩
  | 55 => ⟨S1x32, .f32⟩
  | 56 => ⟨S100000x32, .f32⟩
  | 57 => ⟨S100000x32, .f32⟩
  | 58 => ⟨S_, .f32⟩
  | 59 => ⟨S32, .f32⟩
  | 60 => ⟨S32, .f32⟩
  | 61 => ⟨S32, .f32⟩
  | 62 => ⟨S1x32, .f32⟩
  | 63 => ⟨S100000x32, .f32⟩
  | 64 => ⟨S100000x32, .f32⟩
  | 65 => ⟨S1x32, .f32⟩
  | 66 => ⟨S32, .f32⟩
  | 67 => ⟨S1x32, .f32⟩
  | 68 => ⟨S100000x32, .f32⟩
  | 69 => ⟨S100000x32, .f32⟩
  | 70 => ⟨S1x32, .f32⟩
  | 71 => ⟨S32, .f32⟩
  | 72 => ⟨S1x32, .f32⟩
  | 73 => ⟨S100000x32, .f32⟩
  | 74 => ⟨S100000x32, .f32⟩
  | 75 => ⟨S_, .f32⟩
  | 76 => ⟨S100000x32, .f32⟩
  | 77 => ⟨S100000x32, .f32⟩
  | 78 => ⟨S_, .f32⟩
  | 79 => ⟨S5000x32, .f32⟩
  | 80 => ⟨S100000x1, .i32⟩
  | 81 => ⟨S5000x32, .f32⟩
  | 82 => ⟨S_, .f32⟩
  | 83 => ⟨S100000, .f32⟩
  | 84 => ⟨S_, .f32⟩
  | 85 => ⟨S5000, .f32⟩
  | 86 => ⟨S100000x1, .i32⟩
  | 87 => ⟨S5000, .f32⟩
  | 88 => ⟨S_, .f32⟩
  | 89 => ⟨S5000, .f32⟩
  | 90 => ⟨S5000, .f32⟩
  | 91 => ⟨S5000x1, .f32⟩
  | 92 => ⟨S5000x32, .f32⟩
  | 93 => ⟨S5000x32, .f32⟩
  | 94 => ⟨S5000x16, .f32⟩
  | 95 => ⟨S1x16, .f32⟩
  | 96 => ⟨S5000x16, .f32⟩
  | 97 => ⟨S5000x16, .f32⟩
  | 98 => ⟨S_, .f32⟩
  | 99 => ⟨S5000x16, .f32⟩
  | 100 => ⟨S5000x16, .f32⟩
  | 101 => ⟨S5000x2, .f32⟩
  | 102 => ⟨S1x2, .f32⟩
  | 103 => ⟨S5000x2, .f32⟩
  | 104 => ⟨S5000x2, .f32⟩
  | _ => ⟨S100000x14, .f32⟩

abbrev hbmTy (i : Nat) : BufTy := match i / 128 with
  | 0 => hbmTy0_0 i
  | 1 => hbmTy0_1 i
  | _ => ⟨S100000x14, .f32⟩

abbrev bufTy : (tb : Table) → Fin (tcTables nBuf tb) → BufTy
  | .hbm, ⟨i, _⟩ => hbmTy i
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_cst : Ref sig .tc := ⟨.hbm, 56, rfl⟩
abbrev main_call1_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_cst_2 : Ref sig .tc := ⟨.hbm, 69, rfl⟩
abbrev main_v43 : Ref sig .tc := ⟨.hbm, 70, rfl⟩
abbrev main_v44 : Ref sig .tc := ⟨.hbm, 71, rfl⟩
abbrev main_c_3 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_4 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_call3_cst : Ref sig .tc := ⟨.hbm, 115, rfl⟩
abbrev main_call3_v0 : Ref sig .tc := ⟨.hbm, 116, rfl⟩
abbrev main_v65 : Ref sig .tc := ⟨.hbm, 117, rfl⟩
abbrev main_c_5 : Ref sig .tc := ⟨.hbm, 118, rfl⟩
abbrev main_v66 : Ref sig .tc := ⟨.hbm, 119, rfl⟩
abbrev main_v67 : Ref sig .tc := ⟨.hbm, 120, rfl⟩
abbrev main_c_6 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call4_cst : Ref sig .tc := ⟨.hbm, 128, rfl⟩
abbrev main_call4_v0 : Ref sig .tc := ⟨.hbm, 129, rfl⟩
abbrev main_v74 : Ref sig .tc := ⟨.hbm, 130, rfl⟩
abbrev main_cst_7 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_call5_cst : Ref sig .tc := ⟨.hbm, 144, rfl⟩
abbrev main_call5_v0 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_8 : Ref sig .tc := ⟨.hbm, 155, rfl⟩
abbrev main_v96 : Ref sig .tc := ⟨.hbm, 156, rfl⟩
abbrev main_cst_9 : Ref sig .tc := ⟨.hbm, 157, rfl⟩
abbrev main_v97 : Ref sig .tc := ⟨.hbm, 158, rfl⟩
abbrev main_v98 : Ref sig .tc := ⟨.hbm, 159, rfl⟩
abbrev main_c_10 : Ref sig .tc := ⟨.hbm, 160, rfl⟩
abbrev main_call6_cst : Ref sig .tc := ⟨.hbm, 161, rfl⟩
abbrev main_call6_v0 : Ref sig .tc := ⟨.hbm, 162, rfl⟩
abbrev main_call6_v1 : Ref sig .tc := ⟨.hbm, 163, rfl⟩
abbrev main_call6_cst_0 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_v5 : Ref sig .tc := ⟨.hbm, 168, rfl⟩
abbrev main_call6_v6 : Ref sig .tc := ⟨.hbm, 169, rfl⟩
abbrev main_call6_v7 : Ref sig .tc := ⟨.hbm, 170, rfl⟩
abbrev main_call6_cst_1 : Ref sig .tc := ⟨.hbm, 171, rfl⟩
abbrev main_call6_v8 : Ref sig .tc := ⟨.hbm, 172, rfl⟩
abbrev main_call6_cst_2 : Ref sig .tc := ⟨.hbm, 173, rfl⟩
abbrev main_call6_v9 : Ref sig .tc := ⟨.hbm, 174, rfl⟩
abbrev main_call6_v10 : Ref sig .tc := ⟨.hbm, 175, rfl⟩
abbrev main_call6_v11 : Ref sig .tc := ⟨.hbm, 176, rfl⟩
abbrev main_call6_cst_3 : Ref sig .tc := ⟨.hbm, 177, rfl⟩
abbrev main_call6_v12 : Ref sig .tc := ⟨.hbm, 178, rfl⟩
abbrev main_call6_cst_4 : Ref sig .tc := ⟨.hbm, 179, rfl⟩
abbrev main_call6_call0_v0 : Ref sig .tc := ⟨.hbm, 180, rfl⟩
abbrev main_call6_call0_v1 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_cst_11 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_call7_cst : Ref sig .tc := ⟨.hbm, 203, rfl⟩
abbrev main_call7_v0 : Ref sig .tc := ⟨.hbm, 204, rfl⟩
abbrev main_v119 : Ref sig .tc := ⟨.hbm, 205, rfl⟩
abbrev main_cst_12 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_cst_13 : Ref sig .tc := ⟨.hbm, 210, rfl⟩
abbrev main_v123 : Ref sig .tc := ⟨.hbm, 211, rfl⟩
abbrev main_cst_14 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_cst_15 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_call8_cst : Ref sig .tc := ⟨.hbm, 226, rfl⟩
abbrev main_call8_v0 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1x32_S3200000x32_0_1 : S1x32.BroadcastsInDim S3200000x32 (![0, 1] : Fin 2 → Fin S3200000x32.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x32 : S_.BroadcastsInDim S3200000x32 (![] : Fin 0 → Fin S3200000x32.rank)
  bcast_S_S100000x32 : S_.BroadcastsInDim S100000x32 (![] : Fin 0 → Fin S100000x32.rank)
  slices_S2x32x75_S1x32x75_0_0_0 : S2x32x75.Slices ![0, 0, 0] S1x32x75
  shapeCasts_S1x32x75_S32x75 : S1x32x75.ShapeCasts S32x75
  slices_S2x75_S1x75_0_0 : S2x75.Slices ![0, 0] S1x75
  shapeCasts_S1x75_S75 : S1x75.ShapeCasts S75
  bcast_S75_S1x75_1 : S75.BroadcastsInDim S1x75 (![1] : Fin 1 → Fin S1x75.rank)
  bcast_S1x75_S100000x75_0_1 : S1x75.BroadcastsInDim S100000x75 (![0, 1] : Fin 2 → Fin S100000x75.rank)
  bcast_S_S100000x75 : S_.BroadcastsInDim S100000x75 (![] : Fin 0 → Fin S100000x75.rank)
  slices_S2x75x32_S1x75x32_0_0_0 : S2x75x32.Slices ![0, 0, 0] S1x75x32
  shapeCasts_S1x75x32_S75x32 : S1x75x32.ShapeCasts S75x32
  slices_S2x32_S1x32_0_0 : S2x32.Slices ![0, 0] S1x32
  shapeCasts_S1x32_S32 : S1x32.ShapeCasts S32
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  slices_S2x32x75_S1x32x75_1_0_0 : S2x32x75.Slices ![1, 0, 0] S1x32x75
  slices_S2x75_S1x75_1_0 : S2x75.Slices ![1, 0] S1x75
  slices_S2x75x32_S1x75x32_1_0_0 : S2x75x32.Slices ![1, 0, 0] S1x75x32
  slices_S2x32_S1x32_1_0 : S2x32.Slices ![1, 0] S1x32
  bcast_S_S5000x32 : S_.BroadcastsInDim S5000x32 (![] : Fin 0 → Fin S5000x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x32_0_1 : S5000x1.BroadcastsInDim S5000x32 (![0, 1] : Fin 2 → Fin S5000x32.rank)
  bcast_S16_S1x16_1 : S16.BroadcastsInDim S1x16 (![1] : Fin 1 → Fin S1x16.rank)
  bcast_S1x16_S5000x16_0_1 : S1x16.BroadcastsInDim S5000x16 (![0, 1] : Fin 2 → Fin S5000x16.rank)
  bcast_S_S5000x16 : S_.BroadcastsInDim S5000x16 (![] : Fin 0 → Fin S5000x16.rank)
  bcast_S2_S1x2_1 : S2.BroadcastsInDim S1x2 (![1] : Fin 1 → Fin S1x2.rank)
  bcast_S1x2_S5000x2_0_1 : S1x2.BroadcastsInDim S5000x2 (![0, 1] : Fin 2 → Fin S5000x2.rank)
  dot_S100000x14_S14x32_S100000x32_1_0_0_1_n_n_wf : DotDims.WF S100000x14 S14x32 S100000x32 [1] [0] [0] [1] [] []
  dot_S3200000x3_S3x32_S3200000x32_1_0_0_1_n_n_wf : DotDims.WF S3200000x3 S3x32 S3200000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x75_S100000x75_1_0_0_1_n_n_wf : DotDims.WF S100000x32 S32x75 S100000x75 [1] [0] [0] [1] [] []
  dot_S100000x75_S75x32_S100000x32_1_0_0_1_n_n_wf : DotDims.WF S100000x75 S75x32 S100000x32 [1] [0] [0] [1] [] []
  scatter_S5000x32_S100000x1_S100000x32_1_0_0_1_wf : ScatterDims.WF S5000x32 S100000x1 S100000x32 [1] [0] [0] 1
  scatter_S5000_S100000x1_S100000_n_0_0_1_wf : ScatterDims.WF S5000 S100000x1 S100000 [] [0] [0] 1
  dot_S5000x32_S32x16_S5000x16_1_0_0_1_n_n_wf : DotDims.WF S5000x32 S32x16 S5000x16 [1] [0] [0] [1] [] []
  dot_S5000x16_S16x2_S5000x2_1_0_0_1_n_n_wf : DotDims.WF S5000x16 S16x2 S5000x2 [1] [0] [0] [1] [] []

variable [Facts₀]

def dot_S100000x14_S14x32_S100000x32_1_0_0_1_n_n : DotDims S100000x14 S14x32 S100000x32 where
  lhsContracting := [1]
  rhsContracting := [0]
  lhsNonContracting := [0]
  rhsNonContracting := [1]
  lhsBatch := []
  rhsBatch := []
  wf := dot_S100000x14_S14x32_S100000x32_1_0_0_1_n_n_wf
def dot_S3200000x3_S3x32_S3200000x32_1_0_0_1_n_n : DotDims S3200000x3 S3x32 S3200000x32 where
  lhsContracting := [1]
  rhsContracting := [0]
  lhsNonContracting := [0]
  rhsNonContracting := [1]
  lhsBatch := []
  rhsBatch := []
  wf := dot_S3200000x3_S3x32_S3200000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x75_S100000x75_1_0_0_1_n_n : DotDims S100000x32 S32x75 S100000x75 where
  lhsContracting := [1]
  rhsContracting := [0]
  lhsNonContracting := [0]
  rhsNonContracting := [1]
  lhsBatch := []
  rhsBatch := []
  wf := dot_S100000x32_S32x75_S100000x75_1_0_0_1_n_n_wf
def dot_S100000x75_S75x32_S100000x32_1_0_0_1_n_n : DotDims S100000x75 S75x32 S100000x32 where
  lhsContracting := [1]
  rhsContracting := [0]
  lhsNonContracting := [0]
  rhsNonContracting := [1]
  lhsBatch := []
  rhsBatch := []
  wf := dot_S100000x75_S75x32_S100000x32_1_0_0_1_n_n_wf
def scatter_S5000x32_S100000x1_S100000x32_1_0_0_1 : ScatterDims S5000x32 S100000x1 S100000x32 where
  updateWindowDims := [1]
  insertedWindowDims := [0]
  scatterDimsToOperandDims := [0]
  indexVectorDim := 1
  wf := scatter_S5000x32_S100000x1_S100000x32_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

class Facts : Prop extends Facts₀ where

variable [Facts]
-- ==== Proof.K.R0.lean ====
import proofs.«417359_j61564061221146_2_alg».proof.Proof.Gen.Kernel.Launch
import proofs.«417359_j61564061221146_2_alg».proof.Proof.Gen.Kernel.Skeleton
import proofs.«417359_j61564061221146_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x14 := Rect.unit (s := S10000x14) ![0, 0] S10000x14.size inb_S10000x14_S10000x14_0_0
abbrev r0_w : Rect S14x32 := Rect.unit (s := S14x32) ![0, 0] S14x32.size inb_S14x32_S14x32_0_0
abbrev r0_b : Rect S32 := Rect.unit (s := S32) ![0] S32.size inb_S32_S32_0
abbrev r0_o : Rect S10000x32 := Rect.unit (s := S10000x32) ![0, 0] S10000x32.size inb_S10000x32_S10000x32_0_0

/-- The output block after the body: its one store, over the whole block, of the payload of the three input blocks. -/
def out0_3 (x0 : Vec F S10000x14 .f32) (x1 : Vec F S14x32 .f32) (x2 : Vec F S32 .f32) : Vec F S10000x32 .f32 :=
  View.canon [⟨r0_o, k0_pay1 (View.ld x0 r0_x) (View.ld x1 r0_w) (View.ld x2 r0_b)⟩]

/-- The region's proof data: each input window is left at its block, the output window at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]

theorem before0 (c : Dev nD) (t : Fin cfg0.N) : ∀ (w : Fin cfg0.W) (_ : w ≠ 3) (d), (dat0 V c).before w t d = (dat0 V c).fetched w t d
  | ⟨0, _⟩, _, d | ⟨1, _⟩, _, d | ⟨2, _⟩, _, d =>
    (dat0 V c).before_in_eq_fetched _ rfl (fun _ => rfl) (fun _ _ _ => rfl) (fun _ => rfl) t d
  | ⟨3, _⟩, h, _ => absurd rfl h

/-- The body at a point leaves the inputs as found and the output at `out0_3` of them: its one store covers the block. -/
theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl, after0_3]
  simp +decide only [before0 V c t]
  sl_whnfR [defs₀, Defs.onTc]
  simp only [cc0__node_proj_kernel_eq_skeleton]; unfold cc0__node_proj_kernel_skel owns
  iintro ⟨HΦ, Ho, ⟨%d0, %f0, %hf0, H0⟩, ⟨%d1, %f1, %hf1, H1⟩, ⟨%d2, %f2, %hf2, H2⟩, %d3, %f3, -, H3⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [show iblk0 V c 0 t = _ from hf0.symm, show iblk0 V c 1 t = _ from hf1.symm, show iblk0 V c 2 t = _ from hf2.symm]
  exact View.read_writes_eq_canon _ _ _ (View.cover_of_tiled _ S10000x32.size (by rfl))

end Cert.Kernel.Hand

end
-- ==== Proof.K.R1.lean ====
import proofs.«417359_j61564061221146_2_alg».proof.Proof.Gen.Kernel.Launch
import proofs.«417359_j61564061221146_2_alg».proof.Proof.Gen.Kernel.Skeleton
import proofs.«417359_j61564061221146_2_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S12800x32 := Rect.unit (s := S12800x32) ![0, 0] S12800x32.size inb_S12800x32_S12800x32_0_0
abbrev r1_1 : Rect S12800x3 := Rect.unit (s := S12800x3) ![0, 0] S12800x3.size inb_S12800x3_S12800x3_0_0
abbrev r1_2 : Rect S3x32 := Rect.unit (s := S3x32) ![0, 0] S3x32.size inb_S3x32_S3x32_0_0
abbrev r1_3 : Rect S32 := Rect.unit (s := S32) ![0] S32.size inb_S32_S32_0
abbrev r1_4 : Rect S12800x32 := Rect.unit (s := S12800x32) ![0, 0] S12800x32.size inb_S12800x32_S12800x32_0_0

/-- The output block after the body: its one store, over the whole block, of the payload of the four input blocks. -/
def out1_4 (x0 : Vec F S12800x32 .f32) (x1 : Vec F S12800x3 .f32) (x2 : Vec F S3x32 .f32) (x3 : Vec F S32 .f32) : Vec F S12800x32 .f32 :=
  View.canon [⟨r1_4, k1_pay1 (View.ld x1 r1_1) (View.ld x2 r1_2) (View.ld x3 r1_3) (View.ld x0 r1_0)⟩]

/-- The region's proof data: each input window is left at its block, the output window at `out1_4` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = out1_4 (iblk1 V c 0 t) (iblk1 V c 1 t) (iblk1 V c 2 t) (iblk1 V c 3 t) := by dsimp only [dat1]

theorem before1 (c : Dev nD) (t : Fin cfg1.N) : ∀ (w : Fin cfg1.W) (_ : w ≠ 4) (d), (dat1 V c).before w t d = (dat1 V c).fetched w t d
  | ⟨0, _⟩, _, d | ⟨1, _⟩, _, d | ⟨2, _⟩, _, d | ⟨3, _⟩, _, d =>
    (dat1 V c).before_in_eq_fetched _ rfl (fun _ => rfl) (fun _ _ _ => rfl) (fun _ => rfl) t d
  | ⟨4, _⟩, h, _ => absurd rfl h

/-- The body at a point leaves the inputs as found and the output at `out1_4` of them: its one store covers the block. -/
theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl, after1_4]
  simp +decide only [before1 V c t]
  sl_whnfR [defs₀, Defs.onTc]
  simp only [cc1__msg_kernel_eq_skeleton]; unfold cc1__msg_kernel_skel owns
  iintro ⟨HΦ, Ho, ⟨%d0, %f0, %hf0, H0⟩, ⟨%d1, %f1, %hf1, H1⟩, ⟨%d2, %f2, %hf2, H2⟩, ⟨%d3, %f3, %hf3, H3⟩, %d4, %f4, -, H4⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr
  swap; · iexact H4
  ipureintro
  rw [show iblk1 V c 0 t = _ from hf0.symm, show iblk1 V c 1 t = _ from hf1.symm, show iblk1 V c 2 t = _ from hf2.symm, show iblk1 V c 3 t = _ from hf3.symm]
  exact View.read_writes_eq_canon _ _ _ (View.cover_of_tiled _ S12800x32.size (by rfl))

end Cert.Kernel.Hand
-- ==== Proof.K.Conv.lean ====
import proofs.«417359_j61564061221146_2_alg».proof.Proof.Gen.Kernel.Launch
import proofs.«417359_j61564061221146_2_alg».proof.Proof.Gen.Kernel.Skeleton
import proofs.«417359_j61564061221146_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev convCond0 (i : grid2.Coords) : Prop := (Scalar.cmpi .ne (Scalar.extui (Scalar.cmpi .eq (BitVec.ofNat 32 (i 0).val) 0#32)) 0#32) = 1#1
abbrev convCond1 (i : grid2.Coords) : Prop := k2_cond2 i = 1#1

abbrev convKernel := @cc2__conv_kernel

def convZ (x0 x1 : Vec F S10000x32 .f32) (x2 : Vec F S32x75 .f32) (x3 : Vec F S75 .f32) (x4 : Vec F S75x32 .f32) (x5 : Vec F S32 .f32) : Vec F S10000x32 .f32 :=
  k2_pay4 x0 x1 x2 x3 x4 x5
def convSum (x0 x1 : Vec F S10000x32 .f32) (x2 : Vec F S32x75 .f32) (x3 : Vec F S75 .f32) (x4 : Vec F S75x32 .f32) (x5 : Vec F S32 .f32) (s : Vec F S32 .f32) : Vec F S32 .f32 :=
  k2_pay5 x0 x1 x2 x3 x4 x5 s
def convSq (x0 x1 : Vec F S10000x32 .f32) (x2 : Vec F S32x75 .f32) (x3 : Vec F S75 .f32) (x4 : Vec F S75x32 .f32) (x5 : Vec F S32 .f32) (q : Vec F S32 .f32) : Vec F S32 .f32 :=
  k2_pay1 (k2_pay4 x0 x1 x2 x3 x4 x5) q

private theorem hzOne : (![0] : Fin 1 → ℕ) = fun _ => 0 := by funext a; fin_cases a; rfl
private theorem hzTwo : (![0, 0] : Fin 2 → ℕ) = fun _ => 0 := by funext a; fin_cases a <;> rfl

/-- The newest store covers every index, so reading back gives its payload. -/
private theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, by
    subst h; show y ∈ (Rect.whole S).set; rw [Rect.set_whole]; exact Finset.mem_univ y⟩)).trans
    (View.canon_cons_unit_zero h inb w L)

/-- Loading at offset zero with the full extent is the plain read. -/
private theorem readAt_whole {sg : RefSig} {κ : Kind} {sp : Space} {S : Shape} {e : EltTy} (v : View sg κ sp S e)
    {off : Fin S.rank → Nat} (h : off = fun _ => 0) (inb : ∀ a, off a + S.size a ≤ S.size a) (f : v.ty.Contents (Elt F)) :
    v.readAt (Elt F) (Rect.unit off S.size inb).toLoadRect f = v.read (Elt F) f := by
  rw [View.readAt_eq_ld, View.ld_unit_zero h]

section Body

variable (c : Dev nD) (E : Set ℕ) (i : grid2.Coords)
  (arg1 : Memref sig .tc .vmem S10000x32 .f32) (harg1 : arg1.IsWhole) (arg2 : Memref sig .tc .vmem S10000x32 .f32) (harg2 : arg2.IsWhole)
  (arg3 : Memref sig .tc .vmem S32x75 .f32) (harg3 : arg3.IsWhole) (arg4 : Memref sig .tc .vmem S75 .f32) (harg4 : arg4.IsWhole)
  (arg5 : Memref sig .tc .vmem S75x32 .f32) (harg5 : arg5.IsWhole) (arg6 : Memref sig .tc .vmem S32 .f32) (harg6 : arg6.IsWhole)
  (arg7 : Memref sig .tc .vmem S10000x32 .f32) (harg7 : arg7.IsWhole) (arg8 : Memref sig .tc .vmem S32 .f32) (harg8 : arg8.IsWhole)
  (arg9 : Memref sig .tc .vmem S32 .f32) (harg9 : arg9.IsWhole) (arg10 : Memref sig .tc .vmem S32 .f32) (harg10 : arg10.IsWhole)
  (arg11 : Memref sig .tc .vmem S32 .f32) (harg11 : arg11.IsWhole)
  (x0 x1 : Vec F S10000x32 .f32) (x2 : Vec F S32x75 .f32) (x3 : Vec F S75 .f32) (x4 : Vec F S75x32 .f32) (x5 : Vec F S32 .f32)

/-- The six inputs held at `x0 … x5`. -/
def convIns : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5)

set_option maxHeartbeats 1000000 in
/-- Before the last point: z takes the point's block; the carried pair goes one step on, from the zero vectors at the reset, else from (s, q). -/
theorem conv_step (K : PUnit → sProp 𝕄) (hc1 : ¬convCond1 i) (s q s' q' : Vec F S32 .f32)
    (h : convCond0 i ∧ s' = k2_pay2 ∧ q' = k2_pay3 ∨ ¬convCond0 i ∧ s' = s ∧ q' = q) :
    iprop(convIns c arg1 arg2 arg3 arg4 arg5 arg6 x0 x1 x2 x3 x4 x5 ∗ (∃ d, owns (c : Thread nD τ) arg7 fullShare d) ∗ owns (c : Thread nD τ) arg10 fullShare s ∗ owns (c : Thread nD τ) arg11 fullShare q
        ∗ (iprop(convIns c arg1 arg2 arg3 arg4 arg5 arg6 x0 x1 x2 x3 x4 x5 ∗ owns (c : Thread nD τ) arg7 fullShare (convZ x0 x1 x2 x3 x4 x5)
            ∗ owns (c : Thread nD τ) arg10 fullShare (convSum x0 x1 x2 x3 x4 x5 s') ∗ owns (c : Thread nD τ) arg11 fullShare (convSq x0 x1 x2 x3 x4 x5 q')) -∗ K ⟨⟩))
      ⊢ wp frame (wpE (defs₀ (F := F)) Variants.none c none) E (cc2__conv_kernel i arg1 harg1 arg2 harg2 arg3 harg3 arg4 harg4 arg5 harg5 arg6 harg6 arg7 harg7 arg8 harg8 arg9 harg9 arg10 harg10 arg11 harg11) K := by
  simp only [cc2__conv_kernel_eq_skeleton]; unfold cc2__conv_kernel_skel
  simp only [k2_part1_eq_skeleton]
  unfold convIns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d7, %f7, -, H7⟩, ⟨%fs, %hfs, HS⟩, ⟨%fq, %hfq, HQ⟩, Hk⟩
  obtain ⟨hc0, rfl, rfl⟩ | ⟨hc0, rfl, rfl⟩ := h
  all_goals
    sl_exec (disch := first | exact hc0 | exact hc1)
    sl_step
    iapply Hk
    isplitl [H0 H1 H2 H3 H4 H5]
    · isplitl [H0]; rotate_left; isplitl [H1]; rotate_left; isplitl [H2]; rotate_left; isplitl [H3]; rotate_left; isplitl [H4]; rotate_left
      all_goals (iexists _; isplitr; swap; iassumption; ipureintro; assumption)
    isplitl [H7]; rotate_left; isplitl [HS]; rotate_left
    all_goals
      iexists _; isplitr; swap; iassumption; ipureintro
      try sl_unfold_words
      first | rw [read_writes_whole (S := S10000x32) _ _ hzTwo] | rw [read_writes_whole (S := S32) _ _ hzOne]
      simp only [readAt_whole (S := S10000x32) _ hzTwo, readAt_whole (S := S32x75) _ hzTwo, readAt_whole (S := S75) _ hzOne, readAt_whole (S := S75x32) _ hzTwo, readAt_whole (S := S32) _ hzOne, View.readCov_unit_zero (S := S32) _ hzOne, hf0, hf1, hf2, hf3, hf4, hf5, hfs, hfq]
      rfl

set_option maxHeartbeats 1000000 in
/-- The last point: the same step from (s, q), and the new pair is also left in the two small outputs. -/
theorem conv_last (K : PUnit → sProp 𝕄) (hc0 : ¬convCond0 i) (hc1 : convCond1 i) (s q : Vec F S32 .f32) :
    iprop(convIns c arg1 arg2 arg3 arg4 arg5 arg6 x0 x1 x2 x3 x4 x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s ∗ owns (c : Thread nD τ) arg11 fullShare q
        ∗ (iprop(convIns c arg1 arg2 arg3 arg4 arg5 arg6 x0 x1 x2 x3 x4 x5 ∗ owns (c : Thread nD τ) arg7 fullShare (convZ x0 x1 x2 x3 x4 x5)
            ∗ owns (c : Thread nD τ) arg8 fullShare (convSum x0 x1 x2 x3 x4 x5 s) ∗ owns (c : Thread nD τ) arg9 fullShare (convSq x0 x1 x2 x3 x4 x5 q)
            ∗ owns (c : Thread nD τ) arg10 fullShare (convSum x0 x1 x2 x3 x4 x5 s) ∗ owns (c : Thread nD τ) arg11 fullShare (convSq x0 x1 x2 x3 x4 x5 q)) -∗ K ⟨⟩))
      ⊢ wp frame (wpE (defs₀ (F := F)) Variants.none c none) E (cc2__conv_kernel i arg1 harg1 arg2 harg2 arg3 harg3 arg4 harg4 arg5 harg5 arg6 harg6 arg7 harg7 arg8 harg8 arg9 harg9 arg10 harg10 arg11 harg11) K := by
  simp only [cc2__conv_kernel_eq_skeleton]; unfold cc2__conv_kernel_skel
  simp only [k2_part1_eq_skeleton]
  unfold convIns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d7, %f7, -, H7⟩, ⟨%d8, %f8, -, H8⟩, ⟨%d9, %f9, -, H9⟩, ⟨%fs, %hfs, HS⟩, ⟨%fq, %hfq, HQ⟩, Hk⟩
  sl_exec (disch := first | exact hc0 | exact hc1)
  sl_step
  iapply Hk
  isplitl [H0 H1 H2 H3 H4 H5]
  · isplitl [H0]; rotate_left; isplitl [H1]; rotate_left; isplitl [H2]; rotate_left; isplitl [H3]; rotate_left; isplitl [H4]; rotate_left
    all_goals (iexists _; isplitr; swap; iassumption; ipureintro; assumption)
  isplitl [H7]; rotate_left; isplitl [H8]; rotate_left; isplitl [H9]; rotate_left; isplitl [HS]; rotate_left
  all_goals
    iexists _; isplitr; swap; iassumption; ipureintro
    try sl_unfold_words
    first | rw [read_writes_whole (S := S10000x32) _ _ hzTwo] | rw [read_writes_whole (S := S32) _ _ hzOne]
    simp only [readAt_whole (S := S10000x32) _ hzTwo, readAt_whole (S := S32x75) _ hzTwo, readAt_whole (S := S75) _ hzOne, readAt_whole (S := S75x32) _ hzTwo, readAt_whole (S := S32) _ hzOne, View.readCov_unit_zero (S := S32) _ hzOne, hf0, hf1, hf2, hf3, hf4, hf5, hfs, hfq]
    rfl

end Body

end Cert.Kernel.Hand

end
-- ==== Proof.K.R2.lean ====
import proofs.«417359_j61564061221146_2_alg».proof.Proof.Gen.Kernel.Launch
import proofs.«417359_j61564061221146_2_alg».proof.Proof.Gen.Kernel.Skeleton
import proofs.«417359_j61564061221146_2_alg».proof.Proof.Gen.Kernel.Points
import proofs.«417359_j61564061221146_2_alg».proof.Proof.K.Conv
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev hblk2 (c : Dev nD) (t : Fin cfg2.N) : Vec F S10000x32 .f32 := iblk2 V c 0 t
abbrev ablk2 (c : Dev nD) (t : Fin cfg2.N) : Vec F S10000x32 .f32 := iblk2 V c 1 t
abbrev w1blk2 (c : Dev nD) (t : Fin cfg2.N) : Vec F S32x75 .f32 := iblk2 V c 2 t
abbrev b1blk2 (c : Dev nD) (t : Fin cfg2.N) : Vec F S75 .f32 := iblk2 V c 3 t
abbrev w2blk2 (c : Dev nD) (t : Fin cfg2.N) : Vec F S75x32 .f32 := iblk2 V c 4 t
abbrev b2blk2 (c : Dev nD) (t : Fin cfg2.N) : Vec F S32 .f32 := iblk2 V c 5 t

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

theorem liveAt2 : ∀ (t : Fin cfg2.N) (w : Fin cfg2.W), w.val < 7 ∨ cond2_1 (grid2.coords t) → cfg2.idle w (cfg2.grid.coords t) = false := by decide +kernel
theorem idleAt2 : ∀ (t : Fin cfg2.N) (w : Fin cfg2.W), 7 ≤ w.val → ¬cond2_1 (grid2.coords t) → cfg2.idle w (cfg2.grid.coords t) = true ∧ (cfg2.win w).flush t = false := by decide +kernel

def zOf2 (x0 x1 : Vec F S10000x32 .f32) (x2 : Vec F S32x75 .f32) (x3 : Vec F S75 .f32) (x4 : Vec F S75x32 .f32) (x5 : Vec F S32 .f32) : Vec F S10000x32 .f32 :=
  k2_pay4 x0 x1 x2 x3 x4 x5
def sumOf2 (x0 x1 : Vec F S10000x32 .f32) (x2 : Vec F S32x75 .f32) (x3 : Vec F S75 .f32) (x4 : Vec F S75x32 .f32) (x5 : Vec F S32 .f32) (s : Vec F S32 .f32) : Vec F S32 .f32 :=
  k2_pay5 x0 x1 x2 x3 x4 x5 s
def sqOf2 (x0 x1 : Vec F S10000x32 .f32) (x2 : Vec F S32x75 .f32) (x3 : Vec F S75 .f32) (x4 : Vec F S75x32 .f32) (x5 : Vec F S32 .f32) (q : Vec F S32 .f32) : Vec F S32 .f32 :=
  k2_pay1 (k2_pay4 x0 x1 x2 x3 x4 x5) q

def zAt2 (c : Dev nD) (t : Fin cfg2.N) : Vec F S10000x32 .f32 :=
  zOf2 (hblk2 V c t) (ablk2 V c t) (w1blk2 V c t) (b1blk2 V c t) (w2blk2 V c t) (b2blk2 V c t)

def stepAt2 (c : Dev nD) (t : Fin cfg2.N) (p : Vec F S32 .f32 × Vec F S32 .f32) : Vec F S32 .f32 × Vec F S32 .f32 :=
  (sumOf2 (hblk2 V c t) (ablk2 V c t) (w1blk2 V c t) (b1blk2 V c t) (w2blk2 V c t) (b2blk2 V c t) p.1, sqOf2 (hblk2 V c t) (ablk2 V c t) (w1blk2 V c t) (b1blk2 V c t) (w2blk2 V c t) (b2blk2 V c t) p.2)

def scrAt2 (c : Dev nD) : (n : ℕ) → n < cfg2.N → Vec F S32 .f32 × Vec F S32 .f32
  | 0, hn => stepAt2 V c ⟨0, hn⟩ (k2_pay2, k2_pay3)
  | n + 1, hn => stepAt2 V c ⟨n + 1, hn⟩ (scrAt2 c n (Nat.lt_of_succ_lt hn))

theorem scrAt2_zero (c : Dev nD) (hn : 0 < cfg2.N) : scrAt2 V c 0 hn = stepAt2 V c ⟨0, hn⟩ (k2_pay2, k2_pay3) := rfl
theorem scrAt2_succ (c : Dev nD) (n : ℕ) (hn : n + 1 < cfg2.N) :
    scrAt2 V c (n + 1) hn = stepAt2 V c ⟨n + 1, hn⟩ (scrAt2 V c n (Nat.lt_of_succ_lt hn)) := rfl
theorem scrAt2_first (c : Dev nD) (t : Fin cfg2.N) (hz : t.val = 0) :
    scrAt2 V c t.val t.isLt = stepAt2 V c t (k2_pay2, k2_pay3) := by
  obtain ⟨_ | n, hn⟩ := t
  exacts [rfl, absurd hz (Nat.succ_ne_zero n)]
theorem scrAt2_pos (c : Dev nD) (t : Fin cfg2.N) (hz : t.val ≠ 0) :
    scrAt2 V c t.val t.isLt = stepAt2 V c t (scrAt2 V c (t.val - 1) (Nat.lt_of_le_of_lt (Nat.sub_le _ _) t.isLt)) := by
  obtain ⟨_ | n, hn⟩ := t
  exacts [absurd rfl hz, rfl]

abbrev scM2_0 : Memref sig .tc .vmem S32 .f32 := Memref.whole cc2_scratch0
abbrev scM2_1 : Memref sig .tc .vmem S32 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

/-- The region's resting invariant with the two carried vectors split off the rest of its scoped buffers. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

/-- The invariant before point `n`: the resting one at `n = 0`, else the carried pair pinned to its values after point `n - 1`. -/
def Phi2 (c : Dev nD) : (n : ℕ) → n ≤ cfg2.N → sProp 𝕄
  | 0, _ => Pipeline.ΦA spec2 c
  | n + 1, hn => iprop(iprop(iprop(owns (c : Thread nD τ) scM2_0 fullShare (scrAt2 V c n hn).1 ∗ owns (c : Thread nD τ) scM2_1 fullShare (scrAt2 V c n hn).2) ∗ rest2 c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(iprop(owns (c : Thread nD τ) scM2_0 fullShare (scrAt2 V c n hn).1 ∗ owns (c : Thread nD τ) scM2_1 fullShare (scrAt2 V c n hn).2) ∗ rest2 c) ∗ (∃ r, prngReg c r)) := rfl
theorem Phi2_pos (c : Dev nD) (n : ℕ) (h : n ≤ cfg2.N) (hz : n ≠ 0) :
    Phi2 V c n h = iprop(iprop(iprop(owns (c : Thread nD τ) scM2_0 fullShare (scrAt2 V c (n - 1) (by omega)).1 ∗ owns (c : Thread nD τ) scM2_1 fullShare (scrAt2 V c (n - 1) (by omega)).2) ∗ rest2 c) ∗ (∃ r, prngReg c r)) := by
  obtain _ | n := n
  exacts [absurd rfl hz, rfl]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => zAt2 V c t
    | ⟨7, _⟩ => (scrAt2 V c t.val t.isLt).1
    | ⟨8, _⟩ => (scrAt2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = zAt2 V c t := rfl
theorem after2_7 (c : Dev nD) (t : Fin cfg2.N) : (dat2 V c).after 7 t = (scrAt2 V c t.val t.isLt).1 := rfl
theorem after2_8 (c : Dev nD) (t : Fin cfg2.N) : (dat2 V c).after 8 t = (scrAt2 V c t.val t.isLt).2 := rfl

theorem before2 (c : Dev nD) (t : Fin cfg2.N) :
    ((∀ d, (dat2 V c).before 0 t d = iblk2 V c 0 t) ∧ (dat2 V c).after 0 t = iblk2 V c 0 t)
    ∧ ((∀ d, (dat2 V c).before 1 t d = iblk2 V c 1 t) ∧ (dat2 V c).after 1 t = iblk2 V c 1 t)
    ∧ ((∀ d, (dat2 V c).before 2 t d = iblk2 V c 2 t) ∧ (dat2 V c).after 2 t = iblk2 V c 2 t)
    ∧ ((∀ d, (dat2 V c).before 3 t d = iblk2 V c 3 t) ∧ (dat2 V c).after 3 t = iblk2 V c 3 t)
    ∧ ((∀ d, (dat2 V c).before 4 t d = iblk2 V c 4 t) ∧ (dat2 V c).after 4 t = iblk2 V c 4 t)
    ∧ ((∀ d, (dat2 V c).before 5 t d = iblk2 V c 5 t) ∧ (dat2 V c).after 5 t = iblk2 V c 5 t) := by
  refine ⟨?_, ?_, ?_, ?_, ?_, ?_⟩ <;>
    exact ⟨(dat2 V c).before_in_eq_fetched _ rfl (fun _ => rfl) (fun _ _ _ => rfl) (fun _ => rfl) t, rfl⟩

theorem liveAt2_leaves (c : Dev nD) (t : Fin cfg2.N) (w : Fin cfg2.W) (h : w.val < 7 ∨ cond2_1 (grid2.coords t)) :
    (dat2 V c).leavesExact w t = owns (c : Thread nD τ) ((cfg2.win w).stage (cfg2.slots t w)) fullShare ((dat2 V c).after w t) := by
  unfold Dat.leavesExact; rw [liveAt2 t w h]

def bodyPre2 (c : Dev nD) (t : Fin cfg2.N) (w : Fin cfg2.W) : sProp 𝕄 :=
  iprop(∃ d, owns (c : Thread nD τ) ((cfg2.win w).stage (cfg2.slots t w)) fullShare ((dat2 V c).before w t d))

set_option maxHeartbeats 4800000 in
/-- The body at any point: the invariant lends it the carried pair and takes it back one step on; the point's position picks the case. -/
theorem sound_body2 (c : Dev nD) (t : Fin cfg2.N) :
    iprop((dat2 V c).Φ t.castSucc ∗ (dat2 V c).owesAt () t.castSucc ∗ bodyPre2 V c t 0 ∗ bodyPre2 V c t 1 ∗ bodyPre2 V c t 2 ∗ bodyPre2 V c t 3 ∗ bodyPre2 V c t 4 ∗ bodyPre2 V c t 5 ∗ bodyPre2 V c t 6 ∗ bodyPre2 V c t 7 ∗ bodyPre2 V c t 8)
      ⊢ wp frame (wpE (defs₀ (F := F)) Variants.none c none) Set.univ (bodyAt2 t) fun _ =>
          iprop((dat2 V c).Φ t.succ ∗ (dat2 V c).owesAt () t.succ ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t ∗ (dat2 V c).leavesExact 8 t) := by
  have eZ : @zOf2 F _ = @convZ F _ := rfl
  have eS : @sumOf2 F _ = @convSum F _ := rfl
  have eQ : @sqOf2 F _ = @convSq F _ := rfl
  unfold bodyPre2 bodyAt2
  rw [show @cc2__conv_kernel F _ = @convKernel F _ from rfl]
  rw [liveAt2_leaves V c t 0 (.inl (by decide)), liveAt2_leaves V c t 1 (.inl (by decide)), liveAt2_leaves V c t 2 (.inl (by decide)),
    liveAt2_leaves V c t 3 (.inl (by decide)), liveAt2_leaves V c t 4 (.inl (by decide)), liveAt2_leaves V c t 5 (.inl (by decide)),
    liveAt2_leaves V c t 6 (.inl (by decide)), after2_6]
  simp only [before2 V c t]
  rw [show (dat2 V c).owesAt () t.succ = (dat2 V c).owesAt () t.castSucc from rfl,
    show (dat2 V c).Φ t.succ = Phi2 V c (t.val + 1) t.isLt from rfl, Phi2_succ,
    show (dat2 V c).Φ t.castSucc = Phi2 V c t.val (Nat.le_of_lt t.isLt) from rfl]
  by_cases hc1 : cond2_1 (grid2.coords t)
  · have h0 : t.val ≠ 0 := by have := (hcond2_1 t).mp hc1; omega
    have hc0 : ¬cond2_0 (grid2.coords t) := fun h => h0 ((hcond2_0 t).mp h)
    rw [liveAt2_leaves V c t 7 (.inr hc1), liveAt2_leaves V c t 8 (.inr hc1), after2_7, after2_8, Phi2_pos V c _ _ h0, scrAt2_pos V c t h0]
    unfold stepAt2 zAt2; dsimp only; rw [eZ, eS, eQ]
    iintro ⟨⟨⟨⟨HS, HQ⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (conv_last c Set.univ (grid2.coords t) _ _ _ _ _ _ _ _ _ _ _ _ _ _ _ _ _ _ _ _ _ _ (hblk2 V c t) (ablk2 V c t) (w1blk2 V c t) (b1blk2 V c t) (w2blk2 V c t) (b2blk2 V c t) _ hc0 hc1 _ _)
    unfold convIns
    iframe H0 H1 H2 H3 H4 H5
    isplitl [H6]; · iexists _; iexact H6
    isplitl [H7]; · iexists _; iexact H7
    isplitl [H8]; · iexists _; iexact H8
    isplitl [HS]; · iexact HS
    isplitl [HQ]; · iexact HQ
    iintro ⟨⟨H0, H1, H2, H3, H4, H5⟩, H6, H7, H8, HS, HQ⟩
    iframe
  · rw [Dat.leavesExact_idle (dat2 V c) 7 t (idleAt2 t 7 (by decide) hc1).1 (idleAt2 t 7 (by decide) hc1).2,
      Dat.leavesExact_idle (dat2 V c) 8 t (idleAt2 t 8 (by decide) hc1).1 (idleAt2 t 8 (by decide) hc1).2]
    by_cases h0 : t.val = 0
    case' pos =>
      rw [Phi2_zero V c _ _ h0, PhiA2_eq, scrAt2_first V c t h0]
      unfold stepAt2 zAt2; dsimp only; rw [eZ, eS, eQ]
      iintro ⟨⟨⟨⟨⟨%ds, HS⟩, ⟨%dq, HQ⟩⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (conv_step c Set.univ (grid2.coords t) _ _ _ _ _ _ _ _ _ _ _ _ _ _ _ _ _ _ _ _ _ _ (hblk2 V c t) (ablk2 V c t) (w1blk2 V c t) (b1blk2 V c t) (w2blk2 V c t) (b2blk2 V c t) _ hc1 _ _ k2_pay2 k2_pay3 (.inl ⟨(hcond2_0 t).mpr h0, rfl, rfl⟩))
    case' neg =>
      rw [Phi2_pos V c _ _ h0, scrAt2_pos V c t h0]
      unfold stepAt2 zAt2; dsimp only; rw [eZ, eS, eQ]
      iintro ⟨⟨⟨⟨HS, HQ⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (conv_step c Set.univ (grid2.coords t) _ _ _ _ _ _ _ _ _ _ _ _ _ _ _ _ _ _ _ _ _ _ (hblk2 V c t) (ablk2 V c t) (w1blk2 V c t) (b1blk2 V c t) (w2blk2 V c t) (b2blk2 V c t) _ hc1 _ _ _ _ (.inr ⟨fun h => h0 ((hcond2_0 t).mp h), rfl, rfl⟩))
    any_goals
      unfold convIns
      iframe H0 H1 H2 H3 H4 H5
      isplitl [H6]; · iexists _; iexact H6
      isplitl [HS]; · iexact HS
      isplitl [HQ]; · iexact HQ
      iintro ⟨⟨H0, H1, H2, H3, H4, H5⟩, H6, HS, HQ⟩
      iframe

theorem body_obligation2 (c : Dev nD) : BodyObligation (dat2 (F := F) V c) (defs₀ (F := F)) Variants.none () Set.univ := fun t => by
  rw [bigSep_W2, bigSep_W2]
  exact sound_body2 V c t

theorem Phi2_in (c : Dev nD) : (dat2 V c).Φ 0 = Pipeline.ΦA spec2 c := rfl

/-- Forgetting the carried pair's values gives the resting invariant back. -/
theorem Phi2_out (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 10 := N_2; omega), PhiA2_eq]
  iintro ⟨⟨⟨HS, HQ⟩, Hr⟩, Hg⟩
  iframe Hr Hg
  isplitl [HS] <;> iexists _ <;> iassumption

end Region2

end Cert.Kernel.Hand

end
-- ==== Proof.K.R3.lean ====
import proofs.«417359_j61564061221146_2_alg».proof.Proof.Gen.Kernel.Launch
import proofs.«417359_j61564061221146_2_alg».proof.Proof.Gen.Kernel.Skeleton
import proofs.«417359_j61564061221146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x32 := Rect.unit (s := S10000x32) ![0, 0] S10000x32.size inb_S10000x32_S10000x32_0_0
abbrev r3_1 : Rect S32 := Rect.unit (s := S32) ![0] S32.size inb_S32_S32_0

/-- The output block after the body: its one store, over the whole block, of the payload of the three input blocks. -/
def out3_3 (x0 : Vec F S10000x32 .f32) (x1 : Vec F S32 .f32) (x2 : Vec F S32 .f32) : Vec F S10000x32 .f32 :=
  View.canon [⟨r3_0, k3_pay1 (View.ld x1 r3_1) (View.ld x2 r3_1) (View.ld x0 r3_0)⟩]

/-- The region's proof data: each input window is left at its block, the output window at `out3_3` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) : (dat3 V c).after 3 t = out3_3 (iblk3 V c 0 t) (iblk3 V c 1 t) (iblk3 V c 2 t) := by dsimp only [dat3]

theorem before3 (c : Dev nD) (t : Fin cfg3.N) : ∀ (w : Fin cfg3.W) (_ : w ≠ 3) (d), (dat3 V c).before w t d = (dat3 V c).fetched w t d
  | ⟨0, _⟩, _, d | ⟨1, _⟩, _, d | ⟨2, _⟩, _, d =>
    (dat3 V c).before_in_eq_fetched _ rfl (fun _ => rfl) (fun _ _ _ => rfl) (fun _ => rfl) t d
  | ⟨3, _⟩, h, _ => absurd rfl h

/-- The body at a point leaves the inputs as found and the output at `out3_3` of them: its one store covers the block. -/
theorem body_obligation3 (c : Dev nD) : BodyObligation (dat3 (F := F) V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl, after3_3]
  simp +decide only [before3 V c t]
  sl_whnfR [defs₀, Defs.onTc]
  simp only [cc3__norm_kernel_eq_skeleton]; unfold cc3__norm_kernel_skel owns
  iintro ⟨HΦ, Ho, ⟨%d0, %f0, %hf0, H0⟩, ⟨%d1, %f1, %hf1, H1⟩, ⟨%d2, %f2, %hf2, H2⟩, %d3, %f3, -, H3⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [show iblk3 V c 0 t = _ from hf0.symm, show iblk3 V c 1 t = _ from hf1.symm, show iblk3 V c 2 t = _ from hf2.symm]
  exact View.read_writes_eq_canon _ _ _ (View.cover_of_tiled _ S10000x32.size (by rfl))

end Cert.Kernel.Hand

end
-- ==== Proof.K.R4.lean ====
import proofs.«417359_j61564061221146_2_alg».proof.Proof.Gen.Kernel.Launch
import proofs.«417359_j61564061221146_2_alg».proof.Proof.Gen.Kernel.Skeleton
import proofs.«417359_j61564061221146_2_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S12800x32 := Rect.unit (s := S12800x32) ![0, 0] S12800x32.size inb_S12800x32_S12800x32_0_0
abbrev r4_1 : Rect S12800x3 := Rect.unit (s := S12800x3) ![0, 0] S12800x3.size inb_S12800x3_S12800x3_0_0
abbrev r4_2 : Rect S3x32 := Rect.unit (s := S3x32) ![0, 0] S3x32.size inb_S3x32_S3x32_0_0
abbrev r4_3 : Rect S32 := Rect.unit (s := S32) ![0] S32.size inb_S32_S32_0
abbrev r4_4 : Rect S12800x32 := Rect.unit (s := S12800x32) ![0, 0] S12800x32.size inb_S12800x32_S12800x32_0_0

/-- The output block after the body: its one store, over the whole block, of the payload of the four input blocks. -/
def out4_4 (x0 : Vec F S12800x32 .f32) (x1 : Vec F S12800x3 .f32) (x2 : Vec F S3x32 .f32) (x3 : Vec F S32 .f32) : Vec F S12800x32 .f32 :=
  View.canon [⟨r4_4, k4_pay1 (View.ld x1 r4_1) (View.ld x2 r4_2) (View.ld x3 r4_3) (View.ld x0 r4_0)⟩]

/-- The region's proof data: each input window is left at its block, the output window at `out4_4` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) : (dat4 V c).after 4 t = out4_4 (iblk4 V c 0 t) (iblk4 V c 1 t) (iblk4 V c 2 t) (iblk4 V c 3 t) := by dsimp only [dat4]

theorem before4 (c : Dev nD) (t : Fin cfg4.N) : ∀ (w : Fin cfg4.W) (_ : w ≠ 4) (d), (dat4 V c).before w t d = (dat4 V c).fetched w t d
  | ⟨0, _⟩, _, d | ⟨1, _⟩, _, d | ⟨2, _⟩, _, d | ⟨3, _⟩, _, d =>
    (dat4 V c).before_in_eq_fetched _ rfl (fun _ => rfl) (fun _ _ _ => rfl) (fun _ => rfl) t d
  | ⟨4, _⟩, h, _ => absurd rfl h

/-- The body at a point leaves the inputs as found and the output at `out4_4` of them: its one store covers the block. -/
theorem body_obligation4 (c : Dev nD) : BodyObligation (dat4 (F := F) V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl, after4_4]
  simp +decide only [before4 V c t]
  sl_whnfR [defs₀, Defs.onTc]
  simp only [cc4__msg_kernel_eq_skeleton]; unfold cc4__msg_kernel_skel owns
  iintro ⟨HΦ, Ho, ⟨%d0, %f0, %hf0, H0⟩, ⟨%d1, %f1, %hf1, H1⟩, ⟨%d2, %f2, %hf2, H2⟩, ⟨%d3, %f3, %hf3, H3⟩, %d4, %f4, -, H4⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr
  swap; · iexact H4
  ipureintro
  rw [show iblk4 V c 0 t = _ from hf0.symm, show iblk4 V c 1 t = _ from hf1.symm, show iblk4 V c 2 t = _ from hf2.symm, show iblk4 V c 3 t = _ from hf3.symm]
  exact View.read_writes_eq_canon _ _ _ (View.cover_of_tiled _ S12800x32.size (by rfl))

end Cert.Kernel.Hand
-- ==== Proof.K.R5.lean ====
import proofs.«417359_j61564061221146_2_alg».proof.Proof.Gen.Kernel.Launch
import proofs.«417359_j61564061221146_2_alg».proof.Proof.Gen.Kernel.Skeleton
import proofs.«417359_j61564061221146_2_alg».proof.Proof.Gen.Kernel.Points
import proofs.«417359_j61564061221146_2_alg».proof.Proof.K.Conv
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev hblk5 (c : Dev nD) (t : Fin cfg5.N) : Vec F S10000x32 .f32 := iblk5 V c 0 t
abbrev ablk5 (c : Dev nD) (t : Fin cfg5.N) : Vec F S10000x32 .f32 := iblk5 V c 1 t
abbrev w1blk5 (c : Dev nD) (t : Fin cfg5.N) : Vec F S32x75 .f32 := iblk5 V c 2 t
abbrev b1blk5 (c : Dev nD) (t : Fin cfg5.N) : Vec F S75 .f32 := iblk5 V c 3 t
abbrev w2blk5 (c : Dev nD) (t : Fin cfg5.N) : Vec F S75x32 .f32 := iblk5 V c 4 t
abbrev b2blk5 (c : Dev nD) (t : Fin cfg5.N) : Vec F S32 .f32 := iblk5 V c 5 t

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1
theorem hcond5_1 : ∀ t : Fin cfg5.N, cond5_1 (grid5.coords t) ↔ t.val = 9 :=
  (by decide +kernel : ∀ t : Fin grid5.N, cond5_1 (grid5.coords t) ↔ t.val = 9)

theorem liveAt5 : ∀ (t : Fin cfg5.N) (w : Fin cfg5.W), w.val < 7 ∨ cond5_1 (grid5.coords t) → cfg5.idle w (cfg5.grid.coords t) = false := by decide +kernel
theorem idleAt5 : ∀ (t : Fin cfg5.N) (w : Fin cfg5.W), 7 ≤ w.val → ¬cond5_1 (grid5.coords t) → cfg5.idle w (cfg5.grid.coords t) = true ∧ (cfg5.win w).flush t = false := by decide +kernel

def zOf5 (x0 x1 : Vec F S10000x32 .f32) (x2 : Vec F S32x75 .f32) (x3 : Vec F S75 .f32) (x4 : Vec F S75x32 .f32) (x5 : Vec F S32 .f32) : Vec F S10000x32 .f32 :=
  k5_pay4 x0 x1 x2 x3 x4 x5
def sumOf5 (x0 x1 : Vec F S10000x32 .f32) (x2 : Vec F S32x75 .f32) (x3 : Vec F S75 .f32) (x4 : Vec F S75x32 .f32) (x5 : Vec F S32 .f32) (s : Vec F S32 .f32) : Vec F S32 .f32 :=
  k5_pay5 x0 x1 x2 x3 x4 x5 s
def sqOf5 (x0 x1 : Vec F S10000x32 .f32) (x2 : Vec F S32x75 .f32) (x3 : Vec F S75 .f32) (x4 : Vec F S75x32 .f32) (x5 : Vec F S32 .f32) (q : Vec F S32 .f32) : Vec F S32 .f32 :=
  k5_pay1 (k5_pay4 x0 x1 x2 x3 x4 x5) q

def zAt5 (c : Dev nD) (t : Fin cfg5.N) : Vec F S10000x32 .f32 :=
  zOf5 (hblk5 V c t) (ablk5 V c t) (w1blk5 V c t) (b1blk5 V c t) (w2blk5 V c t) (b2blk5 V c t)

def stepAt5 (c : Dev nD) (t : Fin cfg5.N) (p : Vec F S32 .f32 × Vec F S32 .f32) : Vec F S32 .f32 × Vec F S32 .f32 :=
  (sumOf5 (hblk5 V c t) (ablk5 V c t) (w1blk5 V c t) (b1blk5 V c t) (w2blk5 V c t) (b2blk5 V c t) p.1, sqOf5 (hblk5 V c t) (ablk5 V c t) (w1blk5 V c t) (b1blk5 V c t) (w2blk5 V c t) (b2blk5 V c t) p.2)

def scrAt5 (c : Dev nD) : (n : ℕ) → n < cfg5.N → Vec F S32 .f32 × Vec F S32 .f32
  | 0, hn => stepAt5 V c ⟨0, hn⟩ (k5_pay2, k5_pay3)
  | n + 1, hn => stepAt5 V c ⟨n + 1, hn⟩ (scrAt5 c n (Nat.lt_of_succ_lt hn))

theorem scrAt5_zero (c : Dev nD) (hn : 0 < cfg5.N) : scrAt5 V c 0 hn = stepAt5 V c ⟨0, hn⟩ (k5_pay2, k5_pay3) := rfl
theorem scrAt5_succ (c : Dev nD) (n : ℕ) (hn : n + 1 < cfg5.N) :
    scrAt5 V c (n + 1) hn = stepAt5 V c ⟨n + 1, hn⟩ (scrAt5 V c n (Nat.lt_of_succ_lt hn)) := rfl
theorem scrAt5_first (c : Dev nD) (t : Fin cfg5.N) (hz : t.val = 0) :
    scrAt5 V c t.val t.isLt = stepAt5 V c t (k5_pay2, k5_pay3) := by
  obtain ⟨_ | n, hn⟩ := t
  exacts [rfl, absurd hz (Nat.succ_ne_zero n)]
theorem scrAt5_pos (c : Dev nD) (t : Fin cfg5.N) (hz : t.val ≠ 0) :
    scrAt5 V c t.val t.isLt = stepAt5 V c t (scrAt5 V c (t.val - 1) (Nat.lt_of_le_of_lt (Nat.sub_le _ _) t.isLt)) := by
  obtain ⟨_ | n, hn⟩ := t
  exacts [absurd rfl hz, rfl]

abbrev scM5_0 : Memref sig .tc .vmem S32 .f32 := Memref.whole cc5_scratch0
abbrev scM5_1 : Memref sig .tc .vmem S32 .f32 := Memref.whole cc5_scratch1

abbrev rest5 (c : Dev nD) : sProp 𝕄 :=
  Pipeline.scopedRestBut (Ix := Unit) (Name := ℕ) (U := UR sig nD τ) (Lvl := ℕ) (Val := Elt F) spec5 c [cc5_scratch0, cc5_scratch1]

/-- The region's resting invariant with the two carried vectors split off the rest of its scoped buffers. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

/-- The invariant before point `n`: the resting one at `n = 0`, else the carried pair pinned to its values after point `n - 1`. -/
def Phi5 (c : Dev nD) : (n : ℕ) → n ≤ cfg5.N → sProp 𝕄
  | 0, _ => Pipeline.ΦA spec5 c
  | n + 1, hn => iprop(iprop(iprop(owns (c : Thread nD τ) scM5_0 fullShare (scrAt5 V c n hn).1 ∗ owns (c : Thread nD τ) scM5_1 fullShare (scrAt5 V c n hn).2) ∗ rest5 c) ∗ (∃ r, prngReg c r))

theorem Phi5_zero (c : Dev nD) (n : ℕ) (h : n ≤ cfg5.N) (hz : n = 0) : Phi5 V c n h = Pipeline.ΦA spec5 c := by
  subst hz; rfl
theorem Phi5_succ (c : Dev nD) (n : ℕ) (hn : n < cfg5.N) :
    Phi5 V c (n + 1) hn = iprop(iprop(iprop(owns (c : Thread nD τ) scM5_0 fullShare (scrAt5 V c n hn).1 ∗ owns (c : Thread nD τ) scM5_1 fullShare (scrAt5 V c n hn).2) ∗ rest5 c) ∗ (∃ r, prngReg c r)) := rfl
theorem Phi5_pos (c : Dev nD) (n : ℕ) (h : n ≤ cfg5.N) (hz : n ≠ 0) :
    Phi5 V c n h = iprop(iprop(iprop(owns (c : Thread nD τ) scM5_0 fullShare (scrAt5 V c (n - 1) (by omega)).1 ∗ owns (c : Thread nD τ) scM5_1 fullShare (scrAt5 V c (n - 1) (by omega)).2) ∗ rest5 c) ∗ (∃ r, prngReg c r)) := by
  obtain _ | n := n
  exacts [absurd rfl hz, rfl]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => zAt5 V c t
    | ⟨7, _⟩ => (scrAt5 V c t.val t.isLt).1
    | ⟨8, _⟩ => (scrAt5 V c t.val t.isLt).2
  Φ t := Phi5 V c t.val (Nat.le_of_lt_succ t.isLt)
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = zAt5 V c t := rfl
theorem after5_7 (c : Dev nD) (t : Fin cfg5.N) : (dat5 V c).after 7 t = (scrAt5 V c t.val t.isLt).1 := rfl
theorem after5_8 (c : Dev nD) (t : Fin cfg5.N) : (dat5 V c).after 8 t = (scrAt5 V c t.val t.isLt).2 := rfl

theorem before5 (c : Dev nD) (t : Fin cfg5.N) :
    ((∀ d, (dat5 V c).before 0 t d = iblk5 V c 0 t) ∧ (dat5 V c).after 0 t = iblk5 V c 0 t)
    ∧ ((∀ d, (dat5 V c).before 1 t d = iblk5 V c 1 t) ∧ (dat5 V c).after 1 t = iblk5 V c 1 t)
    ∧ ((∀ d, (dat5 V c).before 2 t d = iblk5 V c 2 t) ∧ (dat5 V c).after 2 t = iblk5 V c 2 t)
    ∧ ((∀ d, (dat5 V c).before 3 t d = iblk5 V c 3 t) ∧ (dat5 V c).after 3 t = iblk5 V c 3 t)
    ∧ ((∀ d, (dat5 V c).before 4 t d = iblk5 V c 4 t) ∧ (dat5 V c).after 4 t = iblk5 V c 4 t)
    ∧ ((∀ d, (dat5 V c).before 5 t d = iblk5 V c 5 t) ∧ (dat5 V c).after 5 t = iblk5 V c 5 t) := by
  refine ⟨?_, ?_, ?_, ?_, ?_, ?_⟩ <;>
    exact ⟨(dat5 V c).before_in_eq_fetched _ rfl (fun _ => rfl) (fun _ _ _ => rfl) (fun _ => rfl) t, rfl⟩

theorem liveAt5_leaves (c : Dev nD) (t : Fin cfg5.N) (w : Fin cfg5.W) (h : w.val < 7 ∨ cond5_1 (grid5.coords t)) :
    (dat5 V c).leavesExact w t = owns (c : Thread nD τ) ((cfg5.win w).stage (cfg5.slots t w)) fullShare ((dat5 V c).after w t) := by
  unfold Dat.leavesExact; rw [liveAt5 t w h]

def bodyPre5 (c : Dev nD) (t : Fin cfg5.N) (w : Fin cfg5.W) : sProp 𝕄 :=
  iprop(∃ d, owns (c : Thread nD τ) ((cfg5.win w).stage (cfg5.slots t w)) fullShare ((dat5 V c).before w t d))

set_option maxHeartbeats 4800000 in
/-- The body at any point: the invariant lends it the carried pair and takes it back one step on; the point's position picks the case. -/
theorem sound_body5 (c : Dev nD) (t : Fin cfg5.N) :
    iprop((dat5 V c).Φ t.castSucc ∗ (dat5 V c).owesAt () t.castSucc ∗ bodyPre5 V c t 0 ∗ bodyPre5 V c t 1 ∗ bodyPre5 V c t 2 ∗ bodyPre5 V c t 3 ∗ bodyPre5 V c t 4 ∗ bodyPre5 V c t 5 ∗ bodyPre5 V c t 6 ∗ bodyPre5 V c t 7 ∗ bodyPre5 V c t 8)
      ⊢ wp frame (wpE (defs₀ (F := F)) Variants.none c none) Set.univ (bodyAt5 t) fun _ =>
          iprop((dat5 V c).Φ t.succ ∗ (dat5 V c).owesAt () t.succ ∗ (dat5 V c).leavesExact 0 t ∗ (dat5 V c).leavesExact 1 t ∗ (dat5 V c).leavesExact 2 t ∗ (dat5 V c).leavesExact 3 t ∗ (dat5 V c).leavesExact 4 t ∗ (dat5 V c).leavesExact 5 t ∗ (dat5 V c).leavesExact 6 t ∗ (dat5 V c).leavesExact 7 t ∗ (dat5 V c).leavesExact 8 t) := by
  have eZ : @zOf5 F _ = @convZ F _ := rfl
  have eS : @sumOf5 F _ = @convSum F _ := rfl
  have eQ : @sqOf5 F _ = @convSq F _ := rfl
  unfold bodyPre5 bodyAt5
  rw [show @cc5__conv_kernel F _ = @convKernel F _ from rfl]
  rw [liveAt5_leaves V c t 0 (.inl (by decide)), liveAt5_leaves V c t 1 (.inl (by decide)), liveAt5_leaves V c t 2 (.inl (by decide)),
    liveAt5_leaves V c t 3 (.inl (by decide)), liveAt5_leaves V c t 4 (.inl (by decide)), liveAt5_leaves V c t 5 (.inl (by decide)),
    liveAt5_leaves V c t 6 (.inl (by decide)), after5_6]
  simp only [before5 V c t]
  rw [show (dat5 V c).owesAt () t.succ = (dat5 V c).owesAt () t.castSucc from rfl,
    show (dat5 V c).Φ t.succ = Phi5 V c (t.val + 1) t.isLt from rfl, Phi5_succ,
    show (dat5 V c).Φ t.castSucc = Phi5 V c t.val (Nat.le_of_lt t.isLt) from rfl]
  by_cases hc1 : cond5_1 (grid5.coords t)
  · have h0 : t.val ≠ 0 := by have := (hcond5_1 t).mp hc1; omega
    have hc0 : ¬cond5_0 (grid5.coords t) := fun h => h0 ((hcond5_0 t).mp h)
    rw [liveAt5_leaves V c t 7 (.inr hc1), liveAt5_leaves V c t 8 (.inr hc1), after5_7, after5_8, Phi5_pos V c _ _ h0, scrAt5_pos V c t h0]
    unfold stepAt5 zAt5; dsimp only; rw [eZ, eS, eQ]
    iintro ⟨⟨⟨⟨HS, HQ⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (conv_last c Set.univ (grid5.coords t) _ _ _ _ _ _ _ _ _ _ _ _ _ _ _ _ _ _ _ _ _ _ (hblk5 V c t) (ablk5 V c t) (w1blk5 V c t) (b1blk5 V c t) (w2blk5 V c t) (b2blk5 V c t) _ hc0 hc1 _ _)
    unfold convIns
    iframe H0 H1 H2 H3 H4 H5
    isplitl [H6]; · iexists _; iexact H6
    isplitl [H7]; · iexists _; iexact H7
    isplitl [H8]; · iexists _; iexact H8
    isplitl [HS]; · iexact HS
    isplitl [HQ]; · iexact HQ
    iintro ⟨⟨H0, H1, H2, H3, H4, H5⟩, H6, H7, H8, HS, HQ⟩
    iframe
  · rw [Dat.leavesExact_idle (dat5 V c) 7 t (idleAt5 t 7 (by decide) hc1).1 (idleAt5 t 7 (by decide) hc1).2,
      Dat.leavesExact_idle (dat5 V c) 8 t (idleAt5 t 8 (by decide) hc1).1 (idleAt5 t 8 (by decide) hc1).2]
    by_cases h0 : t.val = 0
    case' pos =>
      rw [Phi5_zero V c _ _ h0, PhiA5_eq, scrAt5_first V c t h0]
      unfold stepAt5 zAt5; dsimp only; rw [eZ, eS, eQ]
      iintro ⟨⟨⟨⟨⟨%ds, HS⟩, ⟨%dq, HQ⟩⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (conv_step c Set.univ (grid5.coords t) _ _ _ _ _ _ _ _ _ _ _ _ _ _ _ _ _ _ _ _ _ _ (hblk5 V c t) (ablk5 V c t) (w1blk5 V c t) (b1blk5 V c t) (w2blk5 V c t) (b2blk5 V c t) _ hc1 _ _ k5_pay2 k5_pay3 (.inl ⟨(hcond5_0 t).mpr h0, rfl, rfl⟩))
    case' neg =>
      rw [Phi5_pos V c _ _ h0, scrAt5_pos V c t h0]
      unfold stepAt5 zAt5; dsimp only; rw [eZ, eS, eQ]
      iintro ⟨⟨⟨⟨HS, HQ⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (conv_step c Set.univ (grid5.coords t) _ _ _ _ _ _ _ _ _ _ _ _ _ _ _ _ _ _ _ _ _ _ (hblk5 V c t) (ablk5 V c t) (w1blk5 V c t) (b1blk5 V c t) (w2blk5 V c t) (b2blk5 V c t) _ hc1 _ _ _ _ (.inr ⟨fun h => h0 ((hcond5_0 t).mp h), rfl, rfl⟩))
    any_goals
      unfold convIns
      iframe H0 H1 H2 H3 H4 H5
      isplitl [H6]; · iexists _; iexact H6
      isplitl [HS]; · iexact HS
      isplitl [HQ]; · iexact HQ
      iintro ⟨⟨H0, H1, H2, H3, H4, H5⟩, H6, HS, HQ⟩
      iframe

theorem body_obligation5 (c : Dev nD) : BodyObligation (dat5 (F := F) V c) (defs₀ (F := F)) Variants.none () Set.univ := fun t => by
  rw [bigSep_W5, bigSep_W5]
  exact sound_body5 V c t

theorem Phi5_in (c : Dev nD) : (dat5 V c).Φ 0 = Pipeline.ΦA spec5 c := rfl

/-- Forgetting the carried pair's values gives the resting invariant back. -/
theorem Phi5_out (c : Dev nD) : (dat5 V c).Φ (Fin.last cfg5.N) ⊢ Pipeline.ΦA spec5 c := by
  rw [show (dat5 V c).Φ (Fin.last cfg5.N) = Phi5 V c (Fin.last cfg5.N).val (Nat.le_of_lt_succ (Fin.last cfg5.N).isLt) from rfl,
    Phi5_pos V c _ _ (by rw [Fin.val_last]; have : cfg5.N = 10 := N_5; omega), PhiA5_eq]
  iintro ⟨⟨⟨HS, HQ⟩, Hr⟩, Hg⟩
  iframe Hr Hg
  isplitl [HS] <;> iexists _ <;> iassumption

end Region2

end Cert.Kernel.Hand

end
-- ==== Proof.K.R6.lean ====
import proofs.«417359_j61564061221146_2_alg».proof.Proof.Gen.Kernel.Launch
import proofs.«417359_j61564061221146_2_alg».proof.Proof.Gen.Kernel.Skeleton
import proofs.«417359_j61564061221146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S10000x32 := Rect.unit (s := S10000x32) ![0, 0] S10000x32.size inb_S10000x32_S10000x32_0_0
abbrev r6_1 : Rect S32 := Rect.unit (s := S32) ![0] S32.size inb_S32_S32_0

/-- The output block after the body: its one store, over the whole block, of the payload of the three input blocks. -/
def out6_3 (x0 : Vec F S10000x32 .f32) (x1 : Vec F S32 .f32) (x2 : Vec F S32 .f32) : Vec F S10000x32 .f32 :=
  View.canon [⟨r6_0, k6_pay1 (View.ld x1 r6_1) (View.ld x2 r6_1) (View.ld x0 r6_0)⟩]

/-- The region's proof data: each input window is left at its block, the output window at `out6_3` of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = out6_3 (iblk6 V c 0 t) (iblk6 V c 1 t) (iblk6 V c 2 t) := by dsimp only [dat6]

theorem before6 (c : Dev nD) (t : Fin cfg6.N) : ∀ (w : Fin cfg6.W) (_ : w ≠ 3) (d), (dat6 V c).before w t d = (dat6 V c).fetched w t d
  | ⟨0, _⟩, _, d | ⟨1, _⟩, _, d | ⟨2, _⟩, _, d =>
    (dat6 V c).before_in_eq_fetched _ rfl (fun _ => rfl) (fun _ _ _ => rfl) (fun _ => rfl) t d
  | ⟨3, _⟩, h, _ => absurd rfl h

/-- The body at a point leaves the inputs as found and the output at `out6_3` of them: its one store covers the block. -/
theorem body_obligation6 (c : Dev nD) : BodyObligation (dat6 (F := F) V c) (defs₀ (F := F)) Variants.none () Set.univ := fun t => by
  rw [bigSep_W6, bigSep_W6, show (dat6 V c).Φ t.succ = (dat6 V c).Φ t.castSucc from rfl,
    show (dat6 V c).owesAt () t.succ = (dat6 V c).owesAt () t.castSucc from rfl, after6_3]
  simp +decide only [before6 V c t]
  sl_whnfR [defs₀, Defs.onTc]
  simp only [cc6__norm_kernel_eq_skeleton]; unfold cc6__norm_kernel_skel owns
  iintro ⟨HΦ, Ho, ⟨%d0, %f0, %hf0, H0⟩, ⟨%d1, %f1, %hf1, H1⟩, ⟨%d2, %f2, %hf2, H2⟩, %d3, %f3, -, H3⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [show iblk6 V c 0 t = _ from hf0.symm, show iblk6 V c 1 t = _ from hf1.symm, show iblk6 V c 2 t = _ from hf2.symm]
  exact View.read_writes_eq_canon _ _ _ (View.cover_of_tiled _ S10000x32.size (by rfl))

end Cert.Kernel.Hand

end
-- ==== Proof.K.Fold.lean ====
import proofs.«417359_j61564061221146_2_alg».proof.Proof.K.R0
import proofs.«417359_j61564061221146_2_alg».proof.Proof.K.R1
import proofs.«417359_j61564061221146_2_alg».proof.Proof.K.R2
import proofs.«417359_j61564061221146_2_alg».proof.Proof.K.R3
import proofs.«417359_j61564061221146_2_alg».proof.Proof.K.R4
import proofs.«417359_j61564061221146_2_alg».proof.Proof.K.R5
import proofs.«417359_j61564061221146_2_alg».proof.Proof.K.R6
import proofs.«417359_j61564061221146_2_alg».proof.Proof.Gen.Kernel.Regions

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

abbrev Rd (X : Dev nD → Valuation τ sig (Elt F)) : (c : Dev nD) → (b : Ref sig .tc) → Buf (Elt F) ((c : Thread nD τ).loc b) :=
  fun c b => X c b

abbrev X1 (c : Dev nD) : Valuation τ sig (Elt F) := V1 m c

def o2 (c : Dev nD) := (dat0 (Rd (X1 m)) c).arrAt 3 cfg0.N
def X2 (c : Dev nD) : Valuation τ sig (Elt F) :=
  Function.update (X1 m c) main_v4 (o2 m c)
abbrev X3 (c : Dev nD) : Valuation τ sig (Elt F) := StableHlo.after hostOps1 (X2 m c)

def o4 (c : Dev nD) := (dat1 (Rd (X3 m)) c).arrAt 4 cfg1.N
def X4 (c : Dev nD) : Valuation τ sig (Elt F) :=
  Function.update (X3 m c) main_v6 (o4 m c)
abbrev X5 (c : Dev nD) : Valuation τ sig (Elt F) := StableHlo.after hostOps2 (X4 m c)

def o6a (c : Dev nD) := (dat2 (Rd (X5 m)) c).arrAt 6 cfg2.N
def o6b (c : Dev nD) := (dat2 (Rd (X5 m)) c).arrAt 7 cfg2.N
def o6c (c : Dev nD) := (dat2 (Rd (X5 m)) c).arrAt 8 cfg2.N
def X6 (c : Dev nD) : Valuation τ sig (Elt F) :=
  Function.update (Function.update (Function.update (X5 m c) main_v18_0 (o6a m c)) main_v18_1 (o6b m c)) main_v18_2 (o6c m c)
abbrev X7 (c : Dev nD) : Valuation τ sig (Elt F) := StableHlo.after hostOps3 (X6 m c)

def o8 (c : Dev nD) := (dat3 (Rd (X7 m)) c).arrAt 3 cfg3.N
def X8 (c : Dev nD) : Valuation τ sig (Elt F) :=
  Function.update (X7 m c) main_v35 (o8 m c)
abbrev X9 (c : Dev nD) : Valuation τ sig (Elt F) := StableHlo.after hostOps4 (X8 m c)

def o10 (c : Dev nD) := (dat4 (Rd (X9 m)) c).arrAt 4 cfg4.N
def X10 (c : Dev nD) : Valuation τ sig (Elt F) :=
  Function.update (X9 m c) main_v37 (o10 m c)
abbrev X11 (c : Dev nD) : Valuation τ sig (Elt F) := StableHlo.after hostOps5 (X10 m c)

def o12a (c : Dev nD) := (dat5 (Rd (X11 m)) c).arrAt 6 cfg5.N
def o12b (c : Dev nD) := (dat5 (Rd (X11 m)) c).arrAt 7 cfg5.N
def o12c (c : Dev nD) := (dat5 (Rd (X11 m)) c).arrAt 8 cfg5.N
def X12 (c : Dev nD) : Valuation τ sig (Elt F) :=
  Function.update (Function.update (Function.update (X11 m c) main_v49_0 (o12a m c)) main_v49_1 (o12b m c)) main_v49_2 (o12c m c)
abbrev X13 (c : Dev nD) : Valuation τ sig (Elt F) := StableHlo.after hostOps6 (X12 m c)

def o14 (c : Dev nD) := (dat6 (Rd (X13 m)) c).arrAt 3 cfg6.N
def X14 (c : Dev nD) : Valuation τ sig (Elt F) :=
  Function.update (X13 m c) main_v66 (o14 m c)
abbrev X15 (c : Dev nD) : Valuation τ sig (Elt F) := StableHlo.after hostOps7 (X14 m c)
abbrev X16 (c : Dev nD) : Valuation τ sig (Elt F) := StableHlo.after hostOps7_1 (X15 m c)
abbrev X17 (c : Dev nD) : Valuation τ sig (Elt F) := StableHlo.after hostOps7_2 (X16 m c)

/-- What the region that is item `J - 1` of the run leaves; no other `J` is asked for. -/
def outs : Outs (F := F) := fun J r c =>
  match J with
  | 2 => X2 m c r
  | 4 => X4 m c r
  | 6 => X6 m c r
  | 8 => X8 m c r
  | 10 => X10 m c r
  | 12 => X12 m c r
  | 14 => X14 m c r
  | _ => X1 m c r

theorem X2_at (c : Dev nD) : X2 m c main_v4 = o2 m c := Function.update_self ..
theorem X2_of_ne (c : Dev nD) (b : Ref sig .tc) (h0 : b ≠ main_v4) : X2 m c b = X1 m c b := Function.update_of_ne (StableHlo.devRef_ne_of_ne h0) ..
theorem X4_at (c : Dev nD) : X4 m c main_v6 = o4 m c := Function.update_self ..
theorem X4_of_ne (c : Dev nD) (b : Ref sig .tc) (h0 : b ≠ main_v6) : X4 m c b = X3 m c b := Function.update_of_ne (StableHlo.devRef_ne_of_ne h0) ..
theorem X6_at_0 (c : Dev nD) : X6 m c main_v18_0 = o6a m c := by
  unfold X6; rw [Function.update_of_ne (StableHlo.devRef_ne_of_ne (by decide : main_v18_0 ≠ main_v18_2)), Function.update_of_ne (StableHlo.devRef_ne_of_ne (by decide : main_v18_0 ≠ main_v18_1)), Function.update_self]
theorem X6_at_1 (c : Dev nD) : X6 m c main_v18_1 = o6b m c := by
  unfold X6; rw [Function.update_of_ne (StableHlo.devRef_ne_of_ne (by decide : main_v18_1 ≠ main_v18_2)), Function.update_self]
theorem X6_at_2 (c : Dev nD) : X6 m c main_v18_2 = o6c m c := Function.update_self ..
theorem X6_of_ne (c : Dev nD) (b : Ref sig .tc) (h0 : b ≠ main_v18_0) (h1 : b ≠ main_v18_1) (h2 : b ≠ main_v18_2) : X6 m c b = X5 m c b := by
  unfold X6; rw [Function.update_of_ne (StableHlo.devRef_ne_of_ne h2), Function.update_of_ne (StableHlo.devRef_ne_of_ne h1), Function.update_of_ne (StableHlo.devRef_ne_of_ne h0)]
theorem X8_at (c : Dev nD) : X8 m c main_v35 = o8 m c := Function.update_self ..
theorem X8_of_ne (c : Dev nD) (b : Ref sig .tc) (h0 : b ≠ main_v35) : X8 m c b = X7 m c b := Function.update_of_ne (StableHlo.devRef_ne_of_ne h0) ..
theorem X10_at (c : Dev nD) : X10 m c main_v37 = o10 m c := Function.update_self ..
theorem X10_of_ne (c : Dev nD) (b : Ref sig .tc) (h0 : b ≠ main_v37) : X10 m c b = X9 m c b := Function.update_of_ne (StableHlo.devRef_ne_of_ne h0) ..
theorem X12_at_0 (c : Dev nD) : X12 m c main_v49_0 = o12a m c := by
  unfold X12; rw [Function.update_of_ne (StableHlo.devRef_ne_of_ne (by decide : main_v49_0 ≠ main_v49_2)), Function.update_of_ne (StableHlo.devRef_ne_of_ne (by decide : main_v49_0 ≠ main_v49_1)), Function.update_self]
theorem X12_at_1 (c : Dev nD) : X12 m c main_v49_1 = o12b m c := by
  unfold X12; rw [Function.update_of_ne (StableHlo.devRef_ne_of_ne (by decide : main_v49_1 ≠ main_v49_2)), Function.update_self]
theorem X12_at_2 (c : Dev nD) : X12 m c main_v49_2 = o12c m c := Function.update_self ..
theorem X12_of_ne (c : Dev nD) (b : Ref sig .tc) (h0 : b ≠ main_v49_0) (h1 : b ≠ main_v49_1) (h2 : b ≠ main_v49_2) : X12 m c b = X11 m c b := by
  unfold X12; rw [Function.update_of_ne (StableHlo.devRef_ne_of_ne h2), Function.update_of_ne (StableHlo.devRef_ne_of_ne h1), Function.update_of_ne (StableHlo.devRef_ne_of_ne h0)]
theorem X14_at (c : Dev nD) : X14 m c main_v66 = o14 m c := Function.update_self ..
theorem X14_of_ne (c : Dev nD) (b : Ref sig .tc) (h0 : b ≠ main_v66) : X14 m c b = X13 m c b := Function.update_of_ne (StableHlo.devRef_ne_of_ne h0) ..

theorem V2_eq (c : Dev nD) : V2 m (outs m) c = X2 m c := by
  show Function.update (V1 m c) main_v4 (X2 m c main_v4) = _
  rw [X2_at]
  rfl
theorem V3_eq (c : Dev nD) : V3 m (outs m) c = X3 m c := congrArg (StableHlo.after hostOps1) (V2_eq m c)
theorem V4_eq (c : Dev nD) : V4 m (outs m) c = X4 m c := by
  show Function.update (V3 m (outs m) c) main_v6 (X4 m c main_v6) = _
  rw [V3_eq, X4_at]
  rfl
theorem V5_eq (c : Dev nD) : V5 m (outs m) c = X5 m c := congrArg (StableHlo.after hostOps2) (V4_eq m c)
theorem V6_eq (c : Dev nD) : V6 m (outs m) c = X6 m c := by
  show Function.update (Function.update (Function.update (V5 m (outs m) c) main_v18_0 (X6 m c main_v18_0)) main_v18_1 (X6 m c main_v18_1)) main_v18_2 (X6 m c main_v18_2) = _
  rw [V5_eq, X6_at_0, X6_at_1, X6_at_2]
  rfl
theorem V7_eq (c : Dev nD) : V7 m (outs m) c = X7 m c := congrArg (StableHlo.after hostOps3) (V6_eq m c)
theorem V8_eq (c : Dev nD) : V8 m (outs m) c = X8 m c := by
  show Function.update (V7 m (outs m) c) main_v35 (X8 m c main_v35) = _
  rw [V7_eq, X8_at]
  rfl
theorem V9_eq (c : Dev nD) : V9 m (outs m) c = X9 m c := congrArg (StableHlo.after hostOps4) (V8_eq m c)
theorem V10_eq (c : Dev nD) : V10 m (outs m) c = X10 m c := by
  show Function.update (V9 m (outs m) c) main_v37 (X10 m c main_v37) = _
  rw [V9_eq, X10_at]
  rfl
theorem V11_eq (c : Dev nD) : V11 m (outs m) c = X11 m c := congrArg (StableHlo.after hostOps5) (V10_eq m c)
theorem V12_eq (c : Dev nD) : V12 m (outs m) c = X12 m c := by
  show Function.update (Function.update (Function.update (V11 m (outs m) c) main_v49_0 (X12 m c main_v49_0)) main_v49_1 (X12 m c main_v49_1)) main_v49_2 (X12 m c main_v49_2) = _
  rw [V11_eq, X12_at_0, X12_at_1, X12_at_2]
  rfl
theorem V13_eq (c : Dev nD) : V13 m (outs m) c = X13 m c := congrArg (StableHlo.after hostOps6) (V12_eq m c)
theorem V14_eq (c : Dev nD) : V14 m (outs m) c = X14 m c := by
  show Function.update (V13 m (outs m) c) main_v66 (X14 m c main_v66) = _
  rw [V13_eq, X14_at]
  rfl
theorem V17_eq (c : Dev nD) : V17 m (outs m) c = X17 m c :=
  congrArg (fun X => StableHlo.after hostOps7_2 (StableHlo.after hostOps7_1 (StableHlo.after hostOps7 X))) (V14_eq m c)

end Cert.Kernel.Hand

end
-- ==== Proof.K.Pdats.lean ====
import proofs.«417359_j61564061221146_2_alg».proof.Proof.K.Fold
import Idealize.ShloMosaic.Lib.Pipeline.Kit

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- The proof data of region `p`, at the contents `X(2p+1)`. -/
def pdats : (p : Fin 7) → (c : Dev nD) → Dat τ (Elt F) Unit ℕ (UR sig nD τ) ℕ (cfgs p) c
  | ⟨0, _⟩ => fun c => dat0 (Rd (X1 m)) c
  | ⟨1, _⟩ => fun c => dat1 (Rd (X3 m)) c
  | ⟨2, _⟩ => fun c => dat2 (Rd (X5 m)) c
  | ⟨3, _⟩ => fun c => dat3 (Rd (X7 m)) c
  | ⟨4, _⟩ => fun c => dat4 (Rd (X9 m)) c
  | ⟨5, _⟩ => fun c => dat5 (Rd (X11 m)) c
  | ⟨6, _⟩ => fun c => dat6 (Rd (X13 m)) c

end Cert.Kernel.Hand

end
-- ==== Proof.K.Thread.lean ====
import proofs.«417359_j61564061221146_2_alg».proof.Proof.Gen.Kernel.Regions
import Idealize.ShloMosaic.Lib.Pipeline.Kit

noncomputable section

namespace Cert.Kernel.Hand

open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

abbrev L₀ : GSem nD τ sig → Finset Unit := fun _ => ∅
abbrev lv₀ : GSem nD τ sig → Unit → ℕ := fun _ _ => 0

/-- The part of a core's state that is the same between any two items of the run. -/
abbrev R (c : Dev nD) : sProp 𝕄 :=
  iprop((∃ r, prngReg c r) ∗ ∃ W, owes (c : Thread nD τ) (0 : CellTallies nD τ sig Unit) W)

abbrev E₀ : Fin 8 → Dev nD → sProp 𝕄 := fun _ c => R (F := F) c

abbrev u₀ : UR sig nD τ := initOf (Pipeline.cells cfgs cellOf_inj) (Pipeline.launchToks cfgs cellOf_inj)

theorem hu₀ : (ownU (u₀) : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  rw [BI.bigSep_emp_const]
  iintro Hu; imodintro
  isplitl [Hu]; · iapply (show (ownU u₀ : sProp 𝕄) ⊢ BI.own (emb₁ u₀) from .rfl); iexact Hu
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L₀ lv₀)
      ⊢ (|={Set.univ}=> bigSep Finset.univ (E₀ (F := F) 0) : sProp 𝕄) := by
  refine Pipeline.initEach L₀ lv₀ fun c => ?_
  iintro ⟨⟨-, HO, -, Hp, -⟩, -⟩
  imodintro
  isplitl [Hp]; · iexists _; iexact Hp
  iexists ∅; iexact HO

theorem hE7 (c : Dev nD) : E₀ (F := F) 7 c ⊢ (iprop(∃ W, owes (c : Thread nD τ) (0 : CellTallies nD τ sig Unit) W) : sProp 𝕄) := by
  iintro ⟨-, HO⟩; iexact HO

end Cert.Kernel.Hand

end
-- ==== Proof.K.Seg.lean ====
import proofs.«417359_j61564061221146_2_alg».proof.Proof.K.Pdats
import proofs.«417359_j61564061221146_2_alg».proof.Proof.K.Thread
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (BodyObligation)
open Cert.Kernel Cert.Kernel.Gen

variable {F : FTy → Type} [FloatOps F]
local notation "𝕄" => MT nD τ sig Unit (Elt F) ℕ (UR sig nD τ) ℕ
variable (m : (ℓ : Loc nD τ sig) → Buf (Elt F) ℓ)

/-- The record of region `p`, entered at the contents `Xi` and left at `Xo`. -/
def regOf (p : Fin 7) (lf : Pipeline.LaunchFacts (nD := nD) (τ := τ) cfgs p) (Xi Xo : Dev nD → Valuation τ sig (Elt F))
    (hbody : ∀ c, BodyObligation (pdats m p c) (defs₀ (F := F)) Variants.none () Set.univ)
    (hat : ∀ c w, ((cfgs p).win w).isOut = true → Rd Xo c (Pipeline.arrRef (cfgs p).spec w) = (pdats m p c).arrAt w (cfgs p).N)
    (hne : ∀ c b, (∀ w, ((cfgs p).win w).isOut = true → b ≠ Pipeline.arrRef (cfgs p).spec w) → Rd Xo c b = Rd Xi c b)
    (hq : ∀ c w, (pdats m p c).q w = fullShare := by intros; rfl) (howed : ∀ c t, (pdats m p c).owed t = 0 := by intros; rfl)
    (hrec : ∀ c, (pdats m p c).recorded 0 = Set.univ := by intros; rfl)
    (hA : ∀ c w, (pdats m p c).A w = Rd Xi c (Pipeline.arrRef (cfgs p).spec w) := by intros; rfl)
    (hΦi : ∀ c, (pdats m p c).Φ 0 = Pipeline.ΦA (cfgs p).spec c := by intros; rfl)
    (hΦo : ∀ c, (pdats m p c).Φ (Fin.last (cfgs p).N) ⊢ (Pipeline.ΦA (cfgs p).spec c : sProp 𝕄) := by intros; exact .rfl) :
    Pipeline.RegionSeg (pcfgs (F := F)) adm (pdats m) () defs₀ Variants.none L₀ lv₀ p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L₀ lv₀ p howed
  pre c := iprop(StableHlo.held (c : Thread nD τ) (Pipeline.ucRefs τ sig) (Xi c) ∗ R c)
  post c := iprop(StableHlo.held (c : Thread nD τ) (Pipeline.ucRefs τ sig) (Xo c) ∗ R c)
  X c := iprop(∃ r, prngReg c r)
  Y c := iprop(∃ r, prngReg c r)
  Z c := Pipeline.unscopedRest (Ix := Unit) (Name := ℕ) (U := UR sig nD τ) (Lvl := ℕ) (cfgs p).spec c (Rd Xi c)
  hentry c := by
    rw [Pipeline.ownSems0_none]
    have hsplit := Pipeline.arrays_of_unscopedBufs (p := p) (pcfgs (F := F)) adm (pdats m) lf.win lf.arr_whole c
      ((pdats m p c).share_full (hq c)) (Rd Xi c) (hA c)
    rw [Pipeline.unscopedBufs_held] at hsplit
    iintro ⟨⟨Hub, Hp, %W, HO⟩, -, -⟩
    ihave H := hsplit $$ Hub
    icases H with ⟨Ha, Hrest⟩
    imodintro
    unfold Pipeline.prefHeld Pipeline.Dat.owesAt Pipeline.owesWithin
    rw [show (Finset.univ : Finset (Fin 0)) = ∅ from rfl, BI.bigSep_empty, howed c]
    iframe Ha Hp Hrest
    isplitr; · iempintro
    iexists W; isplitr; · ipureintro; exact fun _ _ => Or.inl (by rw [hrec c]; trivial)
    iexact HO
  hin c := by
    rw [hΦi c]; unfold Pipeline.ΦA
    iintro ⟨Hp, -, Hr⟩; iframe
  hout c := by
    rw [Pipeline.ownSems0_none]
    refine (hΦo c).trans ?_
    unfold Pipeline.ΦA
    iintro ⟨Hr, Hp⟩; iframe; exact .rfl
  hexit c := by
    have hF : ∀ w, (pdats m p c).arrAt w (cfgs p).N = Rd Xo c (Pipeline.arrRef (cfgs p).spec w) := fun w => by
      cases h : ((cfgs p).win w).isOut
      · exact ((pdats m p c).arrAt_in w h _).trans ((hA c w).trans (hne c (Pipeline.arrRef (cfgs p).spec w) fun w' h' e => by
          rw [lf.win.arr_inj e, h'] at h; cases h).symm)
      · exact (hat c w h).symm
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (Rd Xi c) (Rd Xo c) ((pdats m p c).arrAt · (cfgs p).N) hF
      fun b hb => hne c b fun w _ e => hb (Finset.mem_image.mpr ⟨w, Finset.mem_univ _, e.symm⟩)
    rw [Pipeline.unscopedBufs_held] at hjoin
    unfold Pipeline.Dat.owesAt Pipeline.owesWithin; rw [howed c]
    iintro ⟨Ha, ⟨%W, -, HO⟩, HY, Hrest⟩
    imodintro
    isplitl [Ha Hrest]; · iapply hjoin; iframe
    isplitl [HY]; · iexact HY
    iexists W; iexact HO

def reg0 := regOf m 0 launch0 (X1 m) (X2 m) (body_obligation0 _)
  (fun c w h => by obtain rfl := (by decide : ∀ w : Fin cfg0.W, (cfg0.win w).isOut = true → w = 3) w h; exact X2_at m c)
  (fun c b h => X2_of_ne m c b (h (3 : Fin cfg0.W) rfl))
def reg1 := regOf m 1 launch1 (X3 m) (X4 m) (body_obligation1 _)
  (fun c w h => by obtain rfl := (by decide : ∀ w : Fin cfg1.W, (cfg1.win w).isOut = true → w = 4) w h; exact X4_at m c)
  (fun c b h => X4_of_ne m c b (h (4 : Fin cfg1.W) rfl))
def reg2 := regOf m 2 launch2 (X5 m) (X6 m) (body_obligation2 _)
  (fun c w h => by rcases (by decide : ∀ w : Fin cfg2.W, (cfg2.win w).isOut = true → w = 6 ∨ w = 7 ∨ w = 8) w h with rfl | rfl | rfl; exacts [X6_at_0 m c, X6_at_1 m c, X6_at_2 m c])
  (fun c b h => X6_of_ne m c b (h (6 : Fin cfg2.W) rfl) (h (7 : Fin cfg2.W) rfl) (h (8 : Fin cfg2.W) rfl)) (hΦo := Phi2_out _)
def reg3 := regOf m 3 launch3 (X7 m) (X8 m) (body_obligation3 _)
  (fun c w h => by obtain rfl := (by decide : ∀ w : Fin cfg3.W, (cfg3.win w).isOut = true → w = 3) w h; exact X8_at m c)
  (fun c b h => X8_of_ne m c b (h (3 : Fin cfg3.W) rfl))
def reg4 := regOf m 4 launch4 (X9 m) (X10 m) (body_obligation4 _)
  (fun c w h => by obtain rfl := (by decide : ∀ w : Fin cfg4.W, (cfg4.win w).isOut = true → w = 4) w h; exact X10_at m c)
  (fun c b h => X10_of_ne m c b (h (4 : Fin cfg4.W) rfl))
def reg5 := regOf m 5 launch5 (X11 m) (X12 m) (body_obligation5 _)
  (fun c w h => by rcases (by decide : ∀ w : Fin cfg5.W, (cfg5.win w).isOut = true → w = 6 ∨ w = 7 ∨ w = 8) w h with rfl | rfl | rfl; exacts [X12_at_0 m c, X12_at_1 m c, X12_at_2 m c])
  (fun c b h => X12_of_ne m c b (h (6 : Fin cfg5.W) rfl) (h (7 : Fin cfg5.W) rfl) (h (8 : Fin cfg5.W) rfl)) (hΦo := Phi5_out _)
def reg6 := regOf m 6 launch6 (X13 m) (X14 m) (body_obligation6 _)
  (fun c w h => by obtain rfl := (by decide : ∀ w : Fin cfg6.W, (cfg6.win w).isOut = true → w = 3) w h; exact X14_at m c)
  (fun c b h => X14_of_ne m c b (h (3 : Fin cfg6.W) rfl))

end Cert.Kernel.Hand

end
-- ==== Proof.K.Frame.lean ====
import proofs.«417359_j61564061221146_2_alg».proof.Proof.K.Seg

noncomputable section

namespace Cert.Kernel.Hand

open Idealize.ShloMosaic Idealize.ShloMosaic.TcCoe
open Idealize.SL Idealize.SL.BI Idealize.SL.Sem
open Cert.Kernel Cert.Kernel.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

def frameOf :=
  frame_cond (F := F) m (Ix := Unit) (U := UR sig nD τ) (Lvl := ℕ) emb₁ () Variants.none L₀ lv₀ (fun _ _ => rfl) ρ (outs m) (pdats m)
    0 (fun _ => (BI.emp : sProp 𝕄)) u₀ hu₀ E₀ (hE0 ρ) hE7
    (reg0 m) (fun _ => .rfl) (fun _ => by rw [V2_eq]; exact .rfl)
    (reg1 m) (fun _ => by rw [V3_eq]; exact .rfl) (fun _ => by rw [V4_eq]; exact .rfl)
    (reg2 m) (fun _ => by rw [V5_eq]; exact .rfl) (fun _ => by rw [V6_eq]; exact .rfl)
    (reg3 m) (fun _ => by rw [V7_eq]; exact .rfl) (fun _ => by rw [V8_eq]; exact .rfl)
    (reg4 m) (fun _ => by rw [V9_eq]; exact .rfl) (fun _ => by rw [V10_eq]; exact .rfl)
    (reg5 m) (fun _ => by rw [V11_eq]; exact .rfl) (fun _ => by rw [V12_eq]; exact .rfl)
    (reg6 m) (fun _ => by rw [V13_eq]; exact .rfl) (fun _ => by rw [V14_eq]; exact .rfl)

end Cert.Kernel.Hand

end
-- ==== Proof.KI.R0.lean ====
import proofs.«417359_j61564061221146_2_alg».proof.Proof.Gen.KernelIdeal.Launch
import proofs.«417359_j61564061221146_2_alg».proof.Proof.Gen.KernelIdeal.Skeleton
import proofs.«417359_j61564061221146_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x14 := Rect.unit (s := S10000x14) ![0, 0] S10000x14.size inb_S10000x14_S10000x14_0_0
abbrev r0_w : Rect S14x32 := Rect.unit (s := S14x32) ![0, 0] S14x32.size inb_S14x32_S14x32_0_0
abbrev r0_b : Rect S32 := Rect.unit (s := S32) ![0] S32.size inb_S32_S32_0
abbrev r0_o : Rect S10000x32 := Rect.unit (s := S10000x32) ![0, 0] S10000x32.size inb_S10000x32_S10000x32_0_0

/-- The output block after the body: its one store, over the whole block, of the payload of the three input blocks. -/
def out0_3 (x0 : Vec F S10000x14 .f32) (x1 : Vec F S14x32 .f32) (x2 : Vec F S32 .f32) : Vec F S10000x32 .f32 :=
  View.canon [⟨r0_o, k0_pay1 (View.ld x0 r0_x) (View.ld x1 r0_w) (View.ld x2 r0_b)⟩]

/-- The region's proof data: each input window is left at its block, the output window at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]

theorem before0 (c : Dev nD) (t : Fin cfg0.N) : ∀ (w : Fin cfg0.W) (_ : w ≠ 3) (d), (dat0 V c).before w t d = (dat0 V c).fetched w t d
  | ⟨0, _⟩, _, d | ⟨1, _⟩, _, d | ⟨2, _⟩, _, d =>
    (dat0 V c).before_in_eq_fetched _ rfl (fun _ => rfl) (fun _ _ _ => rfl) (fun _ => rfl) t d
  | ⟨3, _⟩, h, _ => absurd rfl h

/-- The body at a point leaves the inputs as found and the output at `out0_3` of them: its one store covers the block. -/
theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl, after0_3]
  simp +decide only [before0 V c t]
  sl_whnfR [defs₀, Defs.onTc]
  simp only [cc0__node_proj_kernel_eq_skeleton]; unfold cc0__node_proj_kernel_skel owns
  iintro ⟨HΦ, Ho, ⟨%d0, %f0, %hf0, H0⟩, ⟨%d1, %f1, %hf1, H1⟩, ⟨%d2, %f2, %hf2, H2⟩, %d3, %f3, -, H3⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [show iblk0 V c 0 t = _ from hf0.symm, show iblk0 V c 1 t = _ from hf1.symm, show iblk0 V c 2 t = _ from hf2.symm]
  exact View.read_writes_eq_canon _ _ _ (View.cover_of_tiled _ S10000x32.size (by rfl))

end Cert.KernelIdeal.Hand

end
-- ==== Proof.KI.R1.lean ====
import proofs.«417359_j61564061221146_2_alg».proof.Proof.Gen.KernelIdeal.Launch
import proofs.«417359_j61564061221146_2_alg».proof.Proof.Gen.KernelIdeal.Skeleton
import proofs.«417359_j61564061221146_2_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S12800x32 := Rect.unit (s := S12800x32) ![0, 0] S12800x32.size inb_S12800x32_S12800x32_0_0
abbrev r1_1 : Rect S12800x3 := Rect.unit (s := S12800x3) ![0, 0] S12800x3.size inb_S12800x3_S12800x3_0_0
abbrev r1_2 : Rect S3x32 := Rect.unit (s := S3x32) ![0, 0] S3x32.size inb_S3x32_S3x32_0_0
abbrev r1_3 : Rect S32 := Rect.unit (s := S32) ![0] S32.size inb_S32_S32_0
abbrev r1_4 : Rect S12800x32 := Rect.unit (s := S12800x32) ![0, 0] S12800x32.size inb_S12800x32_S12800x32_0_0

/-- The output block after the body: its one store, over the whole block, of the payload of the four input blocks. -/
def out1_4 (x0 : Vec F S12800x32 .f32) (x1 : Vec F S12800x3 .f32) (x2 : Vec F S3x32 .f32) (x3 : Vec F S32 .f32) : Vec F S12800x32 .f32 :=
  View.canon [⟨r1_4, k1_pay1 (View.ld x1 r1_1) (View.ld x2 r1_2) (View.ld x3 r1_3) (View.ld x0 r1_0)⟩]

/-- The region's proof data: each input window is left at its block, the output window at `out1_4` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = out1_4 (iblk1 V c 0 t) (iblk1 V c 1 t) (iblk1 V c 2 t) (iblk1 V c 3 t) := by dsimp only [dat1]

theorem before1 (c : Dev nD) (t : Fin cfg1.N) : ∀ (w : Fin cfg1.W) (_ : w ≠ 4) (d), (dat1 V c).before w t d = (dat1 V c).fetched w t d
  | ⟨0, _⟩, _, d | ⟨1, _⟩, _, d | ⟨2, _⟩, _, d | ⟨3, _⟩, _, d =>
    (dat1 V c).before_in_eq_fetched _ rfl (fun _ => rfl) (fun _ _ _ => rfl) (fun _ => rfl) t d
  | ⟨4, _⟩, h, _ => absurd rfl h

/-- The body at a point leaves the inputs as found and the output at `out1_4` of them: its one store covers the block. -/
theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl, after1_4]
  simp +decide only [before1 V c t]
  sl_whnfR [defs₀, Defs.onTc]
  simp only [cc1__msg_kernel_eq_skeleton]; unfold cc1__msg_kernel_skel owns
  iintro ⟨HΦ, Ho, ⟨%d0, %f0, %hf0, H0⟩, ⟨%d1, %f1, %hf1, H1⟩, ⟨%d2, %f2, %hf2, H2⟩, ⟨%d3, %f3, %hf3, H3⟩, %d4, %f4, -, H4⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr
  swap; · iexact H4
  ipureintro
  rw [show iblk1 V c 0 t = _ from hf0.symm, show iblk1 V c 1 t = _ from hf1.symm, show iblk1 V c 2 t = _ from hf2.symm, show iblk1 V c 3 t = _ from hf3.symm]
  exact View.read_writes_eq_canon _ _ _ (View.cover_of_tiled _ S12800x32.size (by rfl))

end Cert.KernelIdeal.Hand
-- ==== Proof.KI.Conv.lean ====
import proofs.«417359_j61564061221146_2_alg».proof.Proof.Gen.KernelIdeal.Launch
import proofs.«417359_j61564061221146_2_alg».proof.Proof.Gen.KernelIdeal.Skeleton
import proofs.«417359_j61564061221146_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev convCond0 (i : grid2.Coords) : Prop := (Scalar.cmpi .ne (Scalar.extui (Scalar.cmpi .eq (BitVec.ofNat 32 (i 0).val) 0#32)) 0#32) = 1#1
abbrev convCond1 (i : grid2.Coords) : Prop := k2_cond2 i = 1#1

abbrev convKernel := @cc2__conv_kernel

def convZ (x0 x1 : Vec F S10000x32 .f32) (x2 : Vec F S32x75 .f32) (x3 : Vec F S75 .f32) (x4 : Vec F S75x32 .f32) (x5 : Vec F S32 .f32) : Vec F S10000x32 .f32 :=
  k2_pay4 x0 x1 x2 x3 x4 x5
def convSum (x0 x1 : Vec F S10000x32 .f32) (x2 : Vec F S32x75 .f32) (x3 : Vec F S75 .f32) (x4 : Vec F S75x32 .f32) (x5 : Vec F S32 .f32) (s : Vec F S32 .f32) : Vec F S32 .f32 :=
  k2_pay5 x0 x1 x2 x3 x4 x5 s
def convSq (x0 x1 : Vec F S10000x32 .f32) (x2 : Vec F S32x75 .f32) (x3 : Vec F S75 .f32) (x4 : Vec F S75x32 .f32) (x5 : Vec F S32 .f32) (q : Vec F S32 .f32) : Vec F S32 .f32 :=
  k2_pay1 (k2_pay4 x0 x1 x2 x3 x4 x5) q

private theorem hzOne : (![0] : Fin 1 → ℕ) = fun _ => 0 := by funext a; fin_cases a; rfl
private theorem hzTwo : (![0, 0] : Fin 2 → ℕ) = fun _ => 0 := by funext a; fin_cases a <;> rfl

/-- The newest store covers every index, so reading back gives its payload. -/
private theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, by
    subst h; show y ∈ (Rect.whole S).set; rw [Rect.set_whole]; exact Finset.mem_univ y⟩)).trans
    (View.canon_cons_unit_zero h inb w L)

/-- Loading at offset zero with the full extent is the plain read. -/
private theorem readAt_whole {sg : RefSig} {κ : Kind} {sp : Space} {S : Shape} {e : EltTy} (v : View sg κ sp S e)
    {off : Fin S.rank → Nat} (h : off = fun _ => 0) (inb : ∀ a, off a + S.size a ≤ S.size a) (f : v.ty.Contents (Elt F)) :
    v.readAt (Elt F) (Rect.unit off S.size inb).toLoadRect f = v.read (Elt F) f := by
  rw [View.readAt_eq_ld, View.ld_unit_zero h]

section Body

variable (c : Dev nD) (E : Set ℕ) (i : grid2.Coords)
  (arg1 : Memref sig .tc .vmem S10000x32 .f32) (harg1 : arg1.IsWhole) (arg2 : Memref sig .tc .vmem S10000x32 .f32) (harg2 : arg2.IsWhole)
  (arg3 : Memref sig .tc .vmem S32x75 .f32) (harg3 : arg3.IsWhole) (arg4 : Memref sig .tc .vmem S75 .f32) (harg4 : arg4.IsWhole)
  (arg5 : Memref sig .tc .vmem S75x32 .f32) (harg5 : arg5.IsWhole) (arg6 : Memref sig .tc .vmem S32 .f32) (harg6 : arg6.IsWhole)
  (arg7 : Memref sig .tc .vmem S10000x32 .f32) (harg7 : arg7.IsWhole) (arg8 : Memref sig .tc .vmem S32 .f32) (harg8 : arg8.IsWhole)
  (arg9 : Memref sig .tc .vmem S32 .f32) (harg9 : arg9.IsWhole) (arg10 : Memref sig .tc .vmem S32 .f32) (harg10 : arg10.IsWhole)
  (arg11 : Memref sig .tc .vmem S32 .f32) (harg11 : arg11.IsWhole)
  (x0 x1 : Vec F S10000x32 .f32) (x2 : Vec F S32x75 .f32) (x3 : Vec F S75 .f32) (x4 : Vec F S75x32 .f32) (x5 : Vec F S32 .f32)

/-- The six inputs held at `x0 … x5`. -/
def convIns : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5)

set_option maxHeartbeats 1000000 in
/-- Before the last point: z takes the point's block; the carried pair goes one step on, from the zero vectors at the reset, else from (s, q). -/
theorem conv_step (K : PUnit → sProp 𝕄) (hc1 : ¬convCond1 i) (s q s' q' : Vec F S32 .f32)
    (h : convCond0 i ∧ s' = k2_pay2 ∧ q' = k2_pay3 ∨ ¬convCond0 i ∧ s' = s ∧ q' = q) :
    iprop(convIns c arg1 arg2 arg3 arg4 arg5 arg6 x0 x1 x2 x3 x4 x5 ∗ (∃ d, owns (c : Thread nD τ) arg7 fullShare d) ∗ owns (c : Thread nD τ) arg10 fullShare s ∗ owns (c : Thread nD τ) arg11 fullShare q
        ∗ (iprop(convIns c arg1 arg2 arg3 arg4 arg5 arg6 x0 x1 x2 x3 x4 x5 ∗ owns (c : Thread nD τ) arg7 fullShare (convZ x0 x1 x2 x3 x4 x5)
            ∗ owns (c : Thread nD τ) arg10 fullShare (convSum x0 x1 x2 x3 x4 x5 s') ∗ owns (c : Thread nD τ) arg11 fullShare (convSq x0 x1 x2 x3 x4 x5 q')) -∗ K ⟨⟩))
      ⊢ wp frame (wpE (defs₀ (F := F)) Variants.none c none) E (cc2__conv_kernel i arg1 harg1 arg2 harg2 arg3 harg3 arg4 harg4 arg5 harg5 arg6 harg6 arg7 harg7 arg8 harg8 arg9 harg9 arg10 harg10 arg11 harg11) K := by
  simp only [cc2__conv_kernel_eq_skeleton]; unfold cc2__conv_kernel_skel
  simp only [k2_part1_eq_skeleton]
  unfold convIns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d7, %f7, -, H7⟩, ⟨%fs, %hfs, HS⟩, ⟨%fq, %hfq, HQ⟩, Hk⟩
  obtain ⟨hc0, rfl, rfl⟩ | ⟨hc0, rfl, rfl⟩ := h
  all_goals
    sl_exec (disch := first | exact hc0 | exact hc1)
    sl_step
    iapply Hk
    isplitl [H0 H1 H2 H3 H4 H5]
    · isplitl [H0]; rotate_left; isplitl [H1]; rotate_left; isplitl [H2]; rotate_left; isplitl [H3]; rotate_left; isplitl [H4]; rotate_left
      all_goals (iexists _; isplitr; swap; iassumption; ipureintro; assumption)
    isplitl [H7]; rotate_left; isplitl [HS]; rotate_left
    all_goals
      iexists _; isplitr; swap; iassumption; ipureintro
      try sl_unfold_words
      first | rw [read_writes_whole (S := S10000x32) _ _ hzTwo] | rw [read_writes_whole (S := S32) _ _ hzOne]
      simp only [readAt_whole (S := S10000x32) _ hzTwo, readAt_whole (S := S32x75) _ hzTwo, readAt_whole (S := S75) _ hzOne, readAt_whole (S := S75x32) _ hzTwo, readAt_whole (S := S32) _ hzOne, View.readCov_unit_zero (S := S32) _ hzOne, hf0, hf1, hf2, hf3, hf4, hf5, hfs, hfq]
      rfl

set_option maxHeartbeats 1000000 in
/-- The last point: the same step from (s, q), and the new pair is also left in the two small outputs. -/
theorem conv_last (K : PUnit → sProp 𝕄) (hc0 : ¬convCond0 i) (hc1 : convCond1 i) (s q : Vec F S32 .f32) :
    iprop(convIns c arg1 arg2 arg3 arg4 arg5 arg6 x0 x1 x2 x3 x4 x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s ∗ owns (c : Thread nD τ) arg11 fullShare q
        ∗ (iprop(convIns c arg1 arg2 arg3 arg4 arg5 arg6 x0 x1 x2 x3 x4 x5 ∗ owns (c : Thread nD τ) arg7 fullShare (convZ x0 x1 x2 x3 x4 x5)
            ∗ owns (c : Thread nD τ) arg8 fullShare (convSum x0 x1 x2 x3 x4 x5 s) ∗ owns (c : Thread nD τ) arg9 fullShare (convSq x0 x1 x2 x3 x4 x5 q)
            ∗ owns (c : Thread nD τ) arg10 fullShare (convSum x0 x1 x2 x3 x4 x5 s) ∗ owns (c : Thread nD τ) arg11 fullShare (convSq x0 x1 x2 x3 x4 x5 q)) -∗ K ⟨⟩))
      ⊢ wp frame (wpE (defs₀ (F := F)) Variants.none c none) E (cc2__conv_kernel i arg1 harg1 arg2 harg2 arg3 harg3 arg4 harg4 arg5 harg5 arg6 harg6 arg7 harg7 arg8 harg8 arg9 harg9 arg10 harg10 arg11 harg11) K := by
  simp only [cc2__conv_kernel_eq_skeleton]; unfold cc2__conv_kernel_skel
  simp only [k2_part1_eq_skeleton]
  unfold convIns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d7, %f7, -, H7⟩, ⟨%d8, %f8, -, H8⟩, ⟨%d9, %f9, -, H9⟩, ⟨%fs, %hfs, HS⟩, ⟨%fq, %hfq, HQ⟩, Hk⟩
  sl_exec (disch := first | exact hc0 | exact hc1)
  sl_step
  iapply Hk
  isplitl [H0 H1 H2 H3 H4 H5]
  · isplitl [H0]; rotate_left; isplitl [H1]; rotate_left; isplitl [H2]; rotate_left; isplitl [H3]; rotate_left; isplitl [H4]; rotate_left
    all_goals (iexists _; isplitr; swap; iassumption; ipureintro; assumption)
  isplitl [H7]; rotate_left; isplitl [H8]; rotate_left; isplitl [H9]; rotate_left; isplitl [HS]; rotate_left
  all_goals
    iexists _; isplitr; swap; iassumption; ipureintro
    try sl_unfold_words
    first | rw [read_writes_whole (S := S10000x32) _ _ hzTwo] | rw [read_writes_whole (S := S32) _ _ hzOne]
    simp only [readAt_whole (S := S10000x32) _ hzTwo, readAt_whole (S := S32x75) _ hzTwo, readAt_whole (S := S75) _ hzOne, readAt_whole (S := S75x32) _ hzTwo, readAt_whole (S := S32) _ hzOne, View.readCov_unit_zero (S := S32) _ hzOne, hf0, hf1, hf2, hf3, hf4, hf5, hfs, hfq]
    rfl

end Body

end Cert.KernelIdeal.Hand

end
-- ==== Proof.KI.R2.lean ====
import proofs.«417359_j61564061221146_2_alg».proof.Proof.Gen.KernelIdeal.Launch
import proofs.«417359_j61564061221146_2_alg».proof.Proof.Gen.KernelIdeal.Skeleton
import proofs.«417359_j61564061221146_2_alg».proof.Proof.Gen.KernelIdeal.Points
import proofs.«417359_j61564061221146_2_alg».proof.Proof.KI.Conv
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev hblk2 (c : Dev nD) (t : Fin cfg2.N) : Vec F S10000x32 .f32 := iblk2 V c 0 t
abbrev ablk2 (c : Dev nD) (t : Fin cfg2.N) : Vec F S10000x32 .f32 := iblk2 V c 1 t
abbrev w1blk2 (c : Dev nD) (t : Fin cfg2.N) : Vec F S32x75 .f32 := iblk2 V c 2 t
abbrev b1blk2 (c : Dev nD) (t : Fin cfg2.N) : Vec F S75 .f32 := iblk2 V c 3 t
abbrev w2blk2 (c : Dev nD) (t : Fin cfg2.N) : Vec F S75x32 .f32 := iblk2 V c 4 t
abbrev b2blk2 (c : Dev nD) (t : Fin cfg2.N) : Vec F S32 .f32 := iblk2 V c 5 t

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

theorem liveAt2 : ∀ (t : Fin cfg2.N) (w : Fin cfg2.W), w.val < 7 ∨ cond2_1 (grid2.coords t) → cfg2.idle w (cfg2.grid.coords t) = false := by decide +kernel
theorem idleAt2 : ∀ (t : Fin cfg2.N) (w : Fin cfg2.W), 7 ≤ w.val → ¬cond2_1 (grid2.coords t) → cfg2.idle w (cfg2.grid.coords t) = true ∧ (cfg2.win w).flush t = false := by decide +kernel

def zOf2 (x0 x1 : Vec F S10000x32 .f32) (x2 : Vec F S32x75 .f32) (x3 : Vec F S75 .f32) (x4 : Vec F S75x32 .f32) (x5 : Vec F S32 .f32) : Vec F S10000x32 .f32 :=
  k2_pay4 x0 x1 x2 x3 x4 x5
def sumOf2 (x0 x1 : Vec F S10000x32 .f32) (x2 : Vec F S32x75 .f32) (x3 : Vec F S75 .f32) (x4 : Vec F S75x32 .f32) (x5 : Vec F S32 .f32) (s : Vec F S32 .f32) : Vec F S32 .f32 :=
  k2_pay5 x0 x1 x2 x3 x4 x5 s
def sqOf2 (x0 x1 : Vec F S10000x32 .f32) (x2 : Vec F S32x75 .f32) (x3 : Vec F S75 .f32) (x4 : Vec F S75x32 .f32) (x5 : Vec F S32 .f32) (q : Vec F S32 .f32) : Vec F S32 .f32 :=
  k2_pay1 (k2_pay4 x0 x1 x2 x3 x4 x5) q

def zAt2 (c : Dev nD) (t : Fin cfg2.N) : Vec F S10000x32 .f32 :=
  zOf2 (hblk2 V c t) (ablk2 V c t) (w1blk2 V c t) (b1blk2 V c t) (w2blk2 V c t) (b2blk2 V c t)

def stepAt2 (c : Dev nD) (t : Fin cfg2.N) (p : Vec F S32 .f32 × Vec F S32 .f32) : Vec F S32 .f32 × Vec F S32 .f32 :=
  (sumOf2 (hblk2 V c t) (ablk2 V c t) (w1blk2 V c t) (b1blk2 V c t) (w2blk2 V c t) (b2blk2 V c t) p.1, sqOf2 (hblk2 V c t) (ablk2 V c t) (w1blk2 V c t) (b1blk2 V c t) (w2blk2 V c t) (b2blk2 V c t) p.2)

def scrAt2 (c : Dev nD) : (n : ℕ) → n < cfg2.N → Vec F S32 .f32 × Vec F S32 .f32
  | 0, hn => stepAt2 V c ⟨0, hn⟩ (k2_pay2, k2_pay3)
  | n + 1, hn => stepAt2 V c ⟨n + 1, hn⟩ (scrAt2 c n (Nat.lt_of_succ_lt hn))

theorem scrAt2_zero (c : Dev nD) (hn : 0 < cfg2.N) : scrAt2 V c 0 hn = stepAt2 V c ⟨0, hn⟩ (k2_pay2, k2_pay3) := rfl
theorem scrAt2_succ (c : Dev nD) (n : ℕ) (hn : n + 1 < cfg2.N) :
    scrAt2 V c (n + 1) hn = stepAt2 V c ⟨n + 1, hn⟩ (scrAt2 V c n (Nat.lt_of_succ_lt hn)) := rfl
theorem scrAt2_first (c : Dev nD) (t : Fin cfg2.N) (hz : t.val = 0) :
    scrAt2 V c t.val t.isLt = stepAt2 V c t (k2_pay2, k2_pay3) := by
  obtain ⟨_ | n, hn⟩ := t
  exacts [rfl, absurd hz (Nat.succ_ne_zero n)]
theorem scrAt2_pos (c : Dev nD) (t : Fin cfg2.N) (hz : t.val ≠ 0) :
    scrAt2 V c t.val t.isLt = stepAt2 V c t (scrAt2 V c (t.val - 1) (Nat.lt_of_le_of_lt (Nat.sub_le _ _) t.isLt)) := by
  obtain ⟨_ | n, hn⟩ := t
  exacts [absurd rfl hz, rfl]

abbrev scM2_0 : Memref sig .tc .vmem S32 .f32 := Memref.whole cc2_scratch0
abbrev scM2_1 : Memref sig .tc .vmem S32 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

/-- The region's resting invariant with the two carried vectors split off the rest of its scoped buffers. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

/-- The invariant before point `n`: the resting one at `n = 0`, else the carried pair pinned to its values after point `n - 1`. -/
def Phi2 (c : Dev nD) : (n : ℕ) → n ≤ cfg2.N → sProp 𝕄
  | 0, _ => Pipeline.ΦA spec2 c
  | n + 1, hn => iprop(iprop(iprop(owns (c : Thread nD τ) scM2_0 fullShare (scrAt2 V c n hn).1 ∗ owns (c : Thread nD τ) scM2_1 fullShare (scrAt2 V c n hn).2) ∗ rest2 c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(iprop(owns (c : Thread nD τ) scM2_0 fullShare (scrAt2 V c n hn).1 ∗ owns (c : Thread nD τ) scM2_1 fullShare (scrAt2 V c n hn).2) ∗ rest2 c) ∗ (∃ r, prngReg c r)) := rfl
theorem Phi2_pos (c : Dev nD) (n : ℕ) (h : n ≤ cfg2.N) (hz : n ≠ 0) :
    Phi2 V c n h = iprop(iprop(iprop(owns (c : Thread nD τ) scM2_0 fullShare (scrAt2 V c (n - 1) (by omega)).1 ∗ owns (c : Thread nD τ) scM2_1 fullShare (scrAt2 V c (n - 1) (by omega)).2) ∗ rest2 c) ∗ (∃ r, prngReg c r)) := by
  obtain _ | n := n
  exacts [absurd rfl hz, rfl]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => zAt2 V c t
    | ⟨7, _⟩ => (scrAt2 V c t.val t.isLt).1
    | ⟨8, _⟩ => (scrAt2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = zAt2 V c t := rfl
theorem after2_7 (c : Dev nD) (t : Fin cfg2.N) : (dat2 V c).after 7 t = (scrAt2 V c t.val t.isLt).1 := rfl
theorem after2_8 (c : Dev nD) (t : Fin cfg2.N) : (dat2 V c).after 8 t = (scrAt2 V c t.val t.isLt).2 := rfl

theorem before2 (c : Dev nD) (t : Fin cfg2.N) :
    ((∀ d, (dat2 V c).before 0 t d = iblk2 V c 0 t) ∧ (dat2 V c).after 0 t = iblk2 V c 0 t)
    ∧ ((∀ d, (dat2 V c).before 1 t d = iblk2 V c 1 t) ∧ (dat2 V c).after 1 t = iblk2 V c 1 t)
    ∧ ((∀ d, (dat2 V c).before 2 t d = iblk2 V c 2 t) ∧ (dat2 V c).after 2 t = iblk2 V c 2 t)
    ∧ ((∀ d, (dat2 V c).before 3 t d = iblk2 V c 3 t) ∧ (dat2 V c).after 3 t = iblk2 V c 3 t)
    ∧ ((∀ d, (dat2 V c).before 4 t d = iblk2 V c 4 t) ∧ (dat2 V c).after 4 t = iblk2 V c 4 t)
    ∧ ((∀ d, (dat2 V c).before 5 t d = iblk2 V c 5 t) ∧ (dat2 V c).after 5 t = iblk2 V c 5 t) := by
  refine ⟨?_, ?_, ?_, ?_, ?_, ?_⟩ <;>
    exact ⟨(dat2 V c).before_in_eq_fetched _ rfl (fun _ => rfl) (fun _ _ _ => rfl) (fun _ => rfl) t, rfl⟩

theorem liveAt2_leaves (c : Dev nD) (t : Fin cfg2.N) (w : Fin cfg2.W) (h : w.val < 7 ∨ cond2_1 (grid2.coords t)) :
    (dat2 V c).leavesExact w t = owns (c : Thread nD τ) ((cfg2.win w).stage (cfg2.slots t w)) fullShare ((dat2 V c).after w t) := by
  unfold Dat.leavesExact; rw [liveAt2 t w h]

def bodyPre2 (c : Dev nD) (t : Fin cfg2.N) (w : Fin cfg2.W) : sProp 𝕄 :=
  iprop(∃ d, owns (c : Thread nD τ) ((cfg2.win w).stage (cfg2.slots t w)) fullShare ((dat2 V c).before w t d))

set_option maxHeartbeats 4800000 in
/-- The body at any point: the invariant lends it the carried pair and takes it back one step on; the point's position picks the case. -/
theorem sound_body2 (c : Dev nD) (t : Fin cfg2.N) :
    iprop((dat2 V c).Φ t.castSucc ∗ (dat2 V c).owesAt () t.castSucc ∗ bodyPre2 V c t 0 ∗ bodyPre2 V c t 1 ∗ bodyPre2 V c t 2 ∗ bodyPre2 V c t 3 ∗ bodyPre2 V c t 4 ∗ bodyPre2 V c t 5 ∗ bodyPre2 V c t 6 ∗ bodyPre2 V c t 7 ∗ bodyPre2 V c t 8)
      ⊢ wp frame (wpE (defs₀ (F := F)) Variants.none c none) Set.univ (bodyAt2 t) fun _ =>
          iprop((dat2 V c).Φ t.succ ∗ (dat2 V c).owesAt () t.succ ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t ∗ (dat2 V c).leavesExact 8 t) := by
  have eZ : @zOf2 F _ = @convZ F _ := rfl
  have eS : @sumOf2 F _ = @convSum F _ := rfl
  have eQ : @sqOf2 F _ = @convSq F _ := rfl
  unfold bodyPre2 bodyAt2
  rw [show @cc2__conv_kernel F _ = @convKernel F _ from rfl]
  rw [liveAt2_leaves V c t 0 (.inl (by decide)), liveAt2_leaves V c t 1 (.inl (by decide)), liveAt2_leaves V c t 2 (.inl (by decide)),
    liveAt2_leaves V c t 3 (.inl (by decide)), liveAt2_leaves V c t 4 (.inl (by decide)), liveAt2_leaves V c t 5 (.inl (by decide)),
    liveAt2_leaves V c t 6 (.inl (by decide)), after2_6]
  simp only [before2 V c t]
  rw [show (dat2 V c).owesAt () t.succ = (dat2 V c).owesAt () t.castSucc from rfl,
    show (dat2 V c).Φ t.succ = Phi2 V c (t.val + 1) t.isLt from rfl, Phi2_succ,
    show (dat2 V c).Φ t.castSucc = Phi2 V c t.val (Nat.le_of_lt t.isLt) from rfl]
  by_cases hc1 : cond2_1 (grid2.coords t)
  · have h0 : t.val ≠ 0 := by have := (hcond2_1 t).mp hc1; omega
    have hc0 : ¬cond2_0 (grid2.coords t) := fun h => h0 ((hcond2_0 t).mp h)
    rw [liveAt2_leaves V c t 7 (.inr hc1), liveAt2_leaves V c t 8 (.inr hc1), after2_7, after2_8, Phi2_pos V c _ _ h0, scrAt2_pos V c t h0]
    unfold stepAt2 zAt2; dsimp only; rw [eZ, eS, eQ]
    iintro ⟨⟨⟨⟨HS, HQ⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (conv_last c Set.univ (grid2.coords t) _ _ _ _ _ _ _ _ _ _ _ _ _ _ _ _ _ _ _ _ _ _ (hblk2 V c t) (ablk2 V c t) (w1blk2 V c t) (b1blk2 V c t) (w2blk2 V c t) (b2blk2 V c t) _ hc0 hc1 _ _)
    unfold convIns
    iframe H0 H1 H2 H3 H4 H5
    isplitl [H6]; · iexists _; iexact H6
    isplitl [H7]; · iexists _; iexact H7
    isplitl [H8]; · iexists _; iexact H8
    isplitl [HS]; · iexact HS
    isplitl [HQ]; · iexact HQ
    iintro ⟨⟨H0, H1, H2, H3, H4, H5⟩, H6, H7, H8, HS, HQ⟩
    iframe
  · rw [Dat.leavesExact_idle (dat2 V c) 7 t (idleAt2 t 7 (by decide) hc1).1 (idleAt2 t 7 (by decide) hc1).2,
      Dat.leavesExact_idle (dat2 V c) 8 t (idleAt2 t 8 (by decide) hc1).1 (idleAt2 t 8 (by decide) hc1).2]
    by_cases h0 : t.val = 0
    case' pos =>
      rw [Phi2_zero V c _ _ h0, PhiA2_eq, scrAt2_first V c t h0]
      unfold stepAt2 zAt2; dsimp only; rw [eZ, eS, eQ]
      iintro ⟨⟨⟨⟨⟨%ds, HS⟩, ⟨%dq, HQ⟩⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (conv_step c Set.univ (grid2.coords t) _ _ _ _ _ _ _ _ _ _ _ _ _ _ _ _ _ _ _ _ _ _ (hblk2 V c t) (ablk2 V c t) (w1blk2 V c t) (b1blk2 V c t) (w2blk2 V c t) (b2blk2 V c t) _ hc1 _ _ k2_pay2 k2_pay3 (.inl ⟨(hcond2_0 t).mpr h0, rfl, rfl⟩))
    case' neg =>
      rw [Phi2_pos V c _ _ h0, scrAt2_pos V c t h0]
      unfold stepAt2 zAt2; dsimp only; rw [eZ, eS, eQ]
      iintro ⟨⟨⟨⟨HS, HQ⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (conv_step c Set.univ (grid2.coords t) _ _ _ _ _ _ _ _ _ _ _ _ _ _ _ _ _ _ _ _ _ _ (hblk2 V c t) (ablk2 V c t) (w1blk2 V c t) (b1blk2 V c t) (w2blk2 V c t) (b2blk2 V c t) _ hc1 _ _ _ _ (.inr ⟨fun h => h0 ((hcond2_0 t).mp h), rfl, rfl⟩))
    any_goals
      unfold convIns
      iframe H0 H1 H2 H3 H4 H5
      isplitl [H6]; · iexists _; iexact H6
      isplitl [HS]; · iexact HS
      isplitl [HQ]; · iexact HQ
      iintro ⟨⟨H0, H1, H2, H3, H4, H5⟩, H6, HS, HQ⟩
      iframe

theorem body_obligation2 (c : Dev nD) : BodyObligation (dat2 (F := F) V c) (defs₀ (F := F)) Variants.none () Set.univ := fun t => by
  rw [bigSep_W2, bigSep_W2]
  exact sound_body2 V c t

theorem Phi2_in (c : Dev nD) : (dat2 V c).Φ 0 = Pipeline.ΦA spec2 c := rfl

/-- Forgetting the carried pair's values gives the resting invariant back. -/
theorem Phi2_out (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 10 := N_2; omega), PhiA2_eq]
  iintro ⟨⟨⟨HS, HQ⟩, Hr⟩, Hg⟩
  iframe Hr Hg
  isplitl [HS] <;> iexists _ <;> iassumption

end Region2

end Cert.KernelIdeal.Hand

end
-- ==== Proof.KI.R3.lean ====
import proofs.«417359_j61564061221146_2_alg».proof.Proof.Gen.KernelIdeal.Launch
import proofs.«417359_j61564061221146_2_alg».proof.Proof.Gen.KernelIdeal.Skeleton
import proofs.«417359_j61564061221146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x32 := Rect.unit (s := S10000x32) ![0, 0] S10000x32.size inb_S10000x32_S10000x32_0_0
abbrev r3_1 : Rect S32 := Rect.unit (s := S32) ![0] S32.size inb_S32_S32_0

/-- The output block after the body: its one store, over the whole block, of the payload of the three input blocks. -/
def out3_3 (x0 : Vec F S10000x32 .f32) (x1 : Vec F S32 .f32) (x2 : Vec F S32 .f32) : Vec F S10000x32 .f32 :=
  View.canon [⟨r3_0, k3_pay1 (View.ld x1 r3_1) (View.ld x2 r3_1) (View.ld x0 r3_0)⟩]

/-- The region's proof data: each input window is left at its block, the output window at `out3_3` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) : (dat3 V c).after 3 t = out3_3 (iblk3 V c 0 t) (iblk3 V c 1 t) (iblk3 V c 2 t) := by dsimp only [dat3]

theorem before3 (c : Dev nD) (t : Fin cfg3.N) : ∀ (w : Fin cfg3.W) (_ : w ≠ 3) (d), (dat3 V c).before w t d = (dat3 V c).fetched w t d
  | ⟨0, _⟩, _, d | ⟨1, _⟩, _, d | ⟨2, _⟩, _, d =>
    (dat3 V c).before_in_eq_fetched _ rfl (fun _ => rfl) (fun _ _ _ => rfl) (fun _ => rfl) t d
  | ⟨3, _⟩, h, _ => absurd rfl h

/-- The body at a point leaves the inputs as found and the output at `out3_3` of them: its one store covers the block. -/
theorem body_obligation3 (c : Dev nD) : BodyObligation (dat3 (F := F) V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl, after3_3]
  simp +decide only [before3 V c t]
  sl_whnfR [defs₀, Defs.onTc]
  simp only [cc3__norm_kernel_eq_skeleton]; unfold cc3__norm_kernel_skel owns
  iintro ⟨HΦ, Ho, ⟨%d0, %f0, %hf0, H0⟩, ⟨%d1, %f1, %hf1, H1⟩, ⟨%d2, %f2, %hf2, H2⟩, %d3, %f3, -, H3⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [show iblk3 V c 0 t = _ from hf0.symm, show iblk3 V c 1 t = _ from hf1.symm, show iblk3 V c 2 t = _ from hf2.symm]
  exact View.read_writes_eq_canon _ _ _ (View.cover_of_tiled _ S10000x32.size (by rfl))

end Cert.KernelIdeal.Hand

end
-- ==== Proof.KI.R4.lean ====
import proofs.«417359_j61564061221146_2_alg».proof.Proof.Gen.KernelIdeal.Launch
import proofs.«417359_j61564061221146_2_alg».proof.Proof.Gen.KernelIdeal.Skeleton
import proofs.«417359_j61564061221146_2_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S12800x32 := Rect.unit (s := S12800x32) ![0, 0] S12800x32.size inb_S12800x32_S12800x32_0_0
abbrev r4_1 : Rect S12800x3 := Rect.unit (s := S12800x3) ![0, 0] S12800x3.size inb_S12800x3_S12800x3_0_0
abbrev r4_2 : Rect S3x32 := Rect.unit (s := S3x32) ![0, 0] S3x32.size inb_S3x32_S3x32_0_0
abbrev r4_3 : Rect S32 := Rect.unit (s := S32) ![0] S32.size inb_S32_S32_0
abbrev r4_4 : Rect S12800x32 := Rect.unit (s := S12800x32) ![0, 0] S12800x32.size inb_S12800x32_S12800x32_0_0

/-- The output block after the body: its one store, over the whole block, of the payload of the four input blocks. -/
def out4_4 (x0 : Vec F S12800x32 .f32) (x1 : Vec F S12800x3 .f32) (x2 : Vec F S3x32 .f32) (x3 : Vec F S32 .f32) : Vec F S12800x32 .f32 :=
  View.canon [⟨r4_4, k4_pay1 (View.ld x1 r4_1) (View.ld x2 r4_2) (View.ld x3 r4_3) (View.ld x0 r4_0)⟩]

/-- The region's proof data: each input window is left at its block, the output window at `out4_4` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) : (dat4 V c).after 4 t = out4_4 (iblk4 V c 0 t) (iblk4 V c 1 t) (iblk4 V c 2 t) (iblk4 V c 3 t) := by dsimp only [dat4]

theorem before4 (c : Dev nD) (t : Fin cfg4.N) : ∀ (w : Fin cfg4.W) (_ : w ≠ 4) (d), (dat4 V c).before w t d = (dat4 V c).fetched w t d
  | ⟨0, _⟩, _, d | ⟨1, _⟩, _, d | ⟨2, _⟩, _, d | ⟨3, _⟩, _, d =>
    (dat4 V c).before_in_eq_fetched _ rfl (fun _ => rfl) (fun _ _ _ => rfl) (fun _ => rfl) t d
  | ⟨4, _⟩, h, _ => absurd rfl h

/-- The body at a point leaves the inputs as found and the output at `out4_4` of them: its one store covers the block. -/
theorem body_obligation4 (c : Dev nD) : BodyObligation (dat4 (F := F) V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl, after4_4]
  simp +decide only [before4 V c t]
  sl_whnfR [defs₀, Defs.onTc]
  simp only [cc4__msg_kernel_eq_skeleton]; unfold cc4__msg_kernel_skel owns
  iintro ⟨HΦ, Ho, ⟨%d0, %f0, %hf0, H0⟩, ⟨%d1, %f1, %hf1, H1⟩, ⟨%d2, %f2, %hf2, H2⟩, ⟨%d3, %f3, %hf3, H3⟩, %d4, %f4, -, H4⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr
  swap; · iexact H4
  ipureintro
  rw [show iblk4 V c 0 t = _ from hf0.symm, show iblk4 V c 1 t = _ from hf1.symm, show iblk4 V c 2 t = _ from hf2.symm, show iblk4 V c 3 t = _ from hf3.symm]
  exact View.read_writes_eq_canon _ _ _ (View.cover_of_tiled _ S12800x32.size (by rfl))

end Cert.KernelIdeal.Hand
-- ==== Proof.KI.R5.lean ====
import proofs.«417359_j61564061221146_2_alg».proof.Proof.Gen.KernelIdeal.Launch
import proofs.«417359_j61564061221146_2_alg».proof.Proof.Gen.KernelIdeal.Skeleton
import proofs.«417359_j61564061221146_2_alg».proof.Proof.Gen.KernelIdeal.Points
import proofs.«417359_j61564061221146_2_alg».proof.Proof.KI.Conv
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev hblk5 (c : Dev nD) (t : Fin cfg5.N) : Vec F S10000x32 .f32 := iblk5 V c 0 t
abbrev ablk5 (c : Dev nD) (t : Fin cfg5.N) : Vec F S10000x32 .f32 := iblk5 V c 1 t
abbrev w1blk5 (c : Dev nD) (t : Fin cfg5.N) : Vec F S32x75 .f32 := iblk5 V c 2 t
abbrev b1blk5 (c : Dev nD) (t : Fin cfg5.N) : Vec F S75 .f32 := iblk5 V c 3 t
abbrev w2blk5 (c : Dev nD) (t : Fin cfg5.N) : Vec F S75x32 .f32 := iblk5 V c 4 t
abbrev b2blk5 (c : Dev nD) (t : Fin cfg5.N) : Vec F S32 .f32 := iblk5 V c 5 t

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1
theorem hcond5_1 : ∀ t : Fin cfg5.N, cond5_1 (grid5.coords t) ↔ t.val = 9 :=
  (by decide +kernel : ∀ t : Fin grid5.N, cond5_1 (grid5.coords t) ↔ t.val = 9)

theorem liveAt5 : ∀ (t : Fin cfg5.N) (w : Fin cfg5.W), w.val < 7 ∨ cond5_1 (grid5.coords t) → cfg5.idle w (cfg5.grid.coords t) = false := by decide +kernel
theorem idleAt5 : ∀ (t : Fin cfg5.N) (w : Fin cfg5.W), 7 ≤ w.val → ¬cond5_1 (grid5.coords t) → cfg5.idle w (cfg5.grid.coords t) = true ∧ (cfg5.win w).flush t = false := by decide +kernel

def zOf5 (x0 x1 : Vec F S10000x32 .f32) (x2 : Vec F S32x75 .f32) (x3 : Vec F S75 .f32) (x4 : Vec F S75x32 .f32) (x5 : Vec F S32 .f32) : Vec F S10000x32 .f32 :=
  k5_pay4 x0 x1 x2 x3 x4 x5
def sumOf5 (x0 x1 : Vec F S10000x32 .f32) (x2 : Vec F S32x75 .f32) (x3 : Vec F S75 .f32) (x4 : Vec F S75x32 .f32) (x5 : Vec F S32 .f32) (s : Vec F S32 .f32) : Vec F S32 .f32 :=
  k5_pay5 x0 x1 x2 x3 x4 x5 s
def sqOf5 (x0 x1 : Vec F S10000x32 .f32) (x2 : Vec F S32x75 .f32) (x3 : Vec F S75 .f32) (x4 : Vec F S75x32 .f32) (x5 : Vec F S32 .f32) (q : Vec F S32 .f32) : Vec F S32 .f32 :=
  k5_pay1 (k5_pay4 x0 x1 x2 x3 x4 x5) q

def zAt5 (c : Dev nD) (t : Fin cfg5.N) : Vec F S10000x32 .f32 :=
  zOf5 (hblk5 V c t) (ablk5 V c t) (w1blk5 V c t) (b1blk5 V c t) (w2blk5 V c t) (b2blk5 V c t)

def stepAt5 (c : Dev nD) (t : Fin cfg5.N) (p : Vec F S32 .f32 × Vec F S32 .f32) : Vec F S32 .f32 × Vec F S32 .f32 :=
  (sumOf5 (hblk5 V c t) (ablk5 V c t) (w1blk5 V c t) (b1blk5 V c t) (w2blk5 V c t) (b2blk5 V c t) p.1, sqOf5 (hblk5 V c t) (ablk5 V c t) (w1blk5 V c t) (b1blk5 V c t) (w2blk5 V c t) (b2blk5 V c t) p.2)

def scrAt5 (c : Dev nD) : (n : ℕ) → n < cfg5.N → Vec F S32 .f32 × Vec F S32 .f32
  | 0, hn => stepAt5 V c ⟨0, hn⟩ (k5_pay2, k5_pay3)
  | n + 1, hn => stepAt5 V c ⟨n + 1, hn⟩ (scrAt5 c n (Nat.lt_of_succ_lt hn))

theorem scrAt5_zero (c : Dev nD) (hn : 0 < cfg5.N) : scrAt5 V c 0 hn = stepAt5 V c ⟨0, hn⟩ (k5_pay2, k5_pay3) := rfl
theorem scrAt5_succ (c : Dev nD) (n : ℕ) (hn : n + 1 < cfg5.N) :
    scrAt5 V c (n + 1) hn = stepAt5 V c ⟨n + 1, hn⟩ (scrAt5 V c n (Nat.lt_of_succ_lt hn)) := rfl
theorem scrAt5_first (c : Dev nD) (t : Fin cfg5.N) (hz : t.val = 0) :
    scrAt5 V c t.val t.isLt = stepAt5 V c t (k5_pay2, k5_pay3) := by
  obtain ⟨_ | n, hn⟩ := t
  exacts [rfl, absurd hz (Nat.succ_ne_zero n)]
theorem scrAt5_pos (c : Dev nD) (t : Fin cfg5.N) (hz : t.val ≠ 0) :
    scrAt5 V c t.val t.isLt = stepAt5 V c t (scrAt5 V c (t.val - 1) (Nat.lt_of_le_of_lt (Nat.sub_le _ _) t.isLt)) := by
  obtain ⟨_ | n, hn⟩ := t
  exacts [absurd rfl hz, rfl]

abbrev scM5_0 : Memref sig .tc .vmem S32 .f32 := Memref.whole cc5_scratch0
abbrev scM5_1 : Memref sig .tc .vmem S32 .f32 := Memref.whole cc5_scratch1

abbrev rest5 (c : Dev nD) : sProp 𝕄 :=
  Pipeline.scopedRestBut (Ix := Unit) (Name := ℕ) (U := UR sig nD τ) (Lvl := ℕ) (Val := Elt F) spec5 c [cc5_scratch0, cc5_scratch1]

/-- The region's resting invariant with the two carried vectors split off the rest of its scoped buffers. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

/-- The invariant before point `n`: the resting one at `n = 0`, else the carried pair pinned to its values after point `n - 1`. -/
def Phi5 (c : Dev nD) : (n : ℕ) → n ≤ cfg5.N → sProp 𝕄
  | 0, _ => Pipeline.ΦA spec5 c
  | n + 1, hn => iprop(iprop(iprop(owns (c : Thread nD τ) scM5_0 fullShare (scrAt5 V c n hn).1 ∗ owns (c : Thread nD τ) scM5_1 fullShare (scrAt5 V c n hn).2) ∗ rest5 c) ∗ (∃ r, prngReg c r))

theorem Phi5_zero (c : Dev nD) (n : ℕ) (h : n ≤ cfg5.N) (hz : n = 0) : Phi5 V c n h = Pipeline.ΦA spec5 c := by
  subst hz; rfl
theorem Phi5_succ (c : Dev nD) (n : ℕ) (hn : n < cfg5.N) :
    Phi5 V c (n + 1) hn = iprop(iprop(iprop(owns (c : Thread nD τ) scM5_0 fullShare (scrAt5 V c n hn).1 ∗ owns (c : Thread nD τ) scM5_1 fullShare (scrAt5 V c n hn).2) ∗ rest5 c) ∗ (∃ r, prngReg c r)) := rfl
theorem Phi5_pos (c : Dev nD) (n : ℕ) (h : n ≤ cfg5.N) (hz : n ≠ 0) :
    Phi5 V c n h = iprop(iprop(iprop(owns (c : Thread nD τ) scM5_0 fullShare (scrAt5 V c (n - 1) (by omega)).1 ∗ owns (c : Thread nD τ) scM5_1 fullShare (scrAt5 V c (n - 1) (by omega)).2) ∗ rest5 c) ∗ (∃ r, prngReg c r)) := by
  obtain _ | n := n
  exacts [absurd rfl hz, rfl]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => zAt5 V c t
    | ⟨7, _⟩ => (scrAt5 V c t.val t.isLt).1
    | ⟨8, _⟩ => (scrAt5 V c t.val t.isLt).2
  Φ t := Phi5 V c t.val (Nat.le_of_lt_succ t.isLt)
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = zAt5 V c t := rfl
theorem after5_7 (c : Dev nD) (t : Fin cfg5.N) : (dat5 V c).after 7 t = (scrAt5 V c t.val t.isLt).1 := rfl
theorem after5_8 (c : Dev nD) (t : Fin cfg5.N) : (dat5 V c).after 8 t = (scrAt5 V c t.val t.isLt).2 := rfl

theorem before5 (c : Dev nD) (t : Fin cfg5.N) :
    ((∀ d, (dat5 V c).before 0 t d = iblk5 V c 0 t) ∧ (dat5 V c).after 0 t = iblk5 V c 0 t)
    ∧ ((∀ d, (dat5 V c).before 1 t d = iblk5 V c 1 t) ∧ (dat5 V c).after 1 t = iblk5 V c 1 t)
    ∧ ((∀ d, (dat5 V c).before 2 t d = iblk5 V c 2 t) ∧ (dat5 V c).after 2 t = iblk5 V c 2 t)
    ∧ ((∀ d, (dat5 V c).before 3 t d = iblk5 V c 3 t) ∧ (dat5 V c).after 3 t = iblk5 V c 3 t)
    ∧ ((∀ d, (dat5 V c).before 4 t d = iblk5 V c 4 t) ∧ (dat5 V c).after 4 t = iblk5 V c 4 t)
    ∧ ((∀ d, (dat5 V c).before 5 t d = iblk5 V c 5 t) ∧ (dat5 V c).after 5 t = iblk5 V c 5 t) := by
  refine ⟨?_, ?_, ?_, ?_, ?_, ?_⟩ <;>
    exact ⟨(dat5 V c).before_in_eq_fetched _ rfl (fun _ => rfl) (fun _ _ _ => rfl) (fun _ => rfl) t, rfl⟩

theorem liveAt5_leaves (c : Dev nD) (t : Fin cfg5.N) (w : Fin cfg5.W) (h : w.val < 7 ∨ cond5_1 (grid5.coords t)) :
    (dat5 V c).leavesExact w t = owns (c : Thread nD τ) ((cfg5.win w).stage (cfg5.slots t w)) fullShare ((dat5 V c).after w t) := by
  unfold Dat.leavesExact; rw [liveAt5 t w h]

def bodyPre5 (c : Dev nD) (t : Fin cfg5.N) (w : Fin cfg5.W) : sProp 𝕄 :=
  iprop(∃ d, owns (c : Thread nD τ) ((cfg5.win w).stage (cfg5.slots t w)) fullShare ((dat5 V c).before w t d))

set_option maxHeartbeats 4800000 in
/-- The body at any point: the invariant lends it the carried pair and takes it back one step on; the point's position picks the case. -/
theorem sound_body5 (c : Dev nD) (t : Fin cfg5.N) :
    iprop((dat5 V c).Φ t.castSucc ∗ (dat5 V c).owesAt () t.castSucc ∗ bodyPre5 V c t 0 ∗ bodyPre5 V c t 1 ∗ bodyPre5 V c t 2 ∗ bodyPre5 V c t 3 ∗ bodyPre5 V c t 4 ∗ bodyPre5 V c t 5 ∗ bodyPre5 V c t 6 ∗ bodyPre5 V c t 7 ∗ bodyPre5 V c t 8)
      ⊢ wp frame (wpE (defs₀ (F := F)) Variants.none c none) Set.univ (bodyAt5 t) fun _ =>
          iprop((dat5 V c).Φ t.succ ∗ (dat5 V c).owesAt () t.succ ∗ (dat5 V c).leavesExact 0 t ∗ (dat5 V c).leavesExact 1 t ∗ (dat5 V c).leavesExact 2 t ∗ (dat5 V c).leavesExact 3 t ∗ (dat5 V c).leavesExact 4 t ∗ (dat5 V c).leavesExact 5 t ∗ (dat5 V c).leavesExact 6 t ∗ (dat5 V c).leavesExact 7 t ∗ (dat5 V c).leavesExact 8 t) := by
  have eZ : @zOf5 F _ = @convZ F _ := rfl
  have eS : @sumOf5 F _ = @convSum F _ := rfl
  have eQ : @sqOf5 F _ = @convSq F _ := rfl
  unfold bodyPre5 bodyAt5
  rw [show @cc5__conv_kernel F _ = @convKernel F _ from rfl]
  rw [liveAt5_leaves V c t 0 (.inl (by decide)), liveAt5_leaves V c t 1 (.inl (by decide)), liveAt5_leaves V c t 2 (.inl (by decide)),
    liveAt5_leaves V c t 3 (.inl (by decide)), liveAt5_leaves V c t 4 (.inl (by decide)), liveAt5_leaves V c t 5 (.inl (by decide)),
    liveAt5_leaves V c t 6 (.inl (by decide)), after5_6]
  simp only [before5 V c t]
  rw [show (dat5 V c).owesAt () t.succ = (dat5 V c).owesAt () t.castSucc from rfl,
    show (dat5 V c).Φ t.succ = Phi5 V c (t.val + 1) t.isLt from rfl, Phi5_succ,
    show (dat5 V c).Φ t.castSucc = Phi5 V c t.val (Nat.le_of_lt t.isLt) from rfl]
  by_cases hc1 : cond5_1 (grid5.coords t)
  · have h0 : t.val ≠ 0 := by have := (hcond5_1 t).mp hc1; omega
    have hc0 : ¬cond5_0 (grid5.coords t) := fun h => h0 ((hcond5_0 t).mp h)
    rw [liveAt5_leaves V c t 7 (.inr hc1), liveAt5_leaves V c t 8 (.inr hc1), after5_7, after5_8, Phi5_pos V c _ _ h0, scrAt5_pos V c t h0]
    unfold stepAt5 zAt5; dsimp only; rw [eZ, eS, eQ]
    iintro ⟨⟨⟨⟨HS, HQ⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (conv_last c Set.univ (grid5.coords t) _ _ _ _ _ _ _ _ _ _ _ _ _ _ _ _ _ _ _ _ _ _ (hblk5 V c t) (ablk5 V c t) (w1blk5 V c t) (b1blk5 V c t) (w2blk5 V c t) (b2blk5 V c t) _ hc0 hc1 _ _)
    unfold convIns
    iframe H0 H1 H2 H3 H4 H5
    isplitl [H6]; · iexists _; iexact H6
    isplitl [H7]; · iexists _; iexact H7
    isplitl [H8]; · iexists _; iexact H8
    isplitl [HS]; · iexact HS
    isplitl [HQ]; · iexact HQ
    iintro ⟨⟨H0, H1, H2, H3, H4, H5⟩, H6, H7, H8, HS, HQ⟩
    iframe
  · rw [Dat.leavesExact_idle (dat5 V c) 7 t (idleAt5 t 7 (by decide) hc1).1 (idleAt5 t 7 (by decide) hc1).2,
      Dat.leavesExact_idle (dat5 V c) 8 t (idleAt5 t 8 (by decide) hc1).1 (idleAt5 t 8 (by decide) hc1).2]
    by_cases h0 : t.val = 0
    case' pos =>
      rw [Phi5_zero V c _ _ h0, PhiA5_eq, scrAt5_first V c t h0]
      unfold stepAt5 zAt5; dsimp only; rw [eZ, eS, eQ]
      iintro ⟨⟨⟨⟨⟨%ds, HS⟩, ⟨%dq, HQ⟩⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (conv_step c Set.univ (grid5.coords t) _ _ _ _ _ _ _ _ _ _ _ _ _ _ _ _ _ _ _ _ _ _ (hblk5 V c t) (ablk5 V c t) (w1blk5 V c t) (b1blk5 V c t) (w2blk5 V c t) (b2blk5 V c t) _ hc1 _ _ k5_pay2 k5_pay3 (.inl ⟨(hcond5_0 t).mpr h0, rfl, rfl⟩))
    case' neg =>
      rw [Phi5_pos V c _ _ h0, scrAt5_pos V c t h0]
      unfold stepAt5 zAt5; dsimp only; rw [eZ, eS, eQ]
      iintro ⟨⟨⟨⟨HS, HQ⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (conv_step c Set.univ (grid5.coords t) _ _ _ _ _ _ _ _ _ _ _ _ _ _ _ _ _ _ _ _ _ _ (hblk5 V c t) (ablk5 V c t) (w1blk5 V c t) (b1blk5 V c t) (w2blk5 V c t) (b2blk5 V c t) _ hc1 _ _ _ _ (.inr ⟨fun h => h0 ((hcond5_0 t).mp h), rfl, rfl⟩))
    any_goals
      unfold convIns
      iframe H0 H1 H2 H3 H4 H5
      isplitl [H6]; · iexists _; iexact H6
      isplitl [HS]; · iexact HS
      isplitl [HQ]; · iexact HQ
      iintro ⟨⟨H0, H1, H2, H3, H4, H5⟩, H6, HS, HQ⟩
      iframe

theorem body_obligation5 (c : Dev nD) : BodyObligation (dat5 (F := F) V c) (defs₀ (F := F)) Variants.none () Set.univ := fun t => by
  rw [bigSep_W5, bigSep_W5]
  exact sound_body5 V c t

theorem Phi5_in (c : Dev nD) : (dat5 V c).Φ 0 = Pipeline.ΦA spec5 c := rfl

/-- Forgetting the carried pair's values gives the resting invariant back. -/
theorem Phi5_out (c : Dev nD) : (dat5 V c).Φ (Fin.last cfg5.N) ⊢ Pipeline.ΦA spec5 c := by
  rw [show (dat5 V c).Φ (Fin.last cfg5.N) = Phi5 V c (Fin.last cfg5.N).val (Nat.le_of_lt_succ (Fin.last cfg5.N).isLt) from rfl,
    Phi5_pos V c _ _ (by rw [Fin.val_last]; have : cfg5.N = 10 := N_5; omega), PhiA5_eq]
  iintro ⟨⟨⟨HS, HQ⟩, Hr⟩, Hg⟩
  iframe Hr Hg
  isplitl [HS] <;> iexists _ <;> iassumption

end Region2

end Cert.KernelIdeal.Hand

end
-- ==== Proof.KI.R6.lean ====
import proofs.«417359_j61564061221146_2_alg».proof.Proof.Gen.KernelIdeal.Launch
import proofs.«417359_j61564061221146_2_alg».proof.Proof.Gen.KernelIdeal.Skeleton
import proofs.«417359_j61564061221146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array contents `V` at the region's entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S10000x32 := Rect.unit (s := S10000x32) ![0, 0] S10000x32.size inb_S10000x32_S10000x32_0_0
abbrev r6_1 : Rect S32 := Rect.unit (s := S32) ![0] S32.size inb_S32_S32_0

/-- The output block after the body: its one store, over the whole block, of the payload of the three input blocks. -/
def out6_3 (x0 : Vec F S10000x32 .f32) (x1 : Vec F S32 .f32) (x2 : Vec F S32 .f32) : Vec F S10000x32 .f32 :=
  View.canon [⟨r6_0, k6_pay1 (View.ld x1 r6_1) (View.ld x2 r6_1) (View.ld x0 r6_0)⟩]

/-- The region's proof data: each input window is left at its block, the output window at `out6_3` of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = out6_3 (iblk6 V c 0 t) (iblk6 V c 1 t) (iblk6 V c 2 t) := by dsimp only [dat6]

theorem before6 (c : Dev nD) (t : Fin cfg6.N) : ∀ (w : Fin cfg6.W) (_ : w ≠ 3) (d), (dat6 V c).before w t d = (dat6 V c).fetched w t d
  | ⟨0, _⟩, _, d | ⟨1, _⟩, _, d | ⟨2, _⟩, _, d =>
    (dat6 V c).before_in_eq_fetched _ rfl (fun _ => rfl) (fun _ _ _ => rfl) (fun _ => rfl) t d
  | ⟨3, _⟩, h, _ => absurd rfl h

/-- The body at a point leaves the inputs as found and the output at `out6_3` of them: its one store covers the block. -/
theorem body_obligation6 (c : Dev nD) : BodyObligation (dat6 (F := F) V c) (defs₀ (F := F)) Variants.none () Set.univ := fun t => by
  rw [bigSep_W6, bigSep_W6, show (dat6 V c).Φ t.succ = (dat6 V c).Φ t.castSucc from rfl,
    show (dat6 V c).owesAt () t.succ = (dat6 V c).owesAt () t.castSucc from rfl, after6_3]
  simp +decide only [before6 V c t]
  sl_whnfR [defs₀, Defs.onTc]
  simp only [cc6__norm_kernel_eq_skeleton]; unfold cc6__norm_kernel_skel owns
  iintro ⟨HΦ, Ho, ⟨%d0, %f0, %hf0, H0⟩, ⟨%d1, %f1, %hf1, H1⟩, ⟨%d2, %f2, %hf2, H2⟩, %d3, %f3, -, H3⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [show iblk6 V c 0 t = _ from hf0.symm, show iblk6 V c 1 t = _ from hf1.symm, show iblk6 V c 2 t = _ from hf2.symm]
  exact View.read_writes_eq_canon _ _ _ (View.cover_of_tiled _ S10000x32.size (by rfl))

end Cert.KernelIdeal.Hand

end
-- ==== Proof.KI.Fold.lean ====
import proofs.«417359_j61564061221146_2_alg».proof.Proof.KI.R0
import proofs.«417359_j61564061221146_2_alg».proof.Proof.KI.R1
import proofs.«417359_j61564061221146_2_alg».proof.Proof.KI.R2
import proofs.«417359_j61564061221146_2_alg».proof.Proof.KI.R3
import proofs.«417359_j61564061221146_2_alg».proof.Proof.KI.R4
import proofs.«417359_j61564061221146_2_alg».proof.Proof.KI.R5
import proofs.«417359_j61564061221146_2_alg».proof.Proof.KI.R6
import proofs.«417359_j61564061221146_2_alg».proof.Proof.Gen.KernelIdeal.Regions

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

abbrev Rd (X : Dev nD → Valuation τ sig (Elt F)) : (c : Dev nD) → (b : Ref sig .tc) → Buf (Elt F) ((c : Thread nD τ).loc b) :=
  fun c b => X c b

abbrev X1 (c : Dev nD) : Valuation τ sig (Elt F) := V1 m c

def o2 (c : Dev nD) := (dat0 (Rd (X1 m)) c).arrAt 3 cfg0.N
def X2 (c : Dev nD) : Valuation τ sig (Elt F) :=
  Function.update (X1 m c) main_v4 (o2 m c)
abbrev X3 (c : Dev nD) : Valuation τ sig (Elt F) := StableHlo.after hostOps1 (X2 m c)

def o4 (c : Dev nD) := (dat1 (Rd (X3 m)) c).arrAt 4 cfg1.N
def X4 (c : Dev nD) : Valuation τ sig (Elt F) :=
  Function.update (X3 m c) main_v6 (o4 m c)
abbrev X5 (c : Dev nD) : Valuation τ sig (Elt F) := StableHlo.after hostOps2 (X4 m c)

def o6a (c : Dev nD) := (dat2 (Rd (X5 m)) c).arrAt 6 cfg2.N
def o6b (c : Dev nD) := (dat2 (Rd (X5 m)) c).arrAt 7 cfg2.N
def o6c (c : Dev nD) := (dat2 (Rd (X5 m)) c).arrAt 8 cfg2.N
def X6 (c : Dev nD) : Valuation τ sig (Elt F) :=
  Function.update (Function.update (Function.update (X5 m c) main_v18_0 (o6a m c)) main_v18_1 (o6b m c)) main_v18_2 (o6c m c)
abbrev X7 (c : Dev nD) : Valuation τ sig (Elt F) := StableHlo.after hostOps3 (X6 m c)

def o8 (c : Dev nD) := (dat3 (Rd (X7 m)) c).arrAt 3 cfg3.N
def X8 (c : Dev nD) : Valuation τ sig (Elt F) :=
  Function.update (X7 m c) main_v35 (o8 m c)
abbrev X9 (c : Dev nD) : Valuation τ sig (Elt F) := StableHlo.after hostOps4 (X8 m c)

def o10 (c : Dev nD) := (dat4 (Rd (X9 m)) c).arrAt 4 cfg4.N
def X10 (c : Dev nD) : Valuation τ sig (Elt F) :=
  Function.update (X9 m c) main_v37 (o10 m c)
abbrev X11 (c : Dev nD) : Valuation τ sig (Elt F) := StableHlo.after hostOps5 (X10 m c)

def o12a (c : Dev nD) := (dat5 (Rd (X11 m)) c).arrAt 6 cfg5.N
def o12b (c : Dev nD) := (dat5 (Rd (X11 m)) c).arrAt 7 cfg5.N
def o12c (c : Dev nD) := (dat5 (Rd (X11 m)) c).arrAt 8 cfg5.N
def X12 (c : Dev nD) : Valuation τ sig (Elt F) :=
  Function.update (Function.update (Function.update (X11 m c) main_v49_0 (o12a m c)) main_v49_1 (o12b m c)) main_v49_2 (o12c m c)
abbrev X13 (c : Dev nD) : Valuation τ sig (Elt F) := StableHlo.after hostOps6 (X12 m c)

def o14 (c : Dev nD) := (dat6 (Rd (X13 m)) c).arrAt 3 cfg6.N
def X14 (c : Dev nD) : Valuation τ sig (Elt F) :=
  Function.update (X13 m c) main_v66 (o14 m c)
abbrev X15 (c : Dev nD) : Valuation τ sig (Elt F) := StableHlo.after hostOps7 (X14 m c)
abbrev X16 (c : Dev nD) : Valuation τ sig (Elt F) := StableHlo.after hostOps7_1 (X15 m c)
abbrev X17 (c : Dev nD) : Valuation τ sig (Elt F) := StableHlo.after hostOps7_2 (X16 m c)

/-- What the region that is item `J - 1` of the run leaves; no other `J` is asked for. -/
def outs : Outs (F := F) := fun J r c =>
  match J with
  | 2 => X2 m c r
  | 4 => X4 m c r
  | 6 => X6 m c r
  | 8 => X8 m c r
  | 10 => X10 m c r
  | 12 => X12 m c r
  | 14 => X14 m c r
  | _ => X1 m c r

theorem X2_at (c : Dev nD) : X2 m c main_v4 = o2 m c := Function.update_self ..
theorem X2_of_ne (c : Dev nD) (b : Ref sig .tc) (h0 : b ≠ main_v4) : X2 m c b = X1 m c b := Function.update_of_ne (StableHlo.devRef_ne_of_ne h0) ..
theorem X4_at (c : Dev nD) : X4 m c main_v6 = o4 m c := Function.update_self ..
theorem X4_of_ne (c : Dev nD) (b : Ref sig .tc) (h0 : b ≠ main_v6) : X4 m c b = X3 m c b := Function.update_of_ne (StableHlo.devRef_ne_of_ne h0) ..
theorem X6_at_0 (c : Dev nD) : X6 m c main_v18_0 = o6a m c := by
  unfold X6; rw [Function.update_of_ne (StableHlo.devRef_ne_of_ne (by decide : main_v18_0 ≠ main_v18_2)), Function.update_of_ne (StableHlo.devRef_ne_of_ne (by decide : main_v18_0 ≠ main_v18_1)), Function.update_self]
theorem X6_at_1 (c : Dev nD) : X6 m c main_v18_1 = o6b m c := by
  unfold X6; rw [Function.update_of_ne (StableHlo.devRef_ne_of_ne (by decide : main_v18_1 ≠ main_v18_2)), Function.update_self]
theorem X6_at_2 (c : Dev nD) : X6 m c main_v18_2 = o6c m c := Function.update_self ..
theorem X6_of_ne (c : Dev nD) (b : Ref sig .tc) (h0 : b ≠ main_v18_0) (h1 : b ≠ main_v18_1) (h2 : b ≠ main_v18_2) : X6 m c b = X5 m c b := by
  unfold X6; rw [Function.update_of_ne (StableHlo.devRef_ne_of_ne h2), Function.update_of_ne (StableHlo.devRef_ne_of_ne h1), Function.update_of_ne (StableHlo.devRef_ne_of_ne h0)]
theorem X8_at (c : Dev nD) : X8 m c main_v35 = o8 m c := Function.update_self ..
theorem X8_of_ne (c : Dev nD) (b : Ref sig .tc) (h0 : b ≠ main_v35) : X8 m c b = X7 m c b := Function.update_of_ne (StableHlo.devRef_ne_of_ne h0) ..
theorem X10_at (c : Dev nD) : X10 m c main_v37 = o10 m c := Function.update_self ..
theorem X10_of_ne (c : Dev nD) (b : Ref sig .tc) (h0 : b ≠ main_v37) : X10 m c b = X9 m c b := Function.update_of_ne (StableHlo.devRef_ne_of_ne h0) ..
theorem X12_at_0 (c : Dev nD) : X12 m c main_v49_0 = o12a m c := by
  unfold X12; rw [Function.update_of_ne (StableHlo.devRef_ne_of_ne (by decide : main_v49_0 ≠ main_v49_2)), Function.update_of_ne (StableHlo.devRef_ne_of_ne (by decide : main_v49_0 ≠ main_v49_1)), Function.update_self]
theorem X12_at_1 (c : Dev nD) : X12 m c main_v49_1 = o12b m c := by
  unfold X12; rw [Function.update_of_ne (StableHlo.devRef_ne_of_ne (by decide : main_v49_1 ≠ main_v49_2)), Function.update_self]
theorem X12_at_2 (c : Dev nD) : X12 m c main_v49_2 = o12c m c := Function.update_self ..
theorem X12_of_ne (c : Dev nD) (b : Ref sig .tc) (h0 : b ≠ main_v49_0) (h1 : b ≠ main_v49_1) (h2 : b ≠ main_v49_2) : X12 m c b = X11 m c b := by
  unfold X12; rw [Function.update_of_ne (StableHlo.devRef_ne_of_ne h2), Function.update_of_ne (StableHlo.devRef_ne_of_ne h1), Function.update_of_ne (StableHlo.devRef_ne_of_ne h0)]
theorem X14_at (c : Dev nD) : X14 m c main_v66 = o14 m c := Function.update_self ..
theorem X14_of_ne (c : Dev nD) (b : Ref sig .tc) (h0 : b ≠ main_v66) : X14 m c b = X13 m c b := Function.update_of_ne (StableHlo.devRef_ne_of_ne h0) ..

theorem V2_eq (c : Dev nD) : V2 m (outs m) c = X2 m c := by
  show Function.update (V1 m c) main_v4 (X2 m c main_v4) = _
  rw [X2_at]
  rfl
theorem V3_eq (c : Dev nD) : V3 m (outs m) c = X3 m c := congrArg (StableHlo.after hostOps1) (V2_eq m c)
theorem V4_eq (c : Dev nD) : V4 m (outs m) c = X4 m c := by
  show Function.update (V3 m (outs m) c) main_v6 (X4 m c main_v6) = _
  rw [V3_eq, X4_at]
  rfl
theorem V5_eq (c : Dev nD) : V5 m (outs m) c = X5 m c := congrArg (StableHlo.after hostOps2) (V4_eq m c)
theorem V6_eq (c : Dev nD) : V6 m (outs m) c = X6 m c := by
  show Function.update (Function.update (Function.update (V5 m (outs m) c) main_v18_0 (X6 m c main_v18_0)) main_v18_1 (X6 m c main_v18_1)) main_v18_2 (X6 m c main_v18_2) = _
  rw [V5_eq, X6_at_0, X6_at_1, X6_at_2]
  rfl
theorem V7_eq (c : Dev nD) : V7 m (outs m) c = X7 m c := congrArg (StableHlo.after hostOps3) (V6_eq m c)
theorem V8_eq (c : Dev nD) : V8 m (outs m) c = X8 m c := by
  show Function.update (V7 m (outs m) c) main_v35 (X8 m c main_v35) = _
  rw [V7_eq, X8_at]
  rfl
theorem V9_eq (c : Dev nD) : V9 m (outs m) c = X9 m c := congrArg (StableHlo.after hostOps4) (V8_eq m c)
theorem V10_eq (c : Dev nD) : V10 m (outs m) c = X10 m c := by
  show Function.update (V9 m (outs m) c) main_v37 (X10 m c main_v37) = _
  rw [V9_eq, X10_at]
  rfl
theorem V11_eq (c : Dev nD) : V11 m (outs m) c = X11 m c := congrArg (StableHlo.after hostOps5) (V10_eq m c)
theorem V12_eq (c : Dev nD) : V12 m (outs m) c = X12 m c := by
  show Function.update (Function.update (Function.update (V11 m (outs m) c) main_v49_0 (X12 m c main_v49_0)) main_v49_1 (X12 m c main_v49_1)) main_v49_2 (X12 m c main_v49_2) = _
  rw [V11_eq, X12_at_0, X12_at_1, X12_at_2]
  rfl
theorem V13_eq (c : Dev nD) : V13 m (outs m) c = X13 m c := congrArg (StableHlo.after hostOps6) (V12_eq m c)
theorem V14_eq (c : Dev nD) : V14 m (outs m) c = X14 m c := by
  show Function.update (V13 m (outs m) c) main_v66 (X14 m c main_v66) = _
  rw [V13_eq, X14_at]
  rfl
theorem V17_eq (c : Dev nD) : V17 m (outs m) c = X17 m c :=
  congrArg (fun X => StableHlo.after hostOps7_2 (StableHlo.after hostOps7_1 (StableHlo.after hostOps7 X))) (V14_eq m c)

end Cert.KernelIdeal.Hand

end
-- ==== Proof.KI.Pdats.lean ====
import proofs.«417359_j61564061221146_2_alg».proof.Proof.KI.Fold
import Idealize.ShloMosaic.Lib.Pipeline.Kit

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The proof data of region `p`, at the contents `X(2p+1)`. -/
def pdats : (p : Fin 7) → (c : Dev nD) → Dat τ (Elt F) Unit ℕ (UR sig nD τ) ℕ (cfgs p) c
  | ⟨0, _⟩ => fun c => dat0 (Rd (X1 m)) c
  | ⟨1, _⟩ => fun c => dat1 (Rd (X3 m)) c
  | ⟨2, _⟩ => fun c => dat2 (Rd (X5 m)) c
  | ⟨3, _⟩ => fun c => dat3 (Rd (X7 m)) c
  | ⟨4, _⟩ => fun c => dat4 (Rd (X9 m)) c
  | ⟨5, _⟩ => fun c => dat5 (Rd (X11 m)) c
  | ⟨6, _⟩ => fun c => dat6 (Rd (X13 m)) c

end Cert.KernelIdeal.Hand

end
-- ==== Proof.KI.Thread.lean ====
import proofs.«417359_j61564061221146_2_alg».proof.Proof.Gen.KernelIdeal.Regions
import Idealize.ShloMosaic.Lib.Pipeline.Kit

noncomputable section

namespace Cert.KernelIdeal.Hand

open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

abbrev L₀ : GSem nD τ sig → Finset Unit := fun _ => ∅
abbrev lv₀ : GSem nD τ sig → Unit → ℕ := fun _ _ => 0

/-- The part of a core's state that is the same between any two items of the run. -/
abbrev R (c : Dev nD) : sProp 𝕄 :=
  iprop((∃ r, prngReg c r) ∗ ∃ W, owes (c : Thread nD τ) (0 : CellTallies nD τ sig Unit) W)

abbrev E₀ : Fin 8 → Dev nD → sProp 𝕄 := fun _ c => R (F := F) c

abbrev u₀ : UR sig nD τ := initOf (Pipeline.cells cfgs cellOf_inj) (Pipeline.launchToks cfgs cellOf_inj)

theorem hu₀ : (ownU (u₀) : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  rw [BI.bigSep_emp_const]
  iintro Hu; imodintro
  isplitl [Hu]; · iapply (show (ownU u₀ : sProp 𝕄) ⊢ BI.own (emb₁ u₀) from .rfl); iexact Hu
  iempintro

theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L₀ lv₀)
      ⊢ (|={Set.univ}=> bigSep Finset.univ (E₀ (F := F) 0) : sProp 𝕄) := by
  refine Pipeline.initEach L₀ lv₀ fun c => ?_
  iintro ⟨⟨-, HO, -, Hp, -⟩, -⟩
  imodintro
  isplitl [Hp]; · iexists _; iexact Hp
  iexists ∅; iexact HO

theorem hE7 (c : Dev nD) : E₀ (F := F) 7 c ⊢ (iprop(∃ W, owes (c : Thread nD τ) (0 : CellTallies nD τ sig Unit) W) : sProp 𝕄) := by
  iintro ⟨-, HO⟩; iexact HO

end Cert.KernelIdeal.Hand

end
-- ==== Proof.KI.Seg.lean ====
import proofs.«417359_j61564061221146_2_alg».proof.Proof.KI.Pdats
import proofs.«417359_j61564061221146_2_alg».proof.Proof.KI.Thread
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (BodyObligation)
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ)

/-- The record of region `p`, entered at the contents `Xi` and left at `Xo`. -/
def regOf (p : Fin 7) (lf : Pipeline.LaunchFacts (nD := nD) (τ := τ) cfgs p) (Xi Xo : Dev nD → Valuation τ sig (Elt F))
    (hbody : ∀ c, BodyObligation (pdats m p c) (defs₀ (F := F)) Variants.none () Set.univ)
    (hat : ∀ c w, ((cfgs p).win w).isOut = true → Rd Xo c (Pipeline.arrRef (cfgs p).spec w) = (pdats m p c).arrAt w (cfgs p).N)
    (hne : ∀ c b, (∀ w, ((cfgs p).win w).isOut = true → b ≠ Pipeline.arrRef (cfgs p).spec w) → Rd Xo c b = Rd Xi c b)
    (hq : ∀ c w, (pdats m p c).q w = fullShare := by intros; rfl) (howed : ∀ c t, (pdats m p c).owed t = 0 := by intros; rfl)
    (hrec : ∀ c, (pdats m p c).recorded 0 = Set.univ := by intros; rfl)
    (hA : ∀ c w, (pdats m p c).A w = Rd Xi c (Pipeline.arrRef (cfgs p).spec w) := by intros; rfl)
    (hΦi : ∀ c, (pdats m p c).Φ 0 = Pipeline.ΦA (cfgs p).spec c := by intros; rfl)
    (hΦo : ∀ c, (pdats m p c).Φ (Fin.last (cfgs p).N) ⊢ (Pipeline.ΦA (cfgs p).spec c : sProp 𝕄) := by intros; exact .rfl) :
    Pipeline.RegionSeg (pcfgs (F := F)) adm (pdats m) () defs₀ Variants.none L₀ lv₀ p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L₀ lv₀ p howed
  pre c := iprop(StableHlo.held (c : Thread nD τ) (Pipeline.ucRefs τ sig) (Xi c) ∗ R c)
  post c := iprop(StableHlo.held (c : Thread nD τ) (Pipeline.ucRefs τ sig) (Xo c) ∗ R c)
  X c := iprop(∃ r, prngReg c r)
  Y c := iprop(∃ r, prngReg c r)
  Z c := Pipeline.unscopedRest (Ix := Unit) (Name := ℕ) (U := UR sig nD τ) (Lvl := ℕ) (cfgs p).spec c (Rd Xi c)
  hentry c := by
    rw [Pipeline.ownSems0_none]
    have hsplit := Pipeline.arrays_of_unscopedBufs (p := p) (pcfgs (F := F)) adm (pdats m) lf.win lf.arr_whole c
      ((pdats m p c).share_full (hq c)) (Rd Xi c) (hA c)
    rw [Pipeline.unscopedBufs_held] at hsplit
    iintro ⟨⟨Hub, Hp, %W, HO⟩, -, -⟩
    ihave H := hsplit $$ Hub
    icases H with ⟨Ha, Hrest⟩
    imodintro
    unfold Pipeline.prefHeld Pipeline.Dat.owesAt Pipeline.owesWithin
    rw [show (Finset.univ : Finset (Fin 0)) = ∅ from rfl, BI.bigSep_empty, howed c]
    iframe Ha Hp Hrest
    isplitr; · iempintro
    iexists W; isplitr; · ipureintro; exact fun _ _ => Or.inl (by rw [hrec c]; trivial)
    iexact HO
  hin c := by
    rw [hΦi c]; unfold Pipeline.ΦA
    iintro ⟨Hp, -, Hr⟩; iframe
  hout c := by
    rw [Pipeline.ownSems0_none]
    refine (hΦo c).trans ?_
    unfold Pipeline.ΦA
    iintro ⟨Hr, Hp⟩; iframe; exact .rfl
  hexit c := by
    have hF : ∀ w, (pdats m p c).arrAt w (cfgs p).N = Rd Xo c (Pipeline.arrRef (cfgs p).spec w) := fun w => by
      cases h : ((cfgs p).win w).isOut
      · exact ((pdats m p c).arrAt_in w h _).trans ((hA c w).trans (hne c (Pipeline.arrRef (cfgs p).spec w) fun w' h' e => by
          rw [lf.win.arr_inj e, h'] at h; cases h).symm)
      · exact (hat c w h).symm
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (Rd Xi c) (Rd Xo c) ((pdats m p c).arrAt · (cfgs p).N) hF
      fun b hb => hne c b fun w _ e => hb (Finset.mem_image.mpr ⟨w, Finset.mem_univ _, e.symm⟩)
    rw [Pipeline.unscopedBufs_held] at hjoin
    unfold Pipeline.Dat.owesAt Pipeline.owesWithin; rw [howed c]
    iintro ⟨Ha, ⟨%W, -, HO⟩, HY, Hrest⟩
    imodintro
    isplitl [Ha Hrest]; · iapply hjoin; iframe
    isplitl [HY]; · iexact HY
    iexists W; iexact HO

def reg0 := regOf m 0 launch0 (X1 m) (X2 m) (body_obligation0 _)
  (fun c w h => by obtain rfl := (by decide : ∀ w : Fin cfg0.W, (cfg0.win w).isOut = true → w = 3) w h; exact X2_at m c)
  (fun c b h => X2_of_ne m c b (h (3 : Fin cfg0.W) rfl))
def reg1 := regOf m 1 launch1 (X3 m) (X4 m) (body_obligation1 _)
  (fun c w h => by obtain rfl := (by decide : ∀ w : Fin cfg1.W, (cfg1.win w).isOut = true → w = 4) w h; exact X4_at m c)
  (fun c b h => X4_of_ne m c b (h (4 : Fin cfg1.W) rfl))
def reg2 := regOf m 2 launch2 (X5 m) (X6 m) (body_obligation2 _)
  (fun c w h => by rcases (by decide : ∀ w : Fin cfg2.W, (cfg2.win w).isOut = true → w = 6 ∨ w = 7 ∨ w = 8) w h with rfl | rfl | rfl; exacts [X6_at_0 m c, X6_at_1 m c, X6_at_2 m c])
  (fun c b h => X6_of_ne m c b (h (6 : Fin cfg2.W) rfl) (h (7 : Fin cfg2.W) rfl) (h (8 : Fin cfg2.W) rfl)) (hΦo := Phi2_out _)
def reg3 := regOf m 3 launch3 (X7 m) (X8 m) (body_obligation3 _)
  (fun c w h => by obtain rfl := (by decide : ∀ w : Fin cfg3.W, (cfg3.win w).isOut = true → w = 3) w h; exact X8_at m c)
  (fun c b h => X8_of_ne m c b (h (3 : Fin cfg3.W) rfl))
def reg4 := regOf m 4 launch4 (X9 m) (X10 m) (body_obligation4 _)
  (fun c w h => by obtain rfl := (by decide : ∀ w : Fin cfg4.W, (cfg4.win w).isOut = true → w = 4) w h; exact X10_at m c)
  (fun c b h => X10_of_ne m c b (h (4 : Fin cfg4.W) rfl))
def reg5 := regOf m 5 launch5 (X11 m) (X12 m) (body_obligation5 _)
  (fun c w h => by rcases (by decide : ∀ w : Fin cfg5.W, (cfg5.win w).isOut = true → w = 6 ∨ w = 7 ∨ w = 8) w h with rfl | rfl | rfl; exacts [X12_at_0 m c, X12_at_1 m c, X12_at_2 m c])
  (fun c b h => X12_of_ne m c b (h (6 : Fin cfg5.W) rfl) (h (7 : Fin cfg5.W) rfl) (h (8 : Fin cfg5.W) rfl)) (hΦo := Phi5_out _)
def reg6 := regOf m 6 launch6 (X13 m) (X14 m) (body_obligation6 _)
  (fun c w h => by obtain rfl := (by decide : ∀ w : Fin cfg6.W, (cfg6.win w).isOut = true → w = 3) w h; exact X14_at m c)
  (fun c b h => X14_of_ne m c b (h (3 : Fin cfg6.W) rfl))

end Cert.KernelIdeal.Hand

end
-- ==== Proof.KI.Frame.lean ====
import proofs.«417359_j61564061221146_2_alg».proof.Proof.KI.Seg

noncomputable section

namespace Cert.KernelIdeal.Hand

open Idealize.ShloMosaic Idealize.ShloMosaic.TcCoe
open Idealize.SL Idealize.SL.BI Idealize.SL.Sem
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

def frameOf :=
  frame_cond (F := F) m (Ix := Unit) (U := UR sig nD τ) (Lvl := ℕ) emb₁ () Variants.none L₀ lv₀ (fun _ _ => rfl) ρ (outs m) (pdats m)
    0 (fun _ => (BI.emp : sProp 𝕄)) u₀ hu₀ E₀ (hE0 ρ) hE7
    (reg0 m) (fun _ => .rfl) (fun _ => by rw [V2_eq]; exact .rfl)
    (reg1 m) (fun _ => by rw [V3_eq]; exact .rfl) (fun _ => by rw [V4_eq]; exact .rfl)
    (reg2 m) (fun _ => by rw [V5_eq]; exact .rfl) (fun _ => by rw [V6_eq]; exact .rfl)
    (reg3 m) (fun _ => by rw [V7_eq]; exact .rfl) (fun _ => by rw [V8_eq]; exact .rfl)
    (reg4 m) (fun _ => by rw [V9_eq]; exact .rfl) (fun _ => by rw [V10_eq]; exact .rfl)
    (reg5 m) (fun _ => by rw [V11_eq]; exact .rfl) (fun _ => by rw [V12_eq]; exact .rfl)
    (reg6 m) (fun _ => by rw [V13_eq]; exact .rfl) (fun _ => by rw [V14_eq]; exact .rfl)

end Cert.KernelIdeal.Hand

end
-- ==== Proof.KI.Value.lean ====
import proofs.«417359_j61564061221146_2_alg».proof.Proof.KI.Frame
import proofs.«417359_j61564061221146_2_alg».proof.Proof.KI.ValueCond

noncomputable section

namespace Cert.KernelIdeal.Hand

open Idealize.ShloMosaic Idealize.ShloMosaic.TcCoe Idealize.SL Idealize.SL.BI Idealize.SL.Sem
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

def valueOf :=
  value_cond (F := F) m (Ix := Unit) (U := UR sig nD τ) (Lvl := ℕ) emb₁ () Variants.none L₀ lv₀ (fun _ _ => rfl) ρ (outs m) (pdats m)
    0 (fun _ => (BI.emp : sProp 𝕄)) u₀ hu₀ E₀ (hE0 ρ) hE7
    (reg0 m) (fun c => BI.Entails.refl _) (fun c => V2_eq m c ▸ BI.Entails.refl _)
    (reg1 m) (fun c => V3_eq m c ▸ BI.Entails.refl _) (fun c => V4_eq m c ▸ BI.Entails.refl _)
    (reg2 m) (fun c => V5_eq m c ▸ BI.Entails.refl _) (fun c => V6_eq m c ▸ BI.Entails.refl _)
    (reg3 m) (fun c => V7_eq m c ▸ BI.Entails.refl _) (fun c => V8_eq m c ▸ BI.Entails.refl _)
    (reg4 m) (fun c => V9_eq m c ▸ BI.Entails.refl _) (fun c => V10_eq m c ▸ BI.Entails.refl _)
    (reg5 m) (fun c => V11_eq m c ▸ BI.Entails.refl _) (fun c => V12_eq m c ▸ BI.Entails.refl _)
    (reg6 m) (fun c => V13_eq m c ▸ BI.Entails.refl _) (fun c => V14_eq m c ▸ BI.Entails.refl _)

end Cert.KernelIdeal.Hand

end
-- ==== Proof.Net.Spec.lean ====
import proofs.«417359_j61564061221146_2_alg».proof.ReferenceIdeal
import Idealize.ShloMosaic.PureOps.Ideal

noncomputable section

namespace Cert.Net

open Idealize.ShloMosaic
open Cert.ReferenceIdeal Cert.ReferenceIdeal.Facts₀

variable [Cert.ReferenceIdeal.Facts]

abbrev TF (s : Shape) : Type := (⟨s, .f32⟩ : BufTy).Contents (Elt Ideal)
abbrev TI (s : Shape) : Type := (⟨s, .i32⟩ : BufTy).Contents (Elt Ideal)

def srcOf (ei : TI S2x3200000) : TI S3200000 :=
  fun i => shapeCast S3200000 (extractStridedSlice S1x3200000 ![0, 0] ei slices_S2x3200000_S1x3200000_0_0)
    shapeCasts_S1x3200000_S3200000 i

def dstOf (ei : TI S2x3200000) : TI S3200000 :=
  fun i => shapeCast S3200000 (extractStridedSlice S1x3200000 ![1, 0] ei slices_S2x3200000_S1x3200000_1_0)
    shapeCasts_S1x3200000_S3200000 i

def wrapIdx (src : TI S3200000) : TI S3200000x1 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

def takeRows (h : TF S100000x32) (src : TI S3200000) : TF S3200000x32 :=
  Host.gather gather_S100000x32_S3200000x1_S3200000x32_1_0_n_n_0_1_132 h (wrapIdx src)

def nodeProj (x : TF S100000x14) (w : TF S14x32) (b : TF S32) : TF S100000x32 :=
  addf (F := Ideal) (φ := .f32) (Host.dotGeneral (F := Ideal) (φ₁ := .f32) (φ₂ := .f32) dot_S100000x14_S14x32_S100000x32_1_0_0_1_n_n none x w)
    (broadcastInDim S100000x32 ![0, 1] bcast_S1x32_S100000x32_0_1 (broadcastInDim S1x32 ![1] bcast_S32_S1x32_1 b))

def edgeProj (ea : TF S3200000x3) (ew : TF S3x32) (eb : TF S32) : TF S3200000x32 :=
  addf (F := Ideal) (φ := .f32) (Host.dotGeneral (F := Ideal) (φ₁ := .f32) (φ₂ := .f32) dot_S3200000x3_S3x32_S3200000x32_1_0_0_1_n_n none ea ew)
    (broadcastInDim S3200000x32 ![0, 1] bcast_S1x32_S3200000x32_0_1 (broadcastInDim S1x32 ![1] bcast_S32_S1x32_1 eb))

def msgOf (hsrc : TF S3200000x32) (ep : TF S3200000x32) : TF S3200000x32 :=
  maximumf (F := Ideal) (φ := .f32) (addf (F := Ideal) (φ := .f32) hsrc ep) (broadcastInDim S3200000x32 ![] bcast_S_S3200000x32 (constant (F := Ideal) S_ .f32 0x00000000#32))

def agg (msg : TF S3200000x32) (dst : TI S3200000) : TF S100000x32 :=
  Host.scatterAdd (F := Ideal) (φ := .f32) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 dst) msg

def convZ (h a : TF S100000x32) (w1 : TF S32x75) (b1 : TF S75) (w2 : TF S75x32) (b2 : TF S32) : TF S100000x32 :=
  addf (F := Ideal) (φ := .f32)
    (Host.dotGeneral (F := Ideal) (φ₁ := .f32) (φ₂ := .f32) dot_S100000x75_S75x32_S100000x32_1_0_0_1_n_n none
      (maximumf (F := Ideal) (φ := .f32)
        (addf (F := Ideal) (φ := .f32) (Host.dotGeneral (F := Ideal) (φ₁ := .f32) (φ₂ := .f32) dot_S100000x32_S32x75_S100000x75_1_0_0_1_n_n none (addf (F := Ideal) (φ := .f32) h a) w1)
          (broadcastInDim S100000x75 ![0, 1] bcast_S1x75_S100000x75_0_1 (broadcastInDim S1x75 ![1] bcast_S75_S1x75_1 b1)))
        (broadcastInDim S100000x75 ![] bcast_S_S100000x75 (constant (F := Ideal) S_ .f32 0x00000000#32)))
      w2)
    (broadcastInDim S100000x32 ![0, 1] bcast_S1x32_S100000x32_0_1 (broadcastInDim S1x32 ![1] bcast_S32_S1x32_1 b2))

def colSum (z : TF S100000x32) : TF S32 :=
  Host.reduceAdd (F := Ideal) (φ := .f32) z (constant (F := Ideal) S_ .f32 0x00000000#32) reducesTo_S100000x32_S32_d0 h_S_

def meanRef (z : TF S100000x32) : TF S32 :=
  Host.divf (F := Ideal) (φ := .f32) (colSum z) (broadcastInDim S32 ![] bcast_S_S32 (constant (F := Ideal) S_ .f32 0x47C35000#32))

def varRef (z : TF S100000x32) : TF S32 :=
  select
    (broadcastInDim S32 ![] bcast_S_S32
      (cmpf (F := Ideal) (φ := .f32) .ogt
        (subf (F := Ideal) (φ := .f32) (constant (F := Ideal) S_ .f32 0x47C35000#32) (sitofp (F := Ideal) .f32 (constantI S_ 32 0#32)))
        (constant (F := Ideal) S_ .f32 0x00000000#32)))
    (Host.divf
      (Host.reduceAdd
        (mulf (F := Ideal) (φ := .f32)
          (subf (F := Ideal) (φ := .f32) z
            (broadcastInDim S100000x32 ![0, 1] bcast_S1x32_S100000x32_0_1
              (Host.divf (F := Ideal) (φ := .f32) (broadcastInDim S1x32 ![1] bcast_S32_S1x32_1 (colSum z))
                (broadcastInDim S1x32 ![] bcast_S_S1x32 (constant (F := Ideal) S_ .f32 0x47C35000#32)))))
          (subf (F := Ideal) (φ := .f32) z
            (broadcastInDim S100000x32 ![0, 1] bcast_S1x32_S100000x32_0_1
              (Host.divf (F := Ideal) (φ := .f32) (broadcastInDim S1x32 ![1] bcast_S32_S1x32_1 (colSum z))
                (broadcastInDim S1x32 ![] bcast_S_S1x32 (constant (F := Ideal) S_ .f32 0x47C35000#32))))))
        (constant (F := Ideal) S_ .f32 0x00000000#32) reducesTo_S100000x32_S32_d0 h_S_)
      (broadcastInDim S32 ![] bcast_S_S32
        (subf (F := Ideal) (φ := .f32) (constant (F := Ideal) S_ .f32 0x47C35000#32) (sitofp (F := Ideal) .f32 (constantI S_ 32 0#32)))))
    (broadcastInDim S32 ![] bcast_S_S32 (id (constant (F := Ideal) S_ .f32 0x7FC00000#32)))

def bnApply (z : TF S100000x32) (mu var g b : TF S32) : TF S100000x32 :=
  maximumf (F := Ideal) (φ := .f32)
    (addf (F := Ideal) (φ := .f32)
      (mulf (F := Ideal) (φ := .f32)
        (mulf (F := Ideal) (φ := .f32)
          (subf (F := Ideal) (φ := .f32) z (broadcastInDim S100000x32 ![0, 1] bcast_S1x32_S100000x32_0_1
            (broadcastInDim S1x32 ![1] bcast_S32_S1x32_1 mu)))
          (broadcastInDim S100000x32 ![0, 1] bcast_S1x32_S100000x32_0_1
            (broadcastInDim S1x32 ![1] bcast_S32_S1x32_1
              (Host.rsqrt (F := Ideal) (φ := .f32) (addf (F := Ideal) (φ := .f32) var (broadcastInDim S32 ![] bcast_S_S32 (constant (F := Ideal) S_ .f32 0x3727C5AC#32)))))))
        (broadcastInDim S100000x32 ![0, 1] bcast_S1x32_S100000x32_0_1 (broadcastInDim S1x32 ![1] bcast_S32_S1x32_1 g)))
      (broadcastInDim S100000x32 ![0, 1] bcast_S1x32_S100000x32_0_1 (broadcastInDim S1x32 ![1] bcast_S32_S1x32_1 b)))
    (broadcastInDim S100000x32 ![] bcast_S_S100000x32 (constant (F := Ideal) S_ .f32 0x00000000#32))

def bnRef (z : TF S100000x32) (g b : TF S32) : TF S100000x32 :=
  bnApply z (meanRef z) (varRef z) g b

def sliceW1_0 (w : TF S2x32x75) : TF S32x75 :=
  fun i => shapeCast S32x75 (extractStridedSlice S1x32x75 ![0, 0, 0] w slices_S2x32x75_S1x32x75_0_0_0) shapeCasts_S1x32x75_S32x75 i
def sliceW1_1 (w : TF S2x32x75) : TF S32x75 :=
  fun i => shapeCast S32x75 (extractStridedSlice S1x32x75 ![1, 0, 0] w slices_S2x32x75_S1x32x75_1_0_0) shapeCasts_S1x32x75_S32x75 i
def sliceB1_0 (b : TF S2x75) : TF S75 :=
  fun i => shapeCast S75 (extractStridedSlice S1x75 ![0, 0] b slices_S2x75_S1x75_0_0) shapeCasts_S1x75_S75 i
def sliceB1_1 (b : TF S2x75) : TF S75 :=
  fun i => shapeCast S75 (extractStridedSlice S1x75 ![1, 0] b slices_S2x75_S1x75_1_0) shapeCasts_S1x75_S75 i
def sliceW2_0 (w : TF S2x75x32) : TF S75x32 :=
  fun i => shapeCast S75x32 (extractStridedSlice S1x75x32 ![0, 0, 0] w slices_S2x75x32_S1x75x32_0_0_0) shapeCasts_S1x75x32_S75x32 i
def sliceW2_1 (w : TF S2x75x32) : TF S75x32 :=
  fun i => shapeCast S75x32 (extractStridedSlice S1x75x32 ![1, 0, 0] w slices_S2x75x32_S1x75x32_1_0_0) shapeCasts_S1x75x32_S75x32 i
def sliceRow_0 (v : TF S2x32) : TF S32 :=
  fun i => shapeCast S32 (extractStridedSlice S1x32 ![0, 0] v slices_S2x32_S1x32_0_0) shapeCasts_S1x32_S32 i
def sliceRow_1 (v : TF S2x32) : TF S32 :=
  fun i => shapeCast S32 (extractStridedSlice S1x32 ![1, 0] v slices_S2x32_S1x32_1_0) shapeCasts_S1x32_S32 i

abbrev sliceB2_0 (v : TF S2x32) : TF S32 := sliceRow_0 v
abbrev sliceB2_1 (v : TF S2x32) : TF S32 := sliceRow_1 v
abbrev sliceG_0 (v : TF S2x32) : TF S32 := sliceRow_0 v
abbrev sliceG_1 (v : TF S2x32) : TF S32 := sliceRow_1 v
abbrev sliceB_0 (v : TF S2x32) : TF S32 := sliceRow_0 v
abbrev sliceB_1 (v : TF S2x32) : TF S32 := sliceRow_1 v

def poolSum (h : TF S100000x32) (batch : TI S100000) : TF S5000x32 :=
  Host.scatterAdd (F := Ideal) (φ := .f32) scatter_S5000x32_S100000x1_S100000x32_1_0_0_1
    (broadcastInDim S5000x32 ![] bcast_S_S5000x32 (constant (F := Ideal) S_ .f32 0x00000000#32))
    (broadcastInDim S100000x1 ![0] bcast_S100000_S100000x1_0 batch) h

def poolCount (batch : TI S100000) : TF S5000 :=
  maximumf (F := Ideal) (φ := .f32)
    (Host.scatterAdd (F := Ideal) (φ := .f32) scatter_S5000_S100000x1_S100000_n_0_0_1
      (broadcastInDim S5000 ![] bcast_S_S5000 (constant (F := Ideal) S_ .f32 0x00000000#32))
      (broadcastInDim S100000x1 ![0] bcast_S100000_S100000x1_0 batch)
      (broadcastInDim S100000 ![] bcast_S_S100000 (constant (F := Ideal) S_ .f32 0x3F800000#32)))
    (broadcastInDim S5000 ![] bcast_S_S5000 (constant (F := Ideal) S_ .f32 0x3F800000#32))

def pool (h : TF S100000x32) (batch : TI S100000) (l1w : TF S32x16) (l1b : TF S16) (l2w : TF S16x2) (l2b : TF S2) :
    TF S5000x2 :=
  addf (F := Ideal) (φ := .f32)
    (Host.dotGeneral (F := Ideal) (φ₁ := .f32) (φ₂ := .f32) dot_S5000x16_S16x2_S5000x2_1_0_0_1_n_n none
      (maximumf (F := Ideal) (φ := .f32)
        (addf (F := Ideal) (φ := .f32)
          (Host.dotGeneral (F := Ideal) (φ₁ := .f32) (φ₂ := .f32) dot_S5000x32_S32x16_S5000x16_1_0_0_1_n_n none
            (Host.divf (F := Ideal) (φ := .f32) (poolSum h batch)
              (broadcastInDim S5000x32 ![0, 1] bcast_S5000x1_S5000x32_0_1
                (broadcastInDim S5000x1 ![0] bcast_S5000_S5000x1_0 (poolCount batch))))
            l1w)
          (broadcastInDim S5000x16 ![0, 1] bcast_S1x16_S5000x16_0_1 (broadcastInDim S1x16 ![1] bcast_S16_S1x16_1 l1b)))
        (broadcastInDim S5000x16 ![] bcast_S_S5000x16 (constant (F := Ideal) S_ .f32 0x00000000#32)))
      l2w)
    (broadcastInDim S5000x2 ![0, 1] bcast_S1x2_S5000x2_0_1 (broadcastInDim S1x2 ![1] bcast_S2_S1x2_1 l2b))

def layer (h : TF S100000x32) (ep : TF S3200000x32) (src dst : TI S3200000)
    (w1 : TF S32x75) (b1 : TF S75) (w2 : TF S75x32) (b2 g b : TF S32) : TF S100000x32 :=
  bnRef (convZ h (agg (msgOf (takeRows h src) ep) dst) w1 b1 w2 b2) g b

def h1 (x : TF S100000x14) (ei : TI S2x3200000) (ea : TF S3200000x3) (nw : TF S14x32) (nb : TF S32)
    (ew : TF S3x32) (eb : TF S32) (w1 : TF S2x32x75) (b1 : TF S2x75) (w2 : TF S2x75x32) (b2 g b : TF S2x32) :
    TF S100000x32 :=
  layer (nodeProj x nw nb) (edgeProj ea ew eb) (srcOf ei) (dstOf ei)
    (sliceW1_0 w1) (sliceB1_0 b1) (sliceW2_0 w2) (sliceB2_0 b2) (sliceG_0 g) (sliceB_0 b)

def h2 (x : TF S100000x14) (ei : TI S2x3200000) (ea : TF S3200000x3) (nw : TF S14x32) (nb : TF S32)
    (ew : TF S3x32) (eb : TF S32) (w1 : TF S2x32x75) (b1 : TF S2x75) (w2 : TF S2x75x32) (b2 g b : TF S2x32) :
    TF S100000x32 :=
  layer (h1 x ei ea nw nb ew eb w1 b1 w2 b2 g b) (edgeProj ea ew eb) (srcOf ei) (dstOf ei)
    (sliceW1_1 w1) (sliceB1_1 b1) (sliceW2_1 w2) (sliceB2_1 b2) (sliceG_1 g) (sliceB_1 b)

def forward (x : TF S100000x14) (ei : TI S2x3200000) (ea : TF S3200000x3) (batch : TI S100000)
    (nw : TF S14x32) (nb : TF S32) (ew : TF S3x32) (eb : TF S32)
    (w1 : TF S2x32x75) (b1 : TF S2x75) (w2 : TF S2x75x32) (b2 g b : TF S2x32)
    (l1w : TF S32x16) (l1b : TF S16) (l2w : TF S16x2) (l2b : TF S2) : TF S5000x2 :=
  pool (h2 x ei ea nw nb ew eb w1 b1 w2 b2 g b) batch l1w l1b l2w l2b

end Cert.Net

end
-- ==== Proof.LibAllReal.lean ====
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-- Every entry of the array is a real number (neither infinity). -/
def AllReal {S : Shape} (x : S.Idx → EReal) : Prop := ∀ i, ∃ r : ℝ, x i = (r : EReal)

theorem coe_max_real (a b : ℝ) : max (a : EReal) (b : EReal) = ((max a b : ℝ) : EReal) :=
  (EReal.coe_strictMono.monotone.map_max).symm

theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

theorem ofBits_f32_zero : Ideal.ofBits .f32 0x00000000#32 = ((0 : ℝ) : EReal) := by
  rw [Ideal.ofBits_zero_f32, EReal.coe_zero]

variable {s t : Shape} {φ : FTy}

/-- An entrywise operation that takes two reals to a real keeps arrays of reals. -/
theorem AllReal.zip {x y : s.Idx → EReal} (hx : AllReal x) (hy : AllReal y) (f : EReal → EReal → EReal)
    {g : ℝ → ℝ → ℝ} (h : ∀ a b : ℝ, f a b = (g a b : ℝ)) : AllReal fun i => f (x i) (y i) := fun i =>
  let ⟨a, ha⟩ := hx i
  let ⟨b, hb⟩ := hy i
  ⟨g a b, (congrArg₂ f ha hb).trans (h a b)⟩

theorem AllReal.mulf {x y : FVec Ideal s φ} (hx : AllReal x) (hy : AllReal y) : AllReal (mulf (F := Ideal) x y) :=
  hx.zip hy (· * ·) fun _ _ => (EReal.coe_mul _ _).symm

theorem AllReal.addf {x y : FVec Ideal s φ} (hx : AllReal x) (hy : AllReal y) : AllReal (addf (F := Ideal) x y) :=
  hx.zip hy (· + ·) fun _ _ => (EReal.coe_add _ _).symm

theorem AllReal.subf {x y : FVec Ideal s φ} (hx : AllReal x) (hy : AllReal y) : AllReal (subf (F := Ideal) x y) :=
  hx.zip hy (· - ·) fun _ _ => (EReal.coe_sub _ _).symm

theorem AllReal.maximumf {x y : FVec Ideal s φ} (hx : AllReal x) (hy : AllReal y) :
    AllReal (maximumf (F := Ideal) x y) :=
  hx.zip hy max coe_max_real

theorem AllReal.constant {b : BitVec φ.bits} {r : ℝ} (hb : Ideal.ofBits φ b = (r : EReal)) :
    AllReal (constant (F := Ideal) s φ b) :=
  fun _ => ⟨r, hb⟩

theorem AllReal.constant_zero : AllReal (Idealize.ShloMosaic.constant (F := Ideal) s .f32 0x00000000#32) :=
  AllReal.constant ofBits_f32_zero

/-- Each entry of a broadcast is an entry of the operand. -/
theorem AllReal.broadcastInDim {dims : Fin s.rank → Fin t.rank} {h : s.BroadcastsInDim t dims} {x : s.Idx → EReal}
    (hx : AllReal x) : AllReal (broadcastInDim t dims h x) :=
  fun _ => hx _

/-- Each entry of a gather is an entry of the operand, whatever the indices. -/
theorem AllReal.gather {si : Shape} {w : Nat} {d : GatherDims s si t} {x : s.Idx → EReal} {idx : IVec si w}
    (hx : AllReal x) : AllReal (Host.gather d x idx) :=
  fun _ => hx _

/-- Each entry of the accumulating scatter is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := fun i =>
  have key (S : Finset u.Idx) : ∃ r : ℝ, x i + ∑ j ∈ S, upd j = (r : EReal) :=
    let ⟨a, ha⟩ := hx i
    let ⟨b, hb⟩ := exists_real_sum S upd fun j _ => hu j
    ⟨a + b, by rw [ha, hb, EReal.coe_add]⟩
  key _

/-- Each entry of a contraction is a finite sum of products of an entry of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := fun j => by
  rw [show Host.dotGeneral (F := Ideal) d prec l r j = _ from Ideal.dotGeneral_apply d prec .single l r j]
  exact exists_real_sum _ _ fun k _ =>
    let ⟨a, ha⟩ := hl (d.lhsIdx j k)
    let ⟨b, hb⟩ := hr (d.rhsIdx j k)
    ⟨a * b, by rw [ha, hb, EReal.coe_mul]⟩

end Cert.Spec

end
-- ==== Proof.Net.AllRealMore.lean ====
import proofs.«417359_j61564061221146_2_alg».proof.Proof.LibAllReal
import Idealize.ShloMosaic.Lib.IdealHost

noncomputable section

namespace Cert.Spec

open Idealize.ShloMosaic

variable {s : Shape} {φ : FTy}

theorem ofBits_f32_1e5 : Ideal.ofBits .f32 0x47C35000#32 = ((100000 : ℝ) : EReal) := by
  simp [Ideal.ofBits, Ideal.ieee, -EReal.coe_mul]
  norm_num

theorem ofBits_f32_eps : Ideal.ofBits .f32 0x3727C5AC#32 = ((10995116 / 2 ^ 40 : ℝ) : EReal) := by
  simp [Ideal.ofBits, Ideal.ieee, -EReal.coe_mul]
  norm_num

theorem eps_pos : (0 : ℝ) < 10995116 / 2 ^ 40 := by positivity

theorem sitofp_zero {w : Nat} : FloatOps.sitofp (F := Ideal) φ (0#w) = ((0 : ℝ) : EReal) := by
  show (((0#w).toInt : ℝ) : EReal) = _
  simp

/-- The quotient by a nonzero real is the product with its reciprocal. -/
theorem div_coe_coe (a : ℝ) {c : ℝ} (hc : c ≠ 0) : Ideal.div (a : EReal) (c : EReal) = ((a / c : ℝ) : EReal) := by
  rw [Ideal.div_coe hc, ← EReal.coe_mul, mul_one_div]

theorem select_of_forall_one {α : Type} {c : IVec s 1} (a b : s.Idx → α) (hc : ∀ i, c i = 1) : select c a b = a :=
  funext fun i => if_pos (hc i)

theorem cmpf_ogt_of_lt {x y : Ideal φ} (h : y < x) : FloatOps.cmpf (F := Ideal) .ogt x y = 1 := by
  show Ideal.cmp .ogt x y = 1
  simp [Ideal.cmp, h]

end Cert.Spec

end
-- ==== Proof.Net.BN.lean ====
import proofs.«417359_j61564061221146_2_alg».proof.Proof.Net.AllRealMore
import Mathlib.Tactic.Ring
import Mathlib.Tactic.FieldSimp

noncomputable section

namespace Cert.Spec

open Idealize.ShloMosaic
open scoped BigOperators

variable {ι : Type} [Fintype ι]

def colMean (z : ι → ℝ) (n : ℝ) : ℝ := (∑ k, z k) / n

/-- The variance of a column: the mean of the squared deviations from the mean. -/
def colVar (z : ι → ℝ) (n : ℝ) : ℝ := (∑ k, (z k - colMean z n) * (z k - colMean z n)) / n

/-- Expand the squares and use that the sum is n times the mean. -/
theorem colVar_eq (z : ι → ℝ) {n : ℝ} (hn : n = Fintype.card ι) (hn0 : n ≠ 0) :
    colVar z n = (∑ k, z k * z k) / n - colMean z n * colMean z n := by
  have hS : ∑ k, z k = n * colMean z n := by
    unfold colMean; field_simp
  have e : ∑ k, (z k - colMean z n) * (z k - colMean z n)
      = (∑ k, z k * z k) - 2 * colMean z n * (n * colMean z n) + n * (colMean z n * colMean z n) := by
    calc ∑ k, (z k - colMean z n) * (z k - colMean z n)
        = ∑ k, (z k * z k - 2 * colMean z n * z k + colMean z n * colMean z n) :=
          Finset.sum_congr rfl (fun k _ => by ring)
      _ = _ := by
          rw [Finset.sum_add_distrib, Finset.sum_sub_distrib, ← Finset.mul_sum, Finset.sum_const, Finset.card_univ,
            nsmul_eq_mul, ← hn, ← hS]
  unfold colVar
  rw [e]
  field_simp
  ring

theorem norm_affine (x μ r g b : ℝ) : ((x - μ) * r) * g + b = x * (g * r) + (b - μ * (g * r)) := by ring

theorem coe_finset_sum {κ : Type} (s : Finset κ) (f : κ → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- Zero plus a sum of reals over a nonzero real, computed on the extended reals, is the quotient of reals. -/
theorem div_sum_coe (f : ι → ℝ) {n : ℝ} (hn0 : n ≠ 0) :
    Ideal.div (((0 : ℝ) : EReal) + ∑ k, (f k : EReal)) (n : EReal) = (((∑ k, f k) / n : ℝ) : EReal) := by
  rw [coe_finset_sum, ← EReal.coe_add, zero_add, div_coe_coe _ hn0]

/-- With real entries the mean and both variances are real and the variances agree; variance plus e is positive. -/
theorem bn_column (c : ι → EReal) (hc : ∀ k, ∃ r : ℝ, c k = r) {n : ℝ} (hn : n = Fintype.card ι) (hn0 : 0 < n)
    {g b : EReal} (hg : ∃ r : ℝ, g = r) (hb : ∃ r : ℝ, b = r) {e : ℝ} (he : 0 < e) (i : ι) (μ vr vk : EReal)
    (hμ : μ = Ideal.div (((0 : ℝ) : EReal) + ∑ k, c k) (n : EReal))
    (hvr : vr = Ideal.div (((0 : ℝ) : EReal) + ∑ k, (c k - μ) * (c k - μ)) (n : EReal))
    (hvk : vk = Ideal.div (((0 : ℝ) : EReal) + ∑ k, c k * c k) (n : EReal) - μ * μ) :
    ∃ r : ℝ,
      max (((c i - μ) * Ideal.rsqrt (vr + (e : EReal))) * g + b) ((0 : ℝ) : EReal) = r ∧
      max (c i * (g * Ideal.rsqrt (vk + (e : EReal))) + (b - μ * (g * Ideal.rsqrt (vk + (e : EReal)))))
        ((0 : ℝ) : EReal) = r := by
  choose z hz using hc
  obtain rfl : c = fun k => (z k : EReal) := funext hz
  obtain ⟨g, rfl⟩ := hg
  obtain ⟨b, rfl⟩ := hb
  have hn0' : n ≠ 0 := hn0.ne'
  rw [div_sum_coe z hn0', show (∑ k, z k) / n = colMean z n from rfl] at hμ
  subst hμ
  simp only [← EReal.coe_sub, ← EReal.coe_mul] at hvr hvk
  rw [div_sum_coe _ hn0'] at hvr hvk
  rw [← EReal.coe_sub, ← colVar_eq z hn hn0'] at hvk
  change vr = ((colVar z n : ℝ) : EReal) at hvr
  subst hvr hvk
  have hpos : 0 < colVar z n + e :=
    add_pos_of_nonneg_of_pos (div_nonneg (Finset.sum_nonneg fun k _ => mul_self_nonneg _) hn0.le) he
  rw [← EReal.coe_add, rsqrt_coe_pos hpos]
  refine ⟨max ((z i - colMean z n) * (Real.sqrt (colVar z n + e))⁻¹ * g + b) 0, ?_, ?_⟩
  · rw [← EReal.coe_sub, ← EReal.coe_mul, ← EReal.coe_mul, ← EReal.coe_add, coe_max_real]
  · rw [← EReal.coe_mul, ← EReal.coe_mul, ← EReal.coe_mul, ← EReal.coe_sub, ← EReal.coe_add, coe_max_real, norm_affine]

end Cert.Spec

end
-- ==== Proof.Net.BNArr.lean ====
import proofs.«417359_j61564061221146_2_alg».proof.Proof.Net.Spec
import proofs.«417359_j61564061221146_2_alg».proof.Proof.Net.BN
import Idealize.ShloMosaic.Lib.Pipeline.Value
import Idealize.ShloMosaic.Lib.ValueIdx
import Idealize.ShloMosaic.Lib.IdealHost
import Idealize.ShloMosaic.PureOps.Ideal.Laws

noncomputable section

namespace Cert.Net

open Idealize.ShloMosaic Idealize.ShloMosaic.ValueIdx
open Cert.ReferenceIdeal Cert.ReferenceIdeal.Facts₀
open Cert.Spec
open scoped BigOperators

variable [Cert.ReferenceIdeal.Facts]

def meanKer (s : TF S32) : TF S32 :=
  Host.divf (F := Ideal) (φ := .f32) s (broadcastInDim S32 ![] bcast_S_S32 (constant S_ .f32 0x47C35000#32))

def varKer (s sq : TF S32) : TF S32 :=
  subf (F := Ideal) (φ := .f32) (Host.divf (F := Ideal) (φ := .f32) sq (broadcastInDim S32 ![] bcast_S_S32 (constant S_ .f32 0x47C35000#32)))
    (mulf (F := Ideal) (φ := .f32) (meanKer s) (meanKer s))

def scaleKer (s sq g : TF S32) : TF S32 :=
  mulf (F := Ideal) (φ := .f32) g
    (Host.rsqrt (F := Ideal) (φ := .f32)
      (addf (F := Ideal) (φ := .f32) (varKer s sq) (broadcastInDim S32 ![] bcast_S_S32 (constant S_ .f32 0x3727C5AC#32))))

def shiftKer (s sq g b : TF S32) : TF S32 :=
  subf (F := Ideal) (φ := .f32) b (mulf (F := Ideal) (φ := .f32) (meanKer s) (scaleKer s sq g))

def kScale (z : TF S100000x32) (g : TF S32) : TF S32 := scaleKer (colSum z) (colSum (mulf (F := Ideal) (φ := .f32) z z)) g

def kShift (z : TF S100000x32) (g b : TF S32) : TF S32 := shiftKer (colSum z) (colSum (mulf (F := Ideal) (φ := .f32) z z)) g b

theorem rowB2_apply (y : TF S1x32) (p : Fin 100000) (q : Fin 32) :
    broadcastInDim S100000x32 ![0, 1] bcast_S1x32_S100000x32_0_1 y (ix2 p q) = y (ix2 (0 : Fin 1) q) := by
  refine broadcastInDim_apply _ bcast_S1x32_S100000x32_0_1 y (ix2 p q) (ix2 (0 : Fin 1) q) ?_
  intro a
  match a with
  | ⟨0, _⟩ => rfl
  | ⟨1, _⟩ => rfl

theorem rowB1_apply (x : TF S32) (q : Fin 32) :
    broadcastInDim S1x32 ![1] bcast_S32_S1x32_1 x (ix2 (0 : Fin 1) q) = x (ix1 q) := by
  refine broadcastInDim_apply _ bcast_S32_S1x32_1 x (ix2 (0 : Fin 1) q) (ix1 q) ?_
  intro a
  match a with
  | ⟨0, _⟩ => rfl

theorem rowB_apply (x : TF S32) (p : Fin 100000) (q : Fin 32) :
    broadcastInDim S100000x32 ![0, 1] bcast_S1x32_S100000x32_0_1 (broadcastInDim S1x32 ![1] bcast_S32_S1x32_1 x) (ix2 p q)
      = x (ix1 q) :=
  (rowB2_apply _ p q).trans (rowB1_apply x q)

theorem red_rows : S100000x32.Reduces [0] S32 := by decide

/-- The sum over the rows from zero, at column q: zero plus the sum of the column. -/
theorem colSum_apply (z : TF S100000x32) (q : Fin 32) :
    colSum z (ix1 q) = ((0 : ℝ) : EReal) + ∑ k : Fin 100000, z (ix2 k q) := by
  show Ideal.hostReduceAdd reducesTo_S100000x32_S32_d0 z (Ideal.ofBits .f32 0x00000000#32) (ix1 q) = _
  rw [Ideal.hostReduceAdd_single _ red_rows, ofBits_f32_zero]
  refine congrArg _ (Finset.sum_congr rfl (fun k _ => congrArg z ?_))
  funext a
  match a with
  | ⟨0, _⟩ => exact Fin.ext rfl
  | ⟨1, _⟩ => exact Fin.ext rfl

theorem ddof_divisor :
    subf (F := Ideal) (φ := .f32) (constant S_ .f32 0x47C35000#32) (sitofp (F := Ideal) .f32 (constantI S_ 32 0#32))
      = fun _ => ((100000 : ℝ) : EReal) := by
  funext i
  show Ideal.ofBits .f32 0x47C35000#32 - FloatOps.sitofp (F := Ideal) .f32 (0#32) = _
  rw [ofBits_f32_1e5, sitofp_zero, ← EReal.coe_sub, sub_zero]

def devRef (z : TF S100000x32) : TF S100000x32 :=
  subf (F := Ideal) (φ := .f32) z
    (broadcastInDim S100000x32 ![0, 1] bcast_S1x32_S100000x32_0_1
      (Host.divf (F := Ideal) (φ := .f32) (broadcastInDim S1x32 ![1] bcast_S32_S1x32_1 (colSum z))
        (broadcastInDim S1x32 ![] bcast_S_S1x32 (constant S_ .f32 0x47C35000#32))))

/-- The divisor 100000 - 0 is positive, so the selection keeps the quotient. -/
theorem varRef_eq (z : TF S100000x32) :
    varRef z = Host.divf (F := Ideal) (φ := .f32) (colSum (mulf (F := Ideal) (φ := .f32) (devRef z) (devRef z)))
      (broadcastInDim (s := S_) S32 ![] bcast_S_S32 (fun _ => ((100000 : ℝ) : EReal))) := by
  unfold varRef devRef
  rw [ddof_divisor]
  refine select_of_forall_one _ _ fun _ => cmpf_ogt_of_lt (φ := .f32) ?_
  show Ideal.ofBits .f32 0x00000000#32 < ((100000 : ℝ) : EReal)
  rw [ofBits_f32_zero]
  exact EReal.coe_lt_coe_iff.mpr (by norm_num)

theorem devRef_apply (z : TF S100000x32) (k : Fin 100000) (q : Fin 32) :
    devRef z (ix2 k q) = z (ix2 k q) - meanRef z (ix1 q) := by
  unfold devRef
  rw [subf_apply, rowB2_apply, hostDivf_apply, rowB1_apply]
  rfl

theorem meanRef_apply (z : TF S100000x32) (q : Fin 32) :
    meanRef z (ix1 q) = Ideal.div (((0 : ℝ) : EReal) + ∑ k : Fin 100000, z (ix2 k q)) ((100000 : ℝ) : EReal) := by
  show Ideal.div (colSum z (ix1 q)) (Ideal.ofBits .f32 0x47C35000#32) = _
  rw [colSum_apply, ofBits_f32_1e5]

theorem varRef_apply (z : TF S100000x32) (q : Fin 32) :
    varRef z (ix1 q)
      = Ideal.div (((0 : ℝ) : EReal)
          + ∑ k : Fin 100000, (z (ix2 k q) - meanRef z (ix1 q)) * (z (ix2 k q) - meanRef z (ix1 q)))
        ((100000 : ℝ) : EReal) := by
  rw [varRef_eq, hostDivf_apply, colSum_apply]
  simp only [mulf_apply, devRef_apply]
  rfl

theorem varKer_apply (z : TF S100000x32) (q : Fin 32) :
    varKer (colSum z) (colSum (mulf (F := Ideal) (φ := .f32) z z)) (ix1 q)
      = Ideal.div (((0 : ℝ) : EReal) + ∑ k : Fin 100000, z (ix2 k q) * z (ix2 k q)) ((100000 : ℝ) : EReal)
        - meanRef z (ix1 q) * meanRef z (ix1 q) := by
  show Ideal.div (colSum (mulf (F := Ideal) (φ := .f32) z z) (ix1 q)) (Ideal.ofBits .f32 0x47C35000#32) - _ = _
  rw [colSum_apply, ofBits_f32_1e5]
  rfl

theorem bnRef_apply (z : TF S100000x32) (g b : TF S32) (p : Fin 100000) (q : Fin 32) :
    bnRef z g b (ix2 p q)
      = max ((((z (ix2 p q) - meanRef z (ix1 q))
              * Ideal.rsqrt (varRef z (ix1 q) + Ideal.ofBits .f32 0x3727C5AC#32)) * g (ix1 q)) + b (ix1 q))
          (Ideal.ofBits .f32 0x00000000#32) := by
  unfold bnRef bnApply
  rw [maximumf_apply, addf_apply, mulf_apply, mulf_apply, subf_apply, rowB_apply, rowB_apply, rowB_apply, rowB_apply]
  rfl

theorem card_rows : ((100000 : ℝ)) = Fintype.card (Fin 100000) := by
  rw [Fintype.card_fin]; norm_num

/-- On an array of reals with real parameters the normalised entry and the affine entry are one real number. -/
theorem bnRef_apply_eq (z : TF S100000x32) (g b : TF S32) (hz : AllReal z) (hg : AllReal g) (hb : AllReal b)
    (p : Fin 100000) (q : Fin 32) :
    ∃ r : ℝ, bnRef z g b (ix2 p q) = r
      ∧ max (z (ix2 p q) * kScale z g (ix1 q) + kShift z g b (ix1 q)) (0 : EReal) = r := by
  have hs : kScale z g (ix1 q) = g (ix1 q) * Ideal.rsqrt
      (varKer (colSum z) (colSum (mulf (F := Ideal) (φ := .f32) z z)) (ix1 q) + Ideal.ofBits .f32 0x3727C5AC#32) := rfl
  rw [bnRef_apply, show kShift z g b (ix1 q) = b (ix1 q) - meanRef z (ix1 q) * kScale z g (ix1 q) from rfl, hs,
    ofBits_f32_eps, ofBits_f32_zero]
  exact bn_column (fun k : Fin 100000 => z (ix2 k q)) (fun k => hz _) card_rows (by norm_num) (hg _) (hb _) eps_pos p
    _ _ _ (meanRef_apply z q) (varRef_apply z q) (varKer_apply z q)

end Cert.Net

end
-- ==== Proof.Net.Norm.lean ====
import Idealize.ShloMosaic.Lib.Pipeline.Value
import Idealize.ShloMosaic.Lib.ValueIdx
import Idealize.ShloMosaic.PureOps.Ideal.Laws

noncomputable section

namespace Cert.Net

open Idealize.ShloMosaic Idealize.ShloMosaic.ValueIdx

theorem bc_vec_row : (⟨1, ![32]⟩ : Shape).BroadcastsInDim ⟨2, ![1, 32]⟩ ![1] := by decide
theorem bc_row_all : (⟨2, ![1, 32]⟩ : Shape).BroadcastsInDim ⟨2, ![100000, 32]⟩ ![0, 1] := by decide
theorem bc_scalar_all : (⟨0, ![]⟩ : Shape).BroadcastsInDim ⟨2, ![100000, 32]⟩ ![] := by decide

def normOf (z : FVec Ideal ⟨2, ![100000, 32]⟩ .f32) (scale shift : FVec Ideal ⟨1, ![32]⟩ .f32) :
    FVec Ideal ⟨2, ![100000, 32]⟩ .f32 :=
  maximumf
    (addf
      (mulf z (broadcastInDim ⟨2, ![100000, 32]⟩ ![0, 1] bc_row_all (broadcastInDim ⟨2, ![1, 32]⟩ ![1] bc_vec_row scale)))
      (broadcastInDim ⟨2, ![100000, 32]⟩ ![0, 1] bc_row_all (broadcastInDim ⟨2, ![1, 32]⟩ ![1] bc_vec_row shift)))
    (broadcastInDim ⟨2, ![100000, 32]⟩ ![] bc_scalar_all (constant (F := Ideal) ⟨0, ![]⟩ .f32 0x00000000#32))

theorem rowBroadcast_apply (x : FVec Ideal ⟨1, ![32]⟩ .f32) (p : Fin 100000) (q : Fin 32) :
    broadcastInDim ⟨2, ![100000, 32]⟩ ![0, 1] bc_row_all (broadcastInDim ⟨2, ![1, 32]⟩ ![1] bc_vec_row x) (ix2 p q)
      = x (ix1 q) := by
  refine (broadcastInDim_apply _ bc_row_all _ (ix2 p q) (ix2 (0 : Fin 1) q) ?_).trans ?_
  · intro a; match a with
    | ⟨0, _⟩ => rfl
    | ⟨1, _⟩ => rfl
  · refine broadcastInDim_apply _ bc_vec_row x (ix2 (0 : Fin 1) q) (ix1 q) ?_
    intro a; match a with
    | ⟨0, _⟩ => rfl

theorem normOf_apply (z : FVec Ideal ⟨2, ![100000, 32]⟩ .f32) (scale shift : FVec Ideal ⟨1, ![32]⟩ .f32)
    (p : Fin 100000) (q : Fin 32) :
    normOf z scale shift (ix2 p q) = max (z (ix2 p q) * scale (ix1 q) + shift (ix1 q)) (0 : EReal) := by
  show max (z (ix2 p q) * _ + _) (Ideal.ofBits .f32 0x00000000#32) = _
  rw [rowBroadcast_apply scale p q, rowBroadcast_apply shift p q, Ideal.ofBits_zero_f32]

end Cert.Net

end
-- ==== Proof.KI.Host1.lean ====
import proofs.«417359_j61564061221146_2_alg».proof.Proof.Gen.KernelIdeal.Regions
import proofs.«417359_j61564061221146_2_alg».proof.Proof.Net.Spec
import proofs.«417359_j61564061221146_2_alg».proof.Proof.Net.BNArr
import proofs.«417359_j61564061221146_2_alg».proof.Proof.Net.Norm
import Idealize.ShloMosaic.Lib.StableHlo.Run

noncomputable section

namespace Cert.KernelIdeal.HandValue

open Idealize.ShloMosaic Idealize.ShloMosaic.TcCoe Idealize.ShloMosaic.StableHlo
open Cert.KernelIdeal Cert.KernelIdeal.Gen

variable [Cert.ReferenceIdeal.Facts]
variable (W : Valuation τ sig (Elt Ideal))

theorem host0_src : StableHlo.after hostOps0 W main_v1 = Cert.Net.srcOf (W main_arg1) := by
  after_results; rfl

theorem host0_dst : StableHlo.after hostOps0 W main_v3 = Cert.Net.dstOf (W main_arg1) := by
  after_results; rfl

-- What the node update reads after the stretch: the node features as before, the messages summed at their targets, the layer's weight slices.
theorem host2_z :
    Cert.Net.convZ (StableHlo.after hostOps2 W main_v4) (StableHlo.after hostOps2 W main_v9) (StableHlo.after hostOps2 W main_v11)
        (StableHlo.after hostOps2 W main_v13) (StableHlo.after hostOps2 W main_v15) (StableHlo.after hostOps2 W main_v17)
      = Cert.Net.convZ (W main_v4) (Cert.Net.agg (W main_v6) (W main_v3)) (Cert.Net.sliceW1_0 (W main_arg8))
          (Cert.Net.sliceB1_0 (W main_arg9)) (Cert.Net.sliceW2_0 (W main_arg10)) (Cert.Net.sliceB2_0 (W main_arg11)) := by
  after_results_simp; rfl

-- What the normalisation reads after the stretch: the node update as before, scale and shift from the two column sums.
theorem host3_n :
    Cert.Net.normOf (StableHlo.after hostOps3 W main_v18_0) (StableHlo.after hostOps3 W main_v30) (StableHlo.after hostOps3 W main_v34)
      = Cert.Net.normOf (W main_v18_0) (Cert.Net.scaleKer (W main_v18_1) (W main_v18_2) (Cert.Net.sliceG_0 (W main_arg12)))
          (Cert.Net.shiftKer (W main_v18_1) (W main_v18_2) (Cert.Net.sliceG_0 (W main_arg12)) (Cert.Net.sliceB_0 (W main_arg13))) := by
  after_results_simp; rfl

end Cert.KernelIdeal.HandValue

end
-- ==== Proof.KI.Host2.lean ====
import proofs.«417359_j61564061221146_2_alg».proof.Proof.Gen.KernelIdeal.Regions
import proofs.«417359_j61564061221146_2_alg».proof.Proof.Net.Spec
import proofs.«417359_j61564061221146_2_alg».proof.Proof.Net.BNArr
import proofs.«417359_j61564061221146_2_alg».proof.Proof.Net.Norm
import Idealize.ShloMosaic.Lib.StableHlo.Run

noncomputable section

namespace Cert.KernelIdeal.HandValue

open Cert.KernelIdeal.Gen
open Idealize.ShloMosaic Idealize.ShloMosaic.TcCoe

variable [Cert.ReferenceIdeal.Facts]
variable (W : Valuation τ sig (Elt Ideal))

theorem host5_z :
    Cert.Net.convZ (StableHlo.after hostOps5 W main_v35) (StableHlo.after hostOps5 W main_v40) (StableHlo.after hostOps5 W main_v42)
        (StableHlo.after hostOps5 W main_v44) (StableHlo.after hostOps5 W main_v46) (StableHlo.after hostOps5 W main_v48)
      = Cert.Net.convZ (W main_v35) (Cert.Net.agg (W main_v37) (W main_v3)) (Cert.Net.sliceW1_1 (W main_arg8))
          (Cert.Net.sliceB1_1 (W main_arg9)) (Cert.Net.sliceW2_1 (W main_arg10)) (Cert.Net.sliceB2_1 (W main_arg11)) := by
  after_results_simp; rfl

theorem host6_n :
    Cert.Net.normOf (StableHlo.after hostOps6 W main_v49_0) (StableHlo.after hostOps6 W main_v61) (StableHlo.after hostOps6 W main_v65)
      = Cert.Net.normOf (W main_v49_0) (Cert.Net.scaleKer (W main_v49_1) (W main_v49_2) (Cert.Net.sliceG_1 (W main_arg12)))
          (Cert.Net.shiftKer (W main_v49_1) (W main_v49_2) (Cert.Net.sliceG_1 (W main_arg12)) (Cert.Net.sliceB_1 (W main_arg13))) := by
  after_results_simp; rfl

-- The three readout lines, one after the other: the mean over each graph through two affine maps with a positive part between.
theorem host7_pool :
    StableHlo.after hostOps7_2 (StableHlo.after hostOps7_1 (StableHlo.after hostOps7 W))
        main_v87
      = Cert.Net.pool (W main_v66) (W main_arg3) (W main_arg14) (W main_arg15) (W main_arg16) (W main_arg17) := by
  after_results_simp; rfl

end Cert.KernelIdeal.HandValue
-- ==== Proof.Net.Take.lean ====
import proofs.«417359_j61564061221146_2_alg».proof.KernelIdeal
import Idealize.ShloMosaic.Lib.ReduceAll
import Idealize.ShloMosaic.Lib.DynamicIndex

noncomputable section

namespace Cert.Net

open Idealize.ShloMosaic
open Cert.KernelIdeal (S_ S1 S1x1 S3200000 S3200000x1 S3200000x32 S100000x32)

variable [Cert.KernelIdeal.Facts]

open Cert.KernelIdeal.Facts₀

namespace Take

def idx (src : IVec S3200000 32) : IVec S3200000x1 32 :=
  let c : IVec S_ 32 := constantI S_ 32 0#32
  let v0 : IVec S3200000 32 := broadcastInDim S3200000 ![] bcast_S_S3200000 c
  let v1 : IVec S3200000 1 := cmpi .slt src v0
  let c_0 : IVec S_ 32 := constantI S_ 32 100000#32
  let v2 : IVec S3200000 32 := broadcastInDim S3200000 ![] bcast_S_S3200000 c_0
  let v3 : IVec S3200000 32 := addi src v2
  let v4 : IVec S3200000 32 := select v1 v3 src
  broadcastInDim S3200000x1 ![0] bcast_S3200000_S3200000x1_0 v4

def mask (src : IVec S3200000 32) : IVec S3200000 1 :=
  let v5 : IVec S3200000x1 32 := idx src
  let c_1 : IVec S1 32 := constantI S1 32 99999#32
  let c_2 : IVec S_ 32 := constantI S_ 32 0#32
  let v6 : IVec S3200000x1 32 := broadcastInDim S3200000x1 ![] bcast_S_S3200000x1 c_2
  let v7 : IVec S3200000x1 1 := cmpi .sge v5 v6
  let v8 : IVec S1x1 32 := broadcastInDim S1x1 ![1] bcast_S1_S1x1_1 c_1
  let v9 : IVec S3200000x1 32 := broadcastInDim S3200000x1 ![0, 1] bcast_S1x1_S3200000x1_0_1 v8
  let v10 : IVec S3200000x1 1 := cmpi .sle v5 v9
  let v11 : IVec S3200000x1 1 := andi v7 v10
  let c_3 : IVec S_ 1 := constantI S_ 1 1#1
  Host.reduce IntOp.andi v11 c_3 reducesTo_S3200000x1_S3200000_d1 h_S_

end Take

def takeOf {F : FTy → Type} [FloatOps F] (h : FVec F S100000x32 .f32) (src : IVec S3200000 32) :
    FVec F S3200000x32 .f32 :=
  let v12 : IVec S3200000 1 := Take.mask src
  let v13 : FVec F S3200000x32 .f32 :=
    Host.gather Cert.KernelIdeal.gather_S100000x32_S3200000x1_S3200000x32_1_0_n_n_0_1_132 h (Take.idx src)
  let v14 : IVec S3200000x32 1 := broadcastInDim S3200000x32 ![0] bcast_S3200000_S3200000x32_0 v12
  let cst : FVec F S_ .f32 := constant S_ .f32 0x7FC00000#32
  let v15 : FVec F S3200000x32 .f32 := broadcastInDim S3200000x32 ![] bcast_S_S3200000x32 cst
  select v14 v13 v15

namespace Take

theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- An index that is not negative is not moved. -/
theorem idx_apply (src : IVec S3200000 32) (hs : ∀ e, 0 ≤ (src e).toInt ∧ (src e).toInt < 100000)
    (j : S3200000x1.Idx) : ∃ e : S3200000.Idx, idx src j = src e :=
  ⟨_, select_slt_zero_of_nonneg src _ _ _ (hs _).1⟩

/-- An index in [0, 100000) passes both range tests, and a conjunction of ones is one. -/
theorem mask_eq_one (src : IVec S3200000 32) (hs : ∀ e, 0 ≤ (src e).toInt ∧ (src e).toInt < 100000)
    (e : S3200000.Idx) : mask src e = 1#1 := by
  have key : ∀ j : S3200000x1.Idx,
      IntOp.andi (IntOp.cmpi .sge (idx src j) 0#32) (IntOp.cmpi .sle (idx src j) 99999#32) = 1#1 := by
    intro j
    obtain ⟨e', he⟩ := idx_apply src hs j
    have hz : (0#32 : BitVec 32).toInt = 0 := by decide
    have h9 : (99999#32 : BitVec 32).toInt = 99999 := by decide
    rw [he, IntOp.andi_eq_one, IntOp.cmpi_sge, IntOp.cmpi_sle, hz, h9]
    have := hs e'
    omega
  show Host.reduce IntOp.andi
      (fun j => IntOp.andi (IntOp.cmpi .sge (idx src j) 0#32) (IntOp.cmpi .sle (idx src j) 99999#32))
      (fun _ => 1#1) reducesTo_S3200000x1_S3200000_d1 h_S_ e = 1#1
  rw [Host.reduce_eq_foldl]
  exact foldl_andi_one _ key _

theorem select_of_all_one {α : Type} {s : Shape} (c : IVec s 1) (a b : s.Idx → α) (hc : ∀ i, c i = 1#1) :
    select c a b = a := by
  funext i
  show Scalar.select (c i) (a i) (b i) = a i
  rw [hc i]
  exact if_pos rfl

end Take

theorem takeOf_eq_gather {F : FTy → Type} [FloatOps F] (h : FVec F S100000x32 .f32) (src : IVec S3200000 32)
    (hs : ∀ e, 0 ≤ (src e).toInt ∧ (src e).toInt < 100000) :
    takeOf h src
      = Host.gather Cert.KernelIdeal.gather_S100000x32_S3200000x1_S3200000x32_1_0_n_n_0_1_132 h (Take.idx src) :=
  Take.select_of_all_one _ _ _ (fun _ => Take.mask_eq_one src hs _)

end Cert.Net

end
-- ==== Proof.KI.HostTake.lean ====
import proofs.«417359_j61564061221146_2_alg».proof.Proof.Gen.KernelIdeal.Regions
import proofs.«417359_j61564061221146_2_alg».proof.Proof.Net.Take
import Idealize.ShloMosaic.Lib.StableHlo.Run
import Idealize.ShloMosaic.PureOps.Ideal

noncomputable section

namespace Cert.KernelIdeal.HandValue

open Idealize.ShloMosaic Idealize.ShloMosaic.TcCoe Idealize.ShloMosaic.StableHlo
open Cert.KernelIdeal Cert.KernelIdeal.Gen

variable (W : Valuation τ sig (Elt Ideal))

-- Storing at an array that carries the value's type and reading back at that type is the identity.
theorem ofBuf_toBuf {T : BufTy} (x : StableHlo.TRef sig T) (v : T.Contents (Elt Ideal)) : x.ofBuf (x.toBuf v) = v := by
  obtain ⟨r, h, _, _⟩ := x
  subst h
  rfl

theorem cast_cast_cancel {α β : Type} (h1 : β = α) (h2 : α = β) (v : α) : cast h1 (cast h2 v) = v := by
  subst h2
  rfl

-- Read at the arrays' carried types, the values the row-lookup line stores compose to the take at the source indices.
theorem host1_take_typed :
    (StableHlo.TRef.of main_v5 : StableHlo.TRef sig ⟨S3200000x32, .f32⟩).ofBuf
        (StableHlo.after hostOps1 W (Proc.devRef .tc main_v5))
      = Cert.Net.takeOf (F := Ideal)
          ((StableHlo.TRef.of main_v4 : StableHlo.TRef sig ⟨S100000x32, .f32⟩).ofBuf (W (Proc.devRef .tc main_v4)))
          ((StableHlo.TRef.of main_v1 : StableHlo.TRef sig ⟨S3200000, .i32⟩).ofBuf (W (Proc.devRef .tc main_v1))) := by
  after_results_simp
  simp only [ofBuf_toBuf, cast_cast_cancel]
  rfl

theorem host4_take_typed :
    (StableHlo.TRef.of main_v36 : StableHlo.TRef sig ⟨S3200000x32, .f32⟩).ofBuf
        (StableHlo.after hostOps4 W (Proc.devRef .tc main_v36))
      = Cert.Net.takeOf (F := Ideal)
          ((StableHlo.TRef.of main_v35 : StableHlo.TRef sig ⟨S100000x32, .f32⟩).ofBuf (W (Proc.devRef .tc main_v35)))
          ((StableHlo.TRef.of main_v1 : StableHlo.TRef sig ⟨S3200000, .i32⟩).ofBuf (W (Proc.devRef .tc main_v1))) := by
  after_results_simp
  simp only [ofBuf_toBuf, cast_cast_cancel]
  rfl

end Cert.KernelIdeal.HandValue

end
-- ==== Proof.KI.V0.lean ====
import proofs.«417359_j61564061221146_2_alg».proof.Proof.KI.R0
import proofs.«417359_j61564061221146_2_alg».proof.Proof.Net.Spec
import Idealize.ShloMosaic.Lib.ValueLayout
import Idealize.ShloMosaic.Lib.StackMember

namespace Cert.KernelIdeal.Hand

open Cert.KernelIdeal.Gen
open Idealize.ShloMosaic Idealize.ShloMosaic.TcCoe Idealize.ShloMosaic.ValueIdx

/-- Narrowing is the identity on the extended reals, the product is added to zero, the bias lies along every row. -/
theorem pay0_apply (x w b) (r : Fin 10000) (q : Fin 32) :
    k0_pay1 (F := Ideal) x w b (ix2 r q) = (∑ k : Fin 14, x (ix2 r k) * w (ix2 k q)) + b (ix1 q) := by
  unfold k0_pay1
  rw [addf_apply, matmul_zero_eq_dotGeneral,
    show dot_S10000x14_S14x32_S10000x32_1_0_0_1_n_n = DotDims.plain 10000 14 32 from rfl,
    StackMember.dotGeneral_plain_apply, broadcastTo_1b_ab_apply, shapeCast_a_1a_apply]
  rfl

variable [Cert.ReferenceIdeal.Facts]

/-- The reference's layer at node `n`, column `q`, in the same form. -/
theorem nodeProj_apply (x w b) (n : Fin 100000) (q : Fin 32) :
    Cert.Net.nodeProj x w b (ix2 n q) = (∑ k : Fin 14, x (ix2 n k) * w (ix2 k q)) + b (ix1 q) := by
  unfold Cert.Net.nodeProj
  rw [addf_apply,
    show Cert.ReferenceIdeal.dot_S100000x14_S14x32_S100000x32_1_0_0_1_n_n = DotDims.plain 100000 14 32 from rfl,
    StackMember.dotGeneral_plain_apply, broadcastInDim_oneRow_apply,
    broadcastInDim_apply ![1] _ b (ix2 (0 : Fin 1) q) (ix1 q) fun a => match a with | ⟨0, _⟩ => rfl]

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ (∀ a, win0_1.index t a = 0) ∧ (∀ a, win0_2.index t a = 0)
    ∧ win0_3.index t (0 : Fin 2) = t.val ∧ win0_3.index t (1 : Fin 2) = 0 :=
  (by decide +kernel : ∀ t : Fin grid0.N, _)

/-- Row `r` of the block of point `t` is row `10000 t + r` of the array. -/
abbrev row0 (t : Fin cfg0.N) (r : Fin 10000) : Fin 100000 :=
  ⟨t.val * 10000 + r.val, by have : t.val < 10 := N_0 ▸ t.isLt; have := r.isLt; omega⟩

theorem iblk0_0 (c : Dev nD) (t : Fin cfg0.N) (r : Fin 10000) (k : Fin 14) :
    iblk0 V c 0 t (ix2 r k) = V c main_arg0 (ix2 (row0 t r) k) :=
  congrArg (V c main_arg0) <| Shape.idx_ext₂ (x := ((cfg0.win 0).blk t).view.emb (ix2 r k))
    ((win0_0.rect_emb_val t (ix2 r k) (0 : Fin 2)).trans (congrArg (· * 10000 + r.val) (idx_facts0 t).1))
    (win0_0.rect_emb_val_of_index_zero t (1 : Fin 2) (idx_facts0 t).2.1 (ix2 r k))

theorem emb0_3 (t : Fin cfg0.N) (r : Fin 10000) (q : Fin 32) :
    ((cfg0.win 3).blk t).view.emb (ix2 r q) = ix2 (row0 t r) q :=
  Shape.idx_ext₂ ((win0_3.rect_emb_val t (ix2 r q) (0 : Fin 2)).trans (congrArg (· * 10000 + r.val) (idx_facts0 t).2.2.2.2.1))
    (win0_3.rect_emb_val_of_index_zero t (1 : Fin 2) (idx_facts0 t).2.2.2.2.2 (ix2 r q))

theorem iblk0_whole (c : Dev nD) (t : Fin cfg0.N) : iblk0 V c 1 t = V c main_arg4 ∧ iblk0 V c 2 t = V c main_arg5 :=
  ⟨funext fun j => congrArg (V c main_arg4) (funext fun a => Fin.ext (win0_1.rect_emb_val_of_index_zero t a ((idx_facts0 t).2.2.1 a) j)),
    funext fun j => congrArg (V c main_arg5) (funext fun a => Fin.ext (win0_2.rect_emb_val_of_index_zero t a ((idx_facts0 t).2.2.2.1 a) j))⟩

theorem flushed0_3_eq (c : Dev nD) (t : Fin cfg0.N) :
    (dat0 V c).flushed 3 t = ((cfg0.win 3).blk t).view.read (Elt Ideal)
      (Cert.Net.nodeProj (V c main_arg0) (V c main_arg4) (V c main_arg5)) := by
  simp (disch := decide) only [Pipeline.Dat.flushed, after0_3, out0_3, View.canon_unit_zero, View.ld_unit_zero]
  funext j
  obtain ⟨r, q, rfl⟩ : ∃ (r : Fin 10000) (q : Fin 32), j = ix2 r q := ⟨j 0, j 1, eq_ix2 j⟩
  show k0_pay1 (F := Ideal) _ _ _ (ix2 r q) = Cert.Net.nodeProj _ _ _ (((cfg0.win 3).blk t).view.emb (ix2 r q))
  rw [emb0_3, nodeProj_apply, pay0_apply, (iblk0_whole V c t).1, (iblk0_whole V c t).2]
  simp only [iblk0_0]

/-- Row `n` of the array lies in the block of point `n / 10000`, at row `n % 10000`. -/
theorem covered0_3 (i : S100000x32.Idx) :
    ∃ t : Fin cfg0.N, (cfg0.win 3).flush t = true ∧ i ∈ ((cfg0.win 3).blk t).view.set := by
  have h : (i 0).val < 100000 := (i 0).isLt
  have ht : (i 0).val / 10000 < cfg0.N := by rw [show cfg0.N = 10 from N_0]; omega
  have hr : (i 0).val % 10000 < 10000 := Nat.mod_lt _ (by decide)
  have e : ix2 (row0 ⟨_, ht⟩ ⟨_, hr⟩) (i 1) = i := Shape.idx_ext₂ (Nat.div_add_mod' (i 0).val 10000) rfl
  exact ⟨⟨_, ht⟩, flush0_3 _, Finset.mem_map.mpr ⟨_, Finset.mem_univ _, (emb0_3 ⟨_, ht⟩ ⟨_, hr⟩ (i 1)).trans e⟩⟩

theorem arr0_3 (c : Dev nD) :
    (dat0 V c).arrAt 3 cfg0.N = Cert.Net.nodeProj (V c main_arg0) (V c main_arg4) (V c main_arg5) :=
  (dat0 V c).arrAt_eq_of_cover 3 _ (fun t _ => flushed0_3_eq V c t) covered0_3

end Cert.KernelIdeal.Hand
-- ==== Proof.KI.V1.lean ====
import proofs.«417359_j61564061221146_2_alg».proof.Proof.KI.R1
import proofs.«417359_j61564061221146_2_alg».proof.Proof.Net.Spec
import proofs.«417359_j61564061221146_2_alg».proof.Proof.Gen.ReferenceIdeal
import Idealize.ShloMosaic.Lib.ValueLayout
import Idealize.ShloMosaic.Lib.StackMember

namespace Cert.KernelIdeal.Hand

open Cert.KernelIdeal.Gen
open Idealize.ShloMosaic Idealize.ShloMosaic.TcCoe Idealize.ShloMosaic.ValueIdx

/-- Narrowing is the identity on the extended reals, the product is added to zero, the bias lies along every row. -/
private theorem pay1_apply (a w b h) (p : Fin 12800) (q : Fin 32) :
    k1_pay1 (F := Ideal) a w b h (ix2 p q)
      = max (h (ix2 p q) + ((∑ k : Fin 3, a (ix2 p k) * w (ix2 k q)) + b (ix1 q))) 0 := by
  unfold k1_pay1
  rw [maximumf_apply, addf_apply, addf_apply, shapeCast_self, matmul_zero_eq_dotGeneral,
    show dot_S12800x3_S3x32_S12800x32_1_0_0_1_n_n = DotDims.plain 12800 3 32 from rfl,
    StackMember.dotGeneral_plain_apply, broadcastTo_1b_ab_apply, shapeCast_a_1a_apply]
  exact congrArg (max _) Ideal.ofBits_zero_f32

/-- The reference's message at edge `r`, column `q`, in the same form. -/
private theorem msg_apply (h ea ew eb) (r : Fin 3200000) (q : Fin 32) :
    Cert.Net.msgOf h (Cert.Net.edgeProj ea ew eb) (ix2 r q)
      = max (h (ix2 r q) + ((∑ k : Fin 3, ea (ix2 r k) * ew (ix2 k q)) + eb (ix1 q))) 0 := by
  unfold Cert.Net.msgOf Cert.Net.edgeProj
  rw [maximumf_apply, addf_apply, addf_apply,
    show Cert.ReferenceIdeal.dot_S3200000x3_S3x32_S3200000x32_1_0_0_1_n_n = DotDims.plain 3200000 3 32 from rfl,
    StackMember.dotGeneral_plain_apply, broadcastInDim_oneRow_apply,
    broadcastInDim_apply ![1] _ eb (ix2 (0 : Fin 1) q) (ix1 q) fun a => match a with | ⟨0, _⟩ => rfl]
  exact congrArg (max _) Ideal.ofBits_zero_f32

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ (∀ a, win1_2.index t a = 0) ∧ (∀ a, win1_3.index t a = 0)
    ∧ win1_4.index t (0 : Fin 2) = t.val ∧ win1_4.index t (1 : Fin 2) = 0 :=
  (by decide +kernel : ∀ t : Fin grid1.N, _)

/-- Row `p` of the block of point `t` is row `12800 t + p` of the array. -/
abbrev row1 (t : Fin cfg1.N) (p : Fin 12800) : Fin 3200000 :=
  ⟨t.val * 12800 + p.val, by have : t.val < 250 := N_1 ▸ t.isLt; have := p.isLt; omega⟩

theorem iblk1_0 (c : Dev nD) (t : Fin cfg1.N) (p : Fin 12800) (q : Fin 32) :
    iblk1 V c 0 t (ix2 p q) = V c main_v5 (ix2 (row1 t p) q) :=
  congrArg (V c main_v5) <| Shape.idx_ext₂ (x := ((cfg1.win 0).blk t).view.emb (ix2 p q))
    ((win1_0.rect_emb_val t (ix2 p q) (0 : Fin 2)).trans (congrArg (· * 12800 + p.val) (idx_facts1 t).1))
    (win1_0.rect_emb_val_of_index_zero t (1 : Fin 2) (idx_facts1 t).2.1 (ix2 p q))

theorem iblk1_1 (c : Dev nD) (t : Fin cfg1.N) (p : Fin 12800) (k : Fin 3) :
    iblk1 V c 1 t (ix2 p k) = V c main_arg2 (ix2 (row1 t p) k) :=
  congrArg (V c main_arg2) <| Shape.idx_ext₂ (x := ((cfg1.win 1).blk t).view.emb (ix2 p k))
    ((win1_1.rect_emb_val t (ix2 p k) (0 : Fin 2)).trans (congrArg (· * 12800 + p.val) (idx_facts1 t).2.2.1))
    (win1_1.rect_emb_val_of_index_zero t (1 : Fin 2) (idx_facts1 t).2.2.2.1 (ix2 p k))

theorem emb1_4 (t : Fin cfg1.N) (p : Fin 12800) (q : Fin 32) :
    ((cfg1.win 4).blk t).view.emb (ix2 p q) = ix2 (row1 t p) q :=
  Shape.idx_ext₂ ((win1_4.rect_emb_val t (ix2 p q) (0 : Fin 2)).trans (congrArg (· * 12800 + p.val) (idx_facts1 t).2.2.2.2.2.2.1))
    (win1_4.rect_emb_val_of_index_zero t (1 : Fin 2) (idx_facts1 t).2.2.2.2.2.2.2 (ix2 p q))

theorem iblk1_whole (c : Dev nD) (t : Fin cfg1.N) : iblk1 V c 2 t = V c main_arg6 ∧ iblk1 V c 3 t = V c main_arg7 :=
  ⟨funext fun j => congrArg (V c main_arg6) (funext fun a => Fin.ext (win1_2.rect_emb_val_of_index_zero t a ((idx_facts1 t).2.2.2.2.1 a) j)),
    funext fun j => congrArg (V c main_arg7) (funext fun a => Fin.ext (win1_3.rect_emb_val_of_index_zero t a ((idx_facts1 t).2.2.2.2.2.1 a) j))⟩

theorem flushed1_4 (c : Dev nD) (t : Fin cfg1.N) :
    (dat1 V c).flushed 4 t = ((cfg1.win 4).blk t).view.read (Elt Ideal)
      (Cert.Net.msgOf (V c main_v5) (Cert.Net.edgeProj (V c main_arg2) (V c main_arg6) (V c main_arg7))) := by
  simp (disch := decide) only [Pipeline.Dat.flushed, after1_4, out1_4, View.canon_unit_zero, View.ld_unit_zero]
  funext j
  obtain ⟨p, q, rfl⟩ : ∃ (p : Fin 12800) (q : Fin 32), j = ix2 p q := ⟨j 0, j 1, eq_ix2 j⟩
  show k1_pay1 (F := Ideal) _ _ _ _ (ix2 p q) = Cert.Net.msgOf _ _ (((cfg1.win 4).blk t).view.emb (ix2 p q))
  rw [emb1_4, msg_apply, pay1_apply, (iblk1_whole V c t).1, (iblk1_whole V c t).2, iblk1_0]
  simp only [iblk1_1]

/-- Row `n` of the array lies in the block of point `n / 12800`, at row `n % 12800`. -/
theorem covered1_4 (i : S3200000x32.Idx) :
    ∃ t : Fin cfg1.N, (cfg1.win 4).flush t = true ∧ i ∈ ((cfg1.win 4).blk t).view.set := by
  have h : (i 0).val < 3200000 := (i 0).isLt
  have ht : (i 0).val / 12800 < cfg1.N := by rw [show cfg1.N = 250 from N_1]; omega
  have hr : (i 0).val % 12800 < 12800 := Nat.mod_lt _ (by decide)
  have e : ix2 (row1 ⟨_, ht⟩ ⟨_, hr⟩) (i 1) = i := Shape.idx_ext₂ (Nat.div_add_mod' (i 0).val 12800) rfl
  exact ⟨⟨_, ht⟩, flush1_4 _, Finset.mem_map.mpr ⟨_, Finset.mem_univ _, (emb1_4 ⟨_, ht⟩ ⟨_, hr⟩ (i 1)).trans e⟩⟩

theorem final1 (c : Dev nD) :
    (dat1 V c).arrAt 4 cfg1.N
      = Cert.Net.msgOf (V c main_v5) (Cert.Net.edgeProj (V c main_arg2) (V c main_arg6) (V c main_arg7)) :=
  (dat1 V c).arrAt_eq_of_cover 4 _ (fun t _ => flushed1_4 V c t) covered1_4

end Cert.KernelIdeal.Hand
-- ==== Proof.KI.V2a.lean ====
import proofs.«417359_j61564061221146_2_alg».proof.Proof.Gen.KernelIdeal.Skeleton
import Idealize.ShloMosaic.Lib.ValueLayout
import Idealize.ShloMosaic.Lib.StackMember

noncomputable section

open scoped BigOperators
open Idealize.ShloMosaic Idealize.ShloMosaic.ValueIdx

namespace Cert.KernelIdeal.HandValue

/-- A matrix product into the zero accumulator is, entry by entry, the sum over the shared axis of row times column. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  ((Ideal.matmul_constant_zero_apply _ prec A B _).trans (Ideal.dotGeneral_apply _ prec .single A B _).symm).trans
    (StackMember.dotGeneral_plain_apply prec A B a b)

/-- Column `q` of one node's update, from the node's feature row `hr` and received row `ar`. -/
def zEntry (hr ar : Fin 32 → EReal) (w1 : Vec Ideal S32x75 .f32) (b1 : Vec Ideal S75 .f32) (w2 : Vec Ideal S75x32 .f32)
    (b2 : Vec Ideal S32 .f32) (q : Fin 32) : EReal :=
  (∑ k : Fin 75, max ((∑ m : Fin 32, (hr m + ar m) * w1 (ix2 m k)) + b1 (ix1 k)) 0 * w2 (ix2 k q)) + b2 (ix1 q)

theorem bias_rows_apply {r n : Nat} (b : (⟨1, ![n]⟩ : Shape).Idx → EReal) (hc : (⟨1, ![n]⟩ : Shape).ShapeCasts ⟨2, ![1, n]⟩)
    (hb : (⟨2, ![1, n]⟩ : Shape).Broadcasts ⟨2, ![r, n]⟩) (p : Fin r) (q : Fin n) :
    broadcastTo ⟨2, ![r, n]⟩ (shapeCast ⟨2, ![1, n]⟩ b hc) hb (ix2 p q) = b (ix1 q) :=
  (broadcastTo_1b_ab_apply _ hb p q).trans (shapeCast_a_1a_apply b hc 0 q)

theorem zPay_apply (h a : Vec Ideal S10000x32 .f32) (w1 : Vec Ideal S32x75 .f32) (b1 : Vec Ideal S75 .f32)
    (w2 : Vec Ideal S75x32 .f32) (b2 : Vec Ideal S32 .f32) (p : Fin 10000) (q : Fin 32) :
    Gen.k2_pay4 h a w1 b1 w2 b2 (ix2 p q)
      = zEntry (fun m => h (ix2 p m)) (fun m => a (ix2 p m)) w1 b1 w2 b2 q := by
  unfold Gen.k2_pay4 zEntry
  simp only [shapeCast_self]
  refine (addf_apply _ _ _).trans (congrArg₂ (· + ·) ?_ (bias_rows_apply b2 _ _ p q))
  refine (matmul_plain_apply none _ _ p q).trans (Finset.sum_congr rfl fun k _ => congrArg₂ (· * ·) ?_ rfl)
  show max _ _ = max _ _
  exact congrArg₂ max (congrArg₂ (· + ·) (matmul_plain_apply none _ _ p k) (bias_rows_apply b1 _ _ p k)) Ideal.ofBits_zero_f32

/-- Adding to `s` the reduction of `x` over its rows adds, column by column, the sum of the rows of `x`. -/
theorem add_colSum_apply (x : FVec Ideal S10000x32 .f32) (s : FVec Ideal S32 .f32) (q : Fin 32) :
    addf (F := Ideal) (φ := .f32) s (multiReduction .add [0] S32 x 0x00000000#32 Gen.reduces_S10000x32_S32 (.inl rfl) rfl) (ix1 q)
      = s (ix1 q) + ∑ p : Fin 10000, x (ix2 p q) := by
  refine (addf_apply _ _ _).trans (congrArg (s (ix1 q) + ·) ?_)
  refine (Ideal.multiReduction_add_single x _ Gen.reduces_S10000x32_S32 (.inl rfl) rfl (ix1 q)).trans ?_
  refine Finset.sum_congr rfl fun p _ => congrArg x (funext fun a => Fin.ext ?_)
  match a with
  | ⟨0, _⟩ => rfl
  | ⟨1, _⟩ => rfl

theorem sumPay_apply (h a : Vec Ideal S10000x32 .f32) (w1 : Vec Ideal S32x75 .f32) (b1 : Vec Ideal S75 .f32)
    (w2 : Vec Ideal S75x32 .f32) (b2 : Vec Ideal S32 .f32) (s : Vec Ideal S32 .f32) (q : Fin 32) :
    Gen.k2_pay5 h a w1 b1 w2 b2 s (ix1 q) = s (ix1 q) + ∑ p : Fin 10000, Gen.k2_pay4 h a w1 b1 w2 b2 (ix2 p q) := by
  unfold Gen.k2_pay5
  simp only [shapeCast_self]
  exact add_colSum_apply _ s q

theorem sqPay_apply (z : Vec Ideal S10000x32 .f32) (s : Vec Ideal S32 .f32) (q : Fin 32) :
    Gen.k2_pay1 z s (ix1 q) = s (ix1 q) + ∑ p : Fin 10000, z (ix2 p q) * z (ix2 p q) := by
  unfold Gen.k2_pay1
  simp only [shapeCast_self]
  exact add_colSum_apply (mulf z z) s q

theorem zeroPay_apply (j : S32.Idx) : (Gen.k2_pay2 (F := Ideal)) j = 0 := by
  unfold Gen.k2_pay2
  simp only [shapeCast_self]
  exact Ideal.ofBits_zero_f32

/-- Summing over all `a * b` rows is summing block by block. -/
theorem sum_rows_blocks {M : Type*} [AddCommMonoid M] (a b : Nat) (f : Fin (a * b) → M) :
    ∑ r : Fin (a * b), f r = ∑ t : Fin a, ∑ p : Fin b, f ⟨b * t.val + p.val, (Nat.add_lt_add_left p.isLt _).trans_le
      ((Nat.mul_succ b t).symm.trans_le ((Nat.mul_le_mul_left b t.isLt).trans_eq (Nat.mul_comm b a)))⟩ := by
  rw [← Fintype.sum_prod_type', ← Equiv.sum_comp finProdFinEquiv]
  refine Finset.sum_congr rfl fun x _ => congrArg f (Fin.ext ?_)
  simp [finProdFinEquiv]
  ring

end Cert.KernelIdeal.HandValue
-- ==== Proof.KI.V2b.lean ====
import proofs.«417359_j61564061221146_2_alg».proof.Proof.KI.V2a
import proofs.«417359_j61564061221146_2_alg».proof.Proof.Net.Spec

noncomputable section

open scoped BigOperators
open Idealize.ShloMosaic Idealize.ShloMosaic.ValueIdx

namespace Cert.KernelIdeal.HandValue

variable [Cert.ReferenceIdeal.Facts]

/-- A bias vector repeated down the rows reads, at `(p, q)`, its entry `q`. -/
theorem bias_rows_host_apply {r n : Nat} (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![r, n]⟩ ![0, 1]) (hn : n ≠ 1) (p : Fin r) (q : Fin n) :
    broadcastInDim ⟨2, ![r, n]⟩ ![0, 1] h2 (broadcastInDim ⟨2, ![1, n]⟩ ![1] h1 b) (ix2 p q) = b (ix1 q) := by
  rw [broadcastInDim_apply _ h2 _ (ix2 p q) (ix2 0 q) (by
    intro a
    match a with
    | ⟨0, _⟩ => simp
    | ⟨1, _⟩ => simp [hn]; rfl)]
  rw [broadcastInDim_apply _ h1 _ (ix2 0 q) (ix1 q) (by
    intro a
    match a with
    | ⟨0, _⟩ => simp [hn]; rfl)]

theorem zero_host_apply {t : Shape} (h : (⟨0, ![]⟩ : Shape).BroadcastsInDim t ![]) (j : t.Idx) :
    broadcastInDim t ![] h (constant (F := Ideal) ⟨0, ![]⟩ .f32 0x00000000#32) j = 0 := by
  rw [broadcastInDim_apply _ h _ j ix0 (fun a => a.elim0)]
  exact Ideal.ofBits_zero_f32

theorem convZ_apply (H A : Cert.Net.TF Cert.ReferenceIdeal.S100000x32) (w1 : Cert.Net.TF Cert.ReferenceIdeal.S32x75)
    (b1 : Cert.Net.TF Cert.ReferenceIdeal.S75) (w2 : Cert.Net.TF Cert.ReferenceIdeal.S75x32)
    (b2 : Cert.Net.TF Cert.ReferenceIdeal.S32) (r : Fin 100000) (q : Fin 32) :
    Cert.Net.convZ H A w1 b1 w2 b2 (ix2 r q)
      = zEntry (fun m => H (ix2 r m)) (fun m => A (ix2 r m)) w1 b1 w2 b2 q := by
  unfold Cert.Net.convZ zEntry
  show _ + _ = _ + _
  refine congrArg₂ (· + ·) ?_ (bias_rows_host_apply b2 _ _ (by decide) r q)
  refine (StackMember.dotGeneral_plain_apply none _ _ r q).trans (Finset.sum_congr rfl fun k _ => congrArg₂ (· * ·) ?_ rfl)
  show max _ _ = max _ _
  exact congrArg₂ max (congrArg₂ (· + ·) (StackMember.dotGeneral_plain_apply none _ _ r k)
    (bias_rows_host_apply b1 _ _ (by decide) r k)) (zero_host_apply _ _)

theorem colSum_apply (z : Cert.Net.TF Cert.ReferenceIdeal.S100000x32) (q : Fin 32) :
    Cert.Net.colSum z (ix1 q) = ∑ r : Fin 100000, z (ix2 r q) := by
  have hR : Cert.ReferenceIdeal.S100000x32.Reduces [0] Cert.ReferenceIdeal.S32 := by decide
  unfold Cert.Net.colSum Host.reduceAdd
  refine (Ideal.hostReduceAdd_single Cert.ReferenceIdeal.Facts₀.reducesTo_S100000x32_S32_d0 hR z _ (ix1 q)).trans ?_
  refine (congrArg (· + _) (show _ = (0 : EReal) from Ideal.ofBits_zero_f32)).trans ((zero_add _).trans ?_)
  refine Finset.sum_congr rfl fun p _ => congrArg z (funext fun a => Fin.ext ?_)
  match a with
  | ⟨0, _⟩ => rfl
  | ⟨1, _⟩ => rfl

/-- Column `q`'s sum over the rows of the first `n` blocks of ten thousand rows. -/
def rowsTo (f : Cert.Net.TF Cert.ReferenceIdeal.S100000x32) (q : Fin 32) (n : ℕ) : EReal :=
  ∑ t ∈ Finset.range n, if h : t < 10 then ∑ p : Fin 10000, f (ix2 ⟨10000 * t + p.val, by have := p.isLt; omega⟩ q) else 0

theorem rowsTo_last (f : Cert.Net.TF Cert.ReferenceIdeal.S100000x32) (q : Fin 32) :
    rowsTo f q 10 = Cert.Net.colSum f (ix1 q) := by
  unfold rowsTo
  rw [colSum_apply, Finset.sum_range, sum_rows_blocks 10 10000 (fun r => f (ix2 r q))]
  exact Finset.sum_congr rfl fun t _ => dif_pos t.isLt

end Cert.KernelIdeal.HandValue
-- ==== Proof.KI.V2.lean ====
import proofs.«417359_j61564061221146_2_alg».proof.Proof.KI.R2
import proofs.«417359_j61564061221146_2_alg».proof.Proof.KI.V2b

noncomputable section

open scoped BigOperators
open Idealize.ShloMosaic Idealize.ShloMosaic.ValueIdx

namespace Cert.KernelIdeal.HandValue

open Cert.KernelIdeal Cert.KernelIdeal.Gen Cert.KernelIdeal.Hand
open Idealize.ShloMosaic.TcCoe

variable [Cert.ReferenceIdeal.Facts]
variable (V : (c : Dev nD) → (b : Ref sig .tc) → Buf (Elt Ideal) ((c : Thread nD τ).loc b))

abbrev z2 (c : Dev nD) : Cert.Net.TF Cert.ReferenceIdeal.S100000x32 :=
  Cert.Net.convZ (V c main_v4) (V c main_v9) (V c main_v11) (V c main_v13) (V c main_v15) (V c main_v17)

abbrev zz2 (c : Dev nD) : Cert.Net.TF Cert.ReferenceIdeal.S100000x32 :=
  mulf (F := Ideal) (s := Cert.ReferenceIdeal.S100000x32) (φ := .f32) (z2 V c) (z2 V c)

theorem N2_eq : cfg2.N = 10 := N_2

theorem row2_lt (t : Fin cfg2.N) (p : Fin 10000) : 10000 * t.val + p.val < 100000 := by
  have := t.isLt; have := N2_eq; have := p.isLt; omega

theorem idx_row2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0 :=
  (by decide +kernel : ∀ t : Fin grid2.N, _)

theorem idx_rest2 : ∀ t : Fin cfg2.N, (∀ a, win2_2.index t a = 0) ∧ (∀ a, win2_3.index t a = 0) ∧ (∀ a, win2_4.index t a = 0)
    ∧ (∀ a, win2_5.index t a = 0) ∧ (∀ a, win2_7.index t a = 0) ∧ (∀ a, win2_8.index t a = 0) :=
  (by decide +kernel : ∀ t : Fin grid2.N, _)

theorem emb_rest2 (t : Fin cfg2.N) :
    (∀ j, ((cfg2.win 7).blk t).view.emb j = j) ∧ (∀ j, ((cfg2.win 8).blk t).view.emb j = j)
    ∧ (∀ j, ((cfg2.win 2).blk t).view.emb j = j) ∧ (∀ j, ((cfg2.win 3).blk t).view.emb j = j)
    ∧ (∀ j, ((cfg2.win 4).blk t).view.emb j = j) ∧ (∀ j, ((cfg2.win 5).blk t).view.emb j = j) := by
  obtain ⟨ka, kb, kc, kd, ke, kf⟩ := idx_rest2 t
  exact ⟨fun j => funext fun a => Fin.ext (win2_7.rect_emb_val_of_index_zero t a (ke a) j),
    fun j => funext fun a => Fin.ext (win2_8.rect_emb_val_of_index_zero t a (kf a) j),
    fun j => funext fun a => Fin.ext (win2_2.rect_emb_val_of_index_zero t a (ka a) j),
    fun j => funext fun a => Fin.ext (win2_3.rect_emb_val_of_index_zero t a (kb a) j),
    fun j => funext fun a => Fin.ext (win2_4.rect_emb_val_of_index_zero t a (kc a) j),
    fun j => funext fun a => Fin.ext (win2_5.rect_emb_val_of_index_zero t a (kd a) j)⟩

theorem emb_row2 (t : Fin cfg2.N) (p : Fin 10000) (m : Fin 32) :
    ((cfg2.win 0).blk t).view.emb (ix2 p m) = ix2 ⟨10000 * t.val + p.val, row2_lt t p⟩ m
    ∧ ((cfg2.win 1).blk t).view.emb (ix2 p m) = ix2 ⟨10000 * t.val + p.val, row2_lt t p⟩ m
    ∧ ((cfg2.win 6).blk t).view.emb (ix2 p m) = ix2 ⟨10000 * t.val + p.val, row2_lt t p⟩ m := by
  obtain ⟨e00, e01, e10, e11, e60, e61⟩ := idx_row2 t
  refine ⟨funext fun a => Fin.ext ?_, funext fun a => Fin.ext ?_, funext fun a => Fin.ext ?_⟩ <;> match a with
  | ⟨0, _⟩ => first
    | (show win2_0.index t (0 : Fin 2) * 10000 + 1 * p.val = 10000 * t.val + p.val; omega)
    | (show win2_1.index t (0 : Fin 2) * 10000 + 1 * p.val = 10000 * t.val + p.val; omega)
    | (show win2_6.index t (0 : Fin 2) * 10000 + 1 * p.val = 10000 * t.val + p.val; omega)
  | ⟨1, _⟩ => first
    | (show win2_0.index t (1 : Fin 2) * 32 + 1 * m.val = m.val; omega)
    | (show win2_1.index t (1 : Fin 2) * 32 + 1 * m.val = m.val; omega)
    | (show win2_6.index t (1 : Fin 2) * 32 + 1 * m.val = m.val; omega)

/-- A point's block of the update is the update of the whole arrays at the point's rows. -/
theorem zAt2_apply (c : Dev nD) (t : Fin cfg2.N) (p : Fin 10000) (q : Fin 32) :
    zAt2 V c t (ix2 p q) = z2 V c (ix2 ⟨10000 * t.val + p.val, row2_lt t p⟩ q) := by
  obtain ⟨-, -, ka, kb, kc, kd⟩ := emb_rest2 t
  refine (zPay_apply _ _ _ _ _ _ p q).trans (Eq.trans ?_ (convZ_apply _ _ _ _ _ _ _ q).symm)
  show zEntry (fun m => V c main_v4 (((cfg2.win 0).blk t).view.emb (ix2 p m)))
    (fun m => V c main_v9 (((cfg2.win 1).blk t).view.emb (ix2 p m)))
    (fun j => V c main_v11 (((cfg2.win 2).blk t).view.emb j)) (fun j => V c main_v13 (((cfg2.win 3).blk t).view.emb j))
    (fun j => V c main_v15 (((cfg2.win 4).blk t).view.emb j)) (fun j => V c main_v17 (((cfg2.win 5).blk t).view.emb j)) q = _
  simp only [ka, kb, kc, kd, (emb_row2 t p _).1, (emb_row2 t p _).2.1]

theorem arr2_6 (c : Dev nD) : (dat2 V c).arrAt 6 cfg2.N = z2 V c := by
  refine (dat2 V c).arrAt_eq_of_cover 6 _ (fun t _ => ?_) fun i => ?_
  · show (cfg2.win 6).cut (grid2.coords t) ((dat2 V c).after 6 t) = _
    rw [after2_6]
    funext j
    obtain ⟨p, q, rfl⟩ : ∃ (p : Fin 10000) (q : Fin 32), j = ix2 p q := ⟨j 0, j 1, eq_ix2 j⟩
    exact (zAt2_apply V c t p q).trans (congrArg (z2 V c) (emb_row2 t p q).2.2.symm)
  · have hi : (i 0).val < 100000 := (i 0).isLt
    have ht : (i 0).val / 10000 < cfg2.N := by rw [N2_eq]; omega
    exact ⟨⟨_, ht⟩, flush2_6 _, Finset.mem_map.mpr ⟨ix2 ⟨(i 0).val % 10000, Nat.mod_lt _ (by decide)⟩ (i 1), Finset.mem_univ _,
      (emb_row2 ⟨_, ht⟩ _ _).2.2.trans ((congrArg (ix2 · (i 1)) (Fin.ext (Nat.div_add_mod _ _))).trans (eq_ix2 i).symm)⟩⟩

/-- Each point adds to the two carried vectors the column sums of its z block and of the block's square. -/
theorem stepAt2_apply (c : Dev nD) (t : Fin cfg2.N) (s : Vec Ideal S32 .f32 × Vec Ideal S32 .f32) (q : Fin 32) :
    (stepAt2 V c t s).1 (ix1 q) = s.1 (ix1 q) + ∑ p : Fin 10000, z2 V c (ix2 ⟨10000 * t.val + p.val, row2_lt t p⟩ q)
    ∧ (stepAt2 V c t s).2 (ix1 q) = s.2 (ix1 q) + ∑ p : Fin 10000, zz2 V c (ix2 ⟨10000 * t.val + p.val, row2_lt t p⟩ q) := by
  constructor
  · refine (sumPay_apply _ _ _ _ _ _ _ q).trans (congrArg _ (Finset.sum_congr rfl fun p _ => zAt2_apply V c t p q))
  · refine (sqPay_apply _ _ q).trans (congrArg _ (Finset.sum_congr rfl fun p _ => ?_))
    exact congrArg (fun x => x * x) (zAt2_apply V c t p q)

theorem scrAt2_apply (c : Dev nD) (q : Fin 32) : ∀ (n : ℕ) (hn : n < cfg2.N),
    (scrAt2 V c n hn).1 (ix1 q) = rowsTo (z2 V c) q (n + 1) ∧ (scrAt2 V c n hn).2 (ix1 q) = rowsTo (zz2 V c) q (n + 1)
  | 0, hn => by
    rw [scrAt2_zero, (stepAt2_apply V c _ _ q).1, (stepAt2_apply V c _ _ q).2]
    unfold rowsTo
    rw [Finset.sum_range_one, Finset.sum_range_one, dif_pos (lt_of_lt_of_eq hn N2_eq), dif_pos (lt_of_lt_of_eq hn N2_eq)]
    exact ⟨(congrArg (· + _) (zeroPay_apply (ix1 q))).trans (zero_add _), (congrArg (· + _) (zeroPay_apply (ix1 q))).trans (zero_add _)⟩
  | n + 1, hn => by
    rw [scrAt2_succ, (stepAt2_apply V c _ _ q).1, (stepAt2_apply V c _ _ q).2, (scrAt2_apply c q n _).1, (scrAt2_apply c q n _).2]
    unfold rowsTo
    rw [Finset.sum_range_succ _ (n + 1), Finset.sum_range_succ _ (n + 1), dif_pos (lt_of_lt_of_eq hn N2_eq), dif_pos (lt_of_lt_of_eq hn N2_eq)]
    exact ⟨rfl, rfl⟩

theorem arr2_7 (c : Dev nD) : (dat2 V c).arrAt 7 cfg2.N = Cert.Net.colSum (z2 V c) := by
  have h9 : 9 < cfg2.N := by rw [N2_eq]; decide
  refine (dat2 V c).arrAt_eq_of_cover 7 _ (fun t hf => ?_) fun i => ⟨⟨9, h9⟩, (flush2_7 _).mpr rfl, ?_⟩
  · obtain ⟨tv, htv⟩ := t
    obtain rfl : tv = 9 := by have : tv % 10 = 9 := (flush2_7 ⟨tv, htv⟩).mp hf; have := lt_of_lt_of_eq htv N2_eq; omega
    show (cfg2.win 7).cut _ ((dat2 V c).after 7 _) = _
    rw [after2_7]
    funext j
    obtain ⟨q, rfl⟩ : ∃ q : Fin 32, j = ix1 q := ⟨j 0, eq_ix1 j⟩
    exact ((scrAt2_apply V c q 9 htv).1.trans (rowsTo_last _ q)).trans
      (congrArg (Cert.Net.colSum (z2 V c)) ((emb_rest2 ⟨9, htv⟩).1 (ix1 q)).symm)
  · have h := ((cfg2.win 7).blk ⟨9, h9⟩).view.emb_mem_set i
    rwa [(emb_rest2 ⟨9, h9⟩).1] at h

theorem arr2_8 (c : Dev nD) : (dat2 V c).arrAt 8 cfg2.N = Cert.Net.colSum (zz2 V c) := by
  have h9 : 9 < cfg2.N := by rw [N2_eq]; decide
  refine (dat2 V c).arrAt_eq_of_cover 8 _ (fun t hf => ?_) fun i => ⟨⟨9, h9⟩, (flush2_8 _).mpr rfl, ?_⟩
  · obtain ⟨tv, htv⟩ := t
    obtain rfl : tv = 9 := by have : tv % 10 = 9 := (flush2_8 ⟨tv, htv⟩).mp hf; have := lt_of_lt_of_eq htv N2_eq; omega
    show (cfg2.win 8).cut _ ((dat2 V c).after 8 _) = _
    rw [after2_8]
    funext j
    obtain ⟨q, rfl⟩ : ∃ q : Fin 32, j = ix1 q := ⟨j 0, eq_ix1 j⟩
    exact ((scrAt2_apply V c q 9 htv).2.trans (rowsTo_last _ q)).trans
      (congrArg (Cert.Net.colSum (zz2 V c)) ((emb_rest2 ⟨9, htv⟩).2.1 (ix1 q)).symm)
  · have h := ((cfg2.win 8).blk ⟨9, h9⟩).view.emb_mem_set i
    rwa [(emb_rest2 ⟨9, h9⟩).2.1] at h

end Cert.KernelIdeal.HandValue
-- ==== Proof.KI.V3.lean ====
import proofs.«417359_j61564061221146_2_alg».proof.Proof.KI.R3
import proofs.«417359_j61564061221146_2_alg».proof.Proof.Net.Norm
import Idealize.ShloMosaic.Lib.ValueLayout

namespace Cert.KernelIdeal.Hand

open Cert.KernelIdeal.Gen
open Idealize.ShloMosaic Idealize.ShloMosaic.TcCoe Idealize.ShloMosaic.ValueIdx

/-- The casts and the broadcast along the rows move nothing, so entry (r, q) only sees entry q of the two rows. -/
theorem pay3_apply (a b z) (r : Fin 10000) (q : Fin 32) :
    k3_pay1 (F := Ideal) a b z (ix2 r q) = max (z (ix2 r q) * a (ix1 q) + b (ix1 q)) (0 : EReal) := by
  unfold k3_pay1
  rw [maximumf_apply, addf_apply, mulf_apply, broadcastTo_1b_ab_apply, broadcastTo_1b_ab_apply,
    shapeCast_a_1a_apply, shapeCast_a_1a_apply, shapeCast_self, shapeCast_self, shapeCast_self]
  exact congrArg _ Ideal.ofBits_zero_f32

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ (∀ a, win3_1.index t a = 0) ∧ (∀ a, win3_2.index t a = 0)
    ∧ win3_3.index t (0 : Fin 2) = t.val ∧ win3_3.index t (1 : Fin 2) = 0 :=
  (by decide +kernel : ∀ t : Fin grid3.N, _)

/-- Row `r` of the block of point `t` is row `10000 t + r` of the array. -/
abbrev row3 (t : Fin cfg3.N) (r : Fin 10000) : Fin 100000 :=
  ⟨t.val * 10000 + r.val, by have : t.val < 10 := N_3 ▸ t.isLt; have := r.isLt; omega⟩

theorem emb3_0 (t : Fin cfg3.N) (r : Fin 10000) (q : Fin 32) :
    ((cfg3.win 0).blk t).view.emb (ix2 r q) = ix2 (row3 t r) q :=
  Shape.idx_ext₂ ((win3_0.rect_emb_val t (ix2 r q) (0 : Fin 2)).trans (congrArg (· * 10000 + r.val) (idx_facts3 t).1))
    (win3_0.rect_emb_val_of_index_zero t (1 : Fin 2) (idx_facts3 t).2.1 (ix2 r q))

theorem emb3_3 (t : Fin cfg3.N) (r : Fin 10000) (q : Fin 32) :
    ((cfg3.win 3).blk t).view.emb (ix2 r q) = ix2 (row3 t r) q :=
  Shape.idx_ext₂ ((win3_3.rect_emb_val t (ix2 r q) (0 : Fin 2)).trans (congrArg (· * 10000 + r.val) (idx_facts3 t).2.2.2.2.1))
    (win3_3.rect_emb_val_of_index_zero t (1 : Fin 2) (idx_facts3 t).2.2.2.2.2 (ix2 r q))

theorem iblk3_rows (c : Dev nD) (t : Fin cfg3.N) : iblk3 V c 1 t = V c main_v30 ∧ iblk3 V c 2 t = V c main_v34 :=
  ⟨funext fun j => congrArg (V c main_v30) (funext fun a => Fin.ext (win3_1.rect_emb_val_of_index_zero t a ((idx_facts3 t).2.2.1 a) j)),
    funext fun j => congrArg (V c main_v34) (funext fun a => Fin.ext (win3_2.rect_emb_val_of_index_zero t a ((idx_facts3 t).2.2.2.1 a) j))⟩

theorem flushed3_eq (c : Dev nD) (t : Fin cfg3.N) :
    (dat3 V c).flushed 3 t
      = ((cfg3.win 3).blk t).view.read (Elt Ideal) (Cert.Net.normOf (V c main_v18_0) (V c main_v30) (V c main_v34)) := by
  simp (disch := decide) only [Pipeline.Dat.flushed, after3_3, out3_3, View.canon_unit_zero, View.ld_unit_zero]
  funext j
  obtain ⟨r, q, rfl⟩ : ∃ (r : Fin 10000) (q : Fin 32), j = ix2 r q := ⟨j 0, j 1, eq_ix2 j⟩
  show k3_pay1 _ _ _ (ix2 r q) = Cert.Net.normOf _ _ _ (((cfg3.win 3).blk t).view.emb (ix2 r q))
  rw [emb3_3, Cert.Net.normOf_apply, pay3_apply, (iblk3_rows V c t).1, (iblk3_rows V c t).2]
  exact congrArg (fun x => max (x * _ + _) 0) (congrArg (V c main_v18_0) (emb3_0 t r q))

/-- Row `n` of the array lies in the block of point `n / 10000`, at row `n % 10000`. -/
theorem cover3 (i : S100000x32.Idx) :
    ∃ t : Fin cfg3.N, (cfg3.win 3).flush t = true ∧ i ∈ ((cfg3.win 3).blk t).view.set := by
  have h : (i 0).val < 100000 := (i 0).isLt
  have ht : (i 0).val / 10000 < cfg3.N := by rw [show cfg3.N = 10 from N_3]; omega
  have hr : (i 0).val % 10000 < 10000 := Nat.mod_lt _ (by decide)
  have e : ix2 (row3 ⟨_, ht⟩ ⟨_, hr⟩) (i 1) = i := Shape.idx_ext₂ (Nat.div_add_mod' (i 0).val 10000) rfl
  exact ⟨⟨_, ht⟩, flush3_3 _, Finset.mem_map.mpr ⟨_, Finset.mem_univ _, (emb3_3 ⟨_, ht⟩ ⟨_, hr⟩ (i 1)).trans e⟩⟩

theorem final3 (c : Dev nD) :
    (dat3 V c).arrAt 3 cfg3.N = Cert.Net.normOf (V c main_v18_0) (V c main_v30) (V c main_v34) :=
  (dat3 V c).arrAt_eq_of_cover 3 _ (fun t _ => flushed3_eq V c t) cover3

end Cert.KernelIdeal.Hand
-- ==== Proof.KI.V4.lean ====
import proofs.«417359_j61564061221146_2_alg».proof.Proof.KI.R4
import proofs.«417359_j61564061221146_2_alg».proof.Proof.Net.Spec
import proofs.«417359_j61564061221146_2_alg».proof.Proof.Gen.ReferenceIdeal
import Idealize.ShloMosaic.Lib.ValueLayout
import Idealize.ShloMosaic.Lib.StackMember

namespace Cert.KernelIdeal.Hand

open Cert.KernelIdeal.Gen
open Idealize.ShloMosaic Idealize.ShloMosaic.TcCoe Idealize.ShloMosaic.ValueIdx

/-- Narrowing is the identity on the extended reals, the product is added to zero, the bias lies along every row. -/
private theorem pay4_apply (a w b h) (p : Fin 12800) (q : Fin 32) :
    k4_pay1 (F := Ideal) a w b h (ix2 p q)
      = max (h (ix2 p q) + ((∑ k : Fin 3, a (ix2 p k) * w (ix2 k q)) + b (ix1 q))) 0 := by
  unfold k4_pay1
  rw [maximumf_apply, addf_apply, addf_apply, shapeCast_self, matmul_zero_eq_dotGeneral,
    show dot_S12800x3_S3x32_S12800x32_1_0_0_1_n_n = DotDims.plain 12800 3 32 from rfl,
    StackMember.dotGeneral_plain_apply, broadcastTo_1b_ab_apply, shapeCast_a_1a_apply]
  exact congrArg (max _) Ideal.ofBits_zero_f32

/-- The reference's message at edge `r`, column `q`, in the same form. -/
private theorem msg_apply (h ea ew eb) (r : Fin 3200000) (q : Fin 32) :
    Cert.Net.msgOf h (Cert.Net.edgeProj ea ew eb) (ix2 r q)
      = max (h (ix2 r q) + ((∑ k : Fin 3, ea (ix2 r k) * ew (ix2 k q)) + eb (ix1 q))) 0 := by
  unfold Cert.Net.msgOf Cert.Net.edgeProj
  rw [maximumf_apply, addf_apply, addf_apply,
    show Cert.ReferenceIdeal.dot_S3200000x3_S3x32_S3200000x32_1_0_0_1_n_n = DotDims.plain 3200000 3 32 from rfl,
    StackMember.dotGeneral_plain_apply, broadcastInDim_oneRow_apply,
    broadcastInDim_apply ![1] _ eb (ix2 (0 : Fin 1) q) (ix1 q) fun a => match a with | ⟨0, _⟩ => rfl]
  exact congrArg (max _) Ideal.ofBits_zero_f32

variable (V : (c : Dev nD) → (b : Ref sig .tc) → Buf (Elt Ideal) ((c : Thread nD τ).loc b))

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ (∀ a, win4_2.index t a = 0) ∧ (∀ a, win4_3.index t a = 0)
    ∧ win4_4.index t (0 : Fin 2) = t.val ∧ win4_4.index t (1 : Fin 2) = 0 :=
  (by decide +kernel : ∀ t : Fin grid4.N, _)

/-- Row `p` of the block of point `t` is row `12800 t + p` of the array. -/
abbrev row4 (t : Fin cfg4.N) (p : Fin 12800) : Fin 3200000 :=
  ⟨t.val * 12800 + p.val, by have : t.val < 250 := N_4 ▸ t.isLt; have := p.isLt; omega⟩

theorem iblk4_0 (c : Dev nD) (t : Fin cfg4.N) (p : Fin 12800) (q : Fin 32) :
    iblk4 V c 0 t (ix2 p q) = V c main_v36 (ix2 (row4 t p) q) :=
  congrArg (V c main_v36) <| Shape.idx_ext₂ (x := ((cfg4.win 0).blk t).view.emb (ix2 p q))
    ((win4_0.rect_emb_val t (ix2 p q) (0 : Fin 2)).trans (congrArg (· * 12800 + p.val) (idx_facts4 t).1))
    (win4_0.rect_emb_val_of_index_zero t (1 : Fin 2) (idx_facts4 t).2.1 (ix2 p q))

theorem iblk4_1 (c : Dev nD) (t : Fin cfg4.N) (p : Fin 12800) (k : Fin 3) :
    iblk4 V c 1 t (ix2 p k) = V c main_arg2 (ix2 (row4 t p) k) :=
  congrArg (V c main_arg2) <| Shape.idx_ext₂ (x := ((cfg4.win 1).blk t).view.emb (ix2 p k))
    ((win4_1.rect_emb_val t (ix2 p k) (0 : Fin 2)).trans (congrArg (· * 12800 + p.val) (idx_facts4 t).2.2.1))
    (win4_1.rect_emb_val_of_index_zero t (1 : Fin 2) (idx_facts4 t).2.2.2.1 (ix2 p k))

theorem emb4_4 (t : Fin cfg4.N) (p : Fin 12800) (q : Fin 32) :
    ((cfg4.win 4).blk t).view.emb (ix2 p q) = ix2 (row4 t p) q :=
  Shape.idx_ext₂ ((win4_4.rect_emb_val t (ix2 p q) (0 : Fin 2)).trans (congrArg (· * 12800 + p.val) (idx_facts4 t).2.2.2.2.2.2.1))
    (win4_4.rect_emb_val_of_index_zero t (1 : Fin 2) (idx_facts4 t).2.2.2.2.2.2.2 (ix2 p q))

theorem iblk4_whole (c : Dev nD) (t : Fin cfg4.N) : iblk4 V c 2 t = V c main_arg6 ∧ iblk4 V c 3 t = V c main_arg7 :=
  ⟨funext fun j => congrArg (V c main_arg6) (funext fun a => Fin.ext (win4_2.rect_emb_val_of_index_zero t a ((idx_facts4 t).2.2.2.2.1 a) j)),
    funext fun j => congrArg (V c main_arg7) (funext fun a => Fin.ext (win4_3.rect_emb_val_of_index_zero t a ((idx_facts4 t).2.2.2.2.2.1 a) j))⟩

theorem flushed4_4 (c : Dev nD) (t : Fin cfg4.N) :
    (dat4 V c).flushed 4 t = ((cfg4.win 4).blk t).view.read (Elt Ideal)
      (Cert.Net.msgOf (V c main_v36) (Cert.Net.edgeProj (V c main_arg2) (V c main_arg6) (V c main_arg7))) := by
  simp (disch := decide) only [Pipeline.Dat.flushed, after4_4, out4_4, View.canon_unit_zero, View.ld_unit_zero]
  funext j
  obtain ⟨p, q, rfl⟩ : ∃ (p : Fin 12800) (q : Fin 32), j = ix2 p q := ⟨j 0, j 1, eq_ix2 j⟩
  show k4_pay1 (F := Ideal) _ _ _ _ (ix2 p q) = Cert.Net.msgOf _ _ (((cfg4.win 4).blk t).view.emb (ix2 p q))
  rw [emb4_4, msg_apply, pay4_apply, (iblk4_whole V c t).1, (iblk4_whole V c t).2, iblk4_0]
  simp only [iblk4_1]

/-- Row `n` of the array lies in the block of point `n / 12800`, at row `n % 12800`. -/
theorem covered4_4 (i : S3200000x32.Idx) :
    ∃ t : Fin cfg4.N, (cfg4.win 4).flush t = true ∧ i ∈ ((cfg4.win 4).blk t).view.set := by
  have h : (i 0).val < 3200000 := (i 0).isLt
  have ht : (i 0).val / 12800 < cfg4.N := by rw [show cfg4.N = 250 from N_4]; omega
  have hr : (i 0).val % 12800 < 12800 := Nat.mod_lt _ (by decide)
  have e : ix2 (row4 ⟨_, ht⟩ ⟨_, hr⟩) (i 1) = i := Shape.idx_ext₂ (Nat.div_add_mod' (i 0).val 12800) rfl
  exact ⟨⟨_, ht⟩, flush4_4 _, Finset.mem_map.mpr ⟨_, Finset.mem_univ _, (emb4_4 ⟨_, ht⟩ ⟨_, hr⟩ (i 1)).trans e⟩⟩

theorem final4 (c : Dev nD) :
    (dat4 V c).arrAt 4 cfg4.N
      = Cert.Net.msgOf (V c main_v36) (Cert.Net.edgeProj (V c main_arg2) (V c main_arg6) (V c main_arg7)) :=
  (dat4 V c).arrAt_eq_of_cover 4 _ (fun t _ => flushed4_4 V c t) covered4_4

end Cert.KernelIdeal.Hand
-- ==== Proof.KI.V5.lean ====
import proofs.«417359_j61564061221146_2_alg».proof.Proof.KI.R5
import proofs.«417359_j61564061221146_2_alg».proof.Proof.KI.V2b

noncomputable section

open scoped BigOperators
open Idealize.ShloMosaic Idealize.ShloMosaic.ValueIdx

namespace Cert.KernelIdeal.HandValue

open Cert.KernelIdeal Cert.KernelIdeal.Gen Cert.KernelIdeal.Hand
open Idealize.ShloMosaic.TcCoe

variable [Cert.ReferenceIdeal.Facts]
variable (V : (c : Dev nD) → (b : Ref sig .tc) → Buf (Elt Ideal) ((c : Thread nD τ).loc b))

abbrev z5 (c : Dev nD) : Cert.Net.TF Cert.ReferenceIdeal.S100000x32 :=
  Cert.Net.convZ (V c main_v35) (V c main_v40) (V c main_v42) (V c main_v44) (V c main_v46) (V c main_v48)

abbrev zz5 (c : Dev nD) : Cert.Net.TF Cert.ReferenceIdeal.S100000x32 :=
  mulf (F := Ideal) (s := Cert.ReferenceIdeal.S100000x32) (φ := .f32) (z5 V c) (z5 V c)

theorem N5_eq : cfg5.N = 10 := N_5

theorem row5_lt (t : Fin cfg5.N) (p : Fin 10000) : 10000 * t.val + p.val < 100000 := by
  have := t.isLt; have := N5_eq; have := p.isLt; omega

theorem idx_row5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_6.index t (0 : Fin 2) = t.val ∧ win5_6.index t (1 : Fin 2) = 0 :=
  (by decide +kernel : ∀ t : Fin grid5.N, _)

theorem idx_rest5 : ∀ t : Fin cfg5.N, (∀ a, win5_2.index t a = 0) ∧ (∀ a, win5_3.index t a = 0) ∧ (∀ a, win5_4.index t a = 0)
    ∧ (∀ a, win5_5.index t a = 0) ∧ (∀ a, win5_7.index t a = 0) ∧ (∀ a, win5_8.index t a = 0) :=
  (by decide +kernel : ∀ t : Fin grid5.N, _)

theorem emb_rest5 (t : Fin cfg5.N) :
    (∀ j, ((cfg5.win 7).blk t).view.emb j = j) ∧ (∀ j, ((cfg5.win 8).blk t).view.emb j = j)
    ∧ (∀ j, ((cfg5.win 2).blk t).view.emb j = j) ∧ (∀ j, ((cfg5.win 3).blk t).view.emb j = j)
    ∧ (∀ j, ((cfg5.win 4).blk t).view.emb j = j) ∧ (∀ j, ((cfg5.win 5).blk t).view.emb j = j) := by
  obtain ⟨ka, kb, kc, kd, ke, kf⟩ := idx_rest5 t
  exact ⟨fun j => funext fun a => Fin.ext (win5_7.rect_emb_val_of_index_zero t a (ke a) j),
    fun j => funext fun a => Fin.ext (win5_8.rect_emb_val_of_index_zero t a (kf a) j),
    fun j => funext fun a => Fin.ext (win5_2.rect_emb_val_of_index_zero t a (ka a) j),
    fun j => funext fun a => Fin.ext (win5_3.rect_emb_val_of_index_zero t a (kb a) j),
    fun j => funext fun a => Fin.ext (win5_4.rect_emb_val_of_index_zero t a (kc a) j),
    fun j => funext fun a => Fin.ext (win5_5.rect_emb_val_of_index_zero t a (kd a) j)⟩

theorem emb_row5 (t : Fin cfg5.N) (p : Fin 10000) (m : Fin 32) :
    ((cfg5.win 0).blk t).view.emb (ix2 p m) = ix2 ⟨10000 * t.val + p.val, row5_lt t p⟩ m
    ∧ ((cfg5.win 1).blk t).view.emb (ix2 p m) = ix2 ⟨10000 * t.val + p.val, row5_lt t p⟩ m
    ∧ ((cfg5.win 6).blk t).view.emb (ix2 p m) = ix2 ⟨10000 * t.val + p.val, row5_lt t p⟩ m := by
  obtain ⟨e00, e01, e10, e11, e60, e61⟩ := idx_row5 t
  refine ⟨funext fun a => Fin.ext ?_, funext fun a => Fin.ext ?_, funext fun a => Fin.ext ?_⟩ <;> match a with
  | ⟨0, _⟩ => first
    | (show win5_0.index t (0 : Fin 2) * 10000 + 1 * p.val = 10000 * t.val + p.val; omega)
    | (show win5_1.index t (0 : Fin 2) * 10000 + 1 * p.val = 10000 * t.val + p.val; omega)
    | (show win5_6.index t (0 : Fin 2) * 10000 + 1 * p.val = 10000 * t.val + p.val; omega)
  | ⟨1, _⟩ => first
    | (show win5_0.index t (1 : Fin 2) * 32 + 1 * m.val = m.val; omega)
    | (show win5_1.index t (1 : Fin 2) * 32 + 1 * m.val = m.val; omega)
    | (show win5_6.index t (1 : Fin 2) * 32 + 1 * m.val = m.val; omega)

/-- A point's block of the update is the update of the whole arrays at the point's rows. -/
theorem zAt5_apply (c : Dev nD) (t : Fin cfg5.N) (p : Fin 10000) (q : Fin 32) :
    zAt5 V c t (ix2 p q) = z5 V c (ix2 ⟨10000 * t.val + p.val, row5_lt t p⟩ q) := by
  obtain ⟨-, -, ka, kb, kc, kd⟩ := emb_rest5 t
  refine (zPay_apply _ _ _ _ _ _ p q).trans (Eq.trans ?_ (convZ_apply _ _ _ _ _ _ _ q).symm)
  show zEntry (fun m => V c main_v35 (((cfg5.win 0).blk t).view.emb (ix2 p m)))
    (fun m => V c main_v40 (((cfg5.win 1).blk t).view.emb (ix2 p m)))
    (fun j => V c main_v42 (((cfg5.win 2).blk t).view.emb j)) (fun j => V c main_v44 (((cfg5.win 3).blk t).view.emb j))
    (fun j => V c main_v46 (((cfg5.win 4).blk t).view.emb j)) (fun j => V c main_v48 (((cfg5.win 5).blk t).view.emb j)) q = _
  simp only [ka, kb, kc, kd, (emb_row5 t p _).1, (emb_row5 t p _).2.1]

theorem arr5_6 (c : Dev nD) : (dat5 V c).arrAt 6 cfg5.N = z5 V c := by
  refine (dat5 V c).arrAt_eq_of_cover 6 _ (fun t _ => ?_) fun i => ?_
  · show (cfg5.win 6).cut (grid5.coords t) ((dat5 V c).after 6 t) = _
    rw [after5_6]
    funext j
    obtain ⟨p, q, rfl⟩ : ∃ (p : Fin 10000) (q : Fin 32), j = ix2 p q := ⟨j 0, j 1, eq_ix2 j⟩
    exact (zAt5_apply V c t p q).trans (congrArg (z5 V c) (emb_row5 t p q).2.2.symm)
  · have hi : (i 0).val < 100000 := (i 0).isLt
    have ht : (i 0).val / 10000 < cfg5.N := by rw [N5_eq]; omega
    exact ⟨⟨_, ht⟩, flush5_6 _, Finset.mem_map.mpr ⟨ix2 ⟨(i 0).val % 10000, Nat.mod_lt _ (by decide)⟩ (i 1), Finset.mem_univ _,
      (emb_row5 ⟨_, ht⟩ _ _).2.2.trans ((congrArg (ix2 · (i 1)) (Fin.ext (Nat.div_add_mod _ _))).trans (eq_ix2 i).symm)⟩⟩

/-- Each point adds to the two carried vectors the column sums of its z block and of the block's square. -/
theorem stepAt5_apply (c : Dev nD) (t : Fin cfg5.N) (s : Vec Ideal S32 .f32 × Vec Ideal S32 .f32) (q : Fin 32) :
    (stepAt5 V c t s).1 (ix1 q) = s.1 (ix1 q) + ∑ p : Fin 10000, z5 V c (ix2 ⟨10000 * t.val + p.val, row5_lt t p⟩ q)
    ∧ (stepAt5 V c t s).2 (ix1 q) = s.2 (ix1 q) + ∑ p : Fin 10000, zz5 V c (ix2 ⟨10000 * t.val + p.val, row5_lt t p⟩ q) := by
  constructor
  · refine (sumPay_apply _ _ _ _ _ _ _ q).trans (congrArg _ (Finset.sum_congr rfl fun p _ => zAt5_apply V c t p q))
  · refine (sqPay_apply _ _ q).trans (congrArg _ (Finset.sum_congr rfl fun p _ => ?_))
    exact congrArg (fun x => x * x) (zAt5_apply V c t p q)

theorem scrAt5_apply (c : Dev nD) (q : Fin 32) : ∀ (n : ℕ) (hn : n < cfg5.N),
    (scrAt5 V c n hn).1 (ix1 q) = rowsTo (z5 V c) q (n + 1) ∧ (scrAt5 V c n hn).2 (ix1 q) = rowsTo (zz5 V c) q (n + 1)
  | 0, hn => by
    rw [scrAt5_zero, (stepAt5_apply V c _ _ q).1, (stepAt5_apply V c _ _ q).2]
    unfold rowsTo
    rw [Finset.sum_range_one, Finset.sum_range_one, dif_pos (lt_of_lt_of_eq hn N5_eq), dif_pos (lt_of_lt_of_eq hn N5_eq)]
    exact ⟨(congrArg (· + _) (zeroPay_apply (ix1 q))).trans (zero_add _), (congrArg (· + _) (zeroPay_apply (ix1 q))).trans (zero_add _)⟩
  | n + 1, hn => by
    rw [scrAt5_succ, (stepAt5_apply V c _ _ q).1, (stepAt5_apply V c _ _ q).2, (scrAt5_apply c q n _).1, (scrAt5_apply c q n _).2]
    unfold rowsTo
    rw [Finset.sum_range_succ _ (n + 1), Finset.sum_range_succ _ (n + 1), dif_pos (lt_of_lt_of_eq hn N5_eq), dif_pos (lt_of_lt_of_eq hn N5_eq)]
    exact ⟨rfl, rfl⟩

theorem arr5_7 (c : Dev nD) : (dat5 V c).arrAt 7 cfg5.N = Cert.Net.colSum (z5 V c) := by
  have h9 : 9 < cfg5.N := by rw [N5_eq]; decide
  refine (dat5 V c).arrAt_eq_of_cover 7 _ (fun t hf => ?_) fun i => ⟨⟨9, h9⟩, (flush5_7 _).mpr rfl, ?_⟩
  · obtain ⟨tv, htv⟩ := t
    obtain rfl : tv = 9 := by have : tv % 10 = 9 := (flush5_7 ⟨tv, htv⟩).mp hf; have := lt_of_lt_of_eq htv N5_eq; omega
    show (cfg5.win 7).cut _ ((dat5 V c).after 7 _) = _
    rw [after5_7]
    funext j
    obtain ⟨q, rfl⟩ : ∃ q : Fin 32, j = ix1 q := ⟨j 0, eq_ix1 j⟩
    exact ((scrAt5_apply V c q 9 htv).1.trans (rowsTo_last _ q)).trans
      (congrArg (Cert.Net.colSum (z5 V c)) ((emb_rest5 ⟨9, htv⟩).1 (ix1 q)).symm)
  · have h := ((cfg5.win 7).blk ⟨9, h9⟩).view.emb_mem_set i
    rwa [(emb_rest5 ⟨9, h9⟩).1] at h

theorem arr5_8 (c : Dev nD) : (dat5 V c).arrAt 8 cfg5.N = Cert.Net.colSum (zz5 V c) := by
  have h9 : 9 < cfg5.N := by rw [N5_eq]; decide
  refine (dat5 V c).arrAt_eq_of_cover 8 _ (fun t hf => ?_) fun i => ⟨⟨9, h9⟩, (flush5_8 _).mpr rfl, ?_⟩
  · obtain ⟨tv, htv⟩ := t
    obtain rfl : tv = 9 := by have : tv % 10 = 9 := (flush5_8 ⟨tv, htv⟩).mp hf; have := lt_of_lt_of_eq htv N5_eq; omega
    show (cfg5.win 8).cut _ ((dat5 V c).after 8 _) = _
    rw [after5_8]
    funext j
    obtain ⟨q, rfl⟩ : ∃ q : Fin 32, j = ix1 q := ⟨j 0, eq_ix1 j⟩
    exact ((scrAt5_apply V c q 9 htv).2.trans (rowsTo_last _ q)).trans
      (congrArg (Cert.Net.colSum (zz5 V c)) ((emb_rest5 ⟨9, htv⟩).2.1 (ix1 q)).symm)
  · have h := ((cfg5.win 8).blk ⟨9, h9⟩).view.emb_mem_set i
    rwa [(emb_rest5 ⟨9, h9⟩).2.1] at h

end Cert.KernelIdeal.HandValue
-- ==== Proof.KI.V6.lean ====
import proofs.«417359_j61564061221146_2_alg».proof.Proof.KI.R6
import proofs.«417359_j61564061221146_2_alg».proof.Proof.Net.Norm
import Idealize.ShloMosaic.Lib.ValueLayout

namespace Cert.KernelIdeal.Hand

open Cert.KernelIdeal.Gen
open Idealize.ShloMosaic Idealize.ShloMosaic.TcCoe Idealize.ShloMosaic.ValueIdx

/-- The casts and the broadcast along the rows move nothing, so entry (r, q) only sees entry q of the two rows. -/
theorem pay6_apply (a b z) (r : Fin 10000) (q : Fin 32) :
    k6_pay1 (F := Ideal) a b z (ix2 r q) = max (z (ix2 r q) * a (ix1 q) + b (ix1 q)) (0 : EReal) := by
  unfold k6_pay1
  rw [maximumf_apply, addf_apply, mulf_apply, broadcastTo_1b_ab_apply, broadcastTo_1b_ab_apply,
    shapeCast_a_1a_apply, shapeCast_a_1a_apply, shapeCast_self, shapeCast_self, shapeCast_self]
  exact congrArg _ Ideal.ofBits_zero_f32

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0
    ∧ (∀ a, win6_1.index t a = 0) ∧ (∀ a, win6_2.index t a = 0)
    ∧ win6_3.index t (0 : Fin 2) = t.val ∧ win6_3.index t (1 : Fin 2) = 0 :=
  (by decide +kernel : ∀ t : Fin grid6.N, _)

/-- Row `r` of the block of point `t` is row `10000 t + r` of the array. -/
abbrev row6 (t : Fin cfg6.N) (r : Fin 10000) : Fin 100000 :=
  ⟨t.val * 10000 + r.val, by have : t.val < 10 := N_6 ▸ t.isLt; have := r.isLt; omega⟩

theorem emb6_0 (t : Fin cfg6.N) (r : Fin 10000) (q : Fin 32) :
    ((cfg6.win 0).blk t).view.emb (ix2 r q) = ix2 (row6 t r) q :=
  Shape.idx_ext₂ ((win6_0.rect_emb_val t (ix2 r q) (0 : Fin 2)).trans (congrArg (· * 10000 + r.val) (idx_facts6 t).1))
    (win6_0.rect_emb_val_of_index_zero t (1 : Fin 2) (idx_facts6 t).2.1 (ix2 r q))

theorem emb6_3 (t : Fin cfg6.N) (r : Fin 10000) (q : Fin 32) :
    ((cfg6.win 3).blk t).view.emb (ix2 r q) = ix2 (row6 t r) q :=
  Shape.idx_ext₂ ((win6_3.rect_emb_val t (ix2 r q) (0 : Fin 2)).trans (congrArg (· * 10000 + r.val) (idx_facts6 t).2.2.2.2.1))
    (win6_3.rect_emb_val_of_index_zero t (1 : Fin 2) (idx_facts6 t).2.2.2.2.2 (ix2 r q))

theorem iblk6_rows (c : Dev nD) (t : Fin cfg6.N) : iblk6 V c 1 t = V c main_v61 ∧ iblk6 V c 2 t = V c main_v65 :=
  ⟨funext fun j => congrArg (V c main_v61) (funext fun a => Fin.ext (win6_1.rect_emb_val_of_index_zero t a ((idx_facts6 t).2.2.1 a) j)),
    funext fun j => congrArg (V c main_v65) (funext fun a => Fin.ext (win6_2.rect_emb_val_of_index_zero t a ((idx_facts6 t).2.2.2.1 a) j))⟩

theorem flushed6_eq (c : Dev nD) (t : Fin cfg6.N) :
    (dat6 V c).flushed 3 t
      = ((cfg6.win 3).blk t).view.read (Elt Ideal) (Cert.Net.normOf (V c main_v49_0) (V c main_v61) (V c main_v65)) := by
  simp (disch := decide) only [Pipeline.Dat.flushed, after6_3, out6_3, View.canon_unit_zero, View.ld_unit_zero]
  funext j
  obtain ⟨r, q, rfl⟩ : ∃ (r : Fin 10000) (q : Fin 32), j = ix2 r q := ⟨j 0, j 1, eq_ix2 j⟩
  show k6_pay1 _ _ _ (ix2 r q) = Cert.Net.normOf _ _ _ (((cfg6.win 3).blk t).view.emb (ix2 r q))
  rw [emb6_3, Cert.Net.normOf_apply, pay6_apply, (iblk6_rows V c t).1, (iblk6_rows V c t).2]
  exact congrArg (fun x => max (x * _ + _) 0) (congrArg (V c main_v49_0) (emb6_0 t r q))

/-- Row `n` of the array lies in the block of point `n / 10000`, at row `n % 10000`. -/
theorem cover6 (i : S100000x32.Idx) :
    ∃ t : Fin cfg6.N, (cfg6.win 3).flush t = true ∧ i ∈ ((cfg6.win 3).blk t).view.set := by
  have h : (i 0).val < 100000 := (i 0).isLt
  have ht : (i 0).val / 10000 < cfg6.N := by rw [show cfg6.N = 10 from N_6]; omega
  have hr : (i 0).val % 10000 < 10000 := Nat.mod_lt _ (by decide)
  have e : ix2 (row6 ⟨_, ht⟩ ⟨_, hr⟩) (i 1) = i := Shape.idx_ext₂ (Nat.div_add_mod' (i 0).val 10000) rfl
  exact ⟨⟨_, ht⟩, flush6_3 _, Finset.mem_map.mpr ⟨_, Finset.mem_univ _, (emb6_3 ⟨_, ht⟩ ⟨_, hr⟩ (i 1)).trans e⟩⟩

theorem final6 (c : Dev nD) :
    (dat6 V c).arrAt 3 cfg6.N = Cert.Net.normOf (V c main_v49_0) (V c main_v61) (V c main_v65) :=
  (dat6 V c).arrAt_eq_of_cover 3 _ (fun t _ => flushed6_eq V c t) cover6

end Cert.KernelIdeal.Hand
-- ==== Proof.Net.KNet.lean ====
import proofs.«417359_j61564061221146_2_alg».proof.Proof.Net.Spec
import proofs.«417359_j61564061221146_2_alg».proof.Proof.Net.Take
import proofs.«417359_j61564061221146_2_alg».proof.Proof.Net.Norm
import proofs.«417359_j61564061221146_2_alg».proof.Proof.Net.BNArr

noncomputable section

namespace Cert.Net

open Idealize.ShloMosaic
open Cert.ReferenceIdeal Cert.ReferenceIdeal.Facts₀

variable [Cert.ReferenceIdeal.Facts] [Cert.KernelIdeal.Facts]

def kZ (h : TF S100000x32) (ep : TF S3200000x32) (src dst : TI S3200000)
    (w1 : TF S32x75) (b1 : TF S75) (w2 : TF S75x32) (b2 : TF S32) : TF S100000x32 :=
  convZ h (agg (msgOf (takeOf (F := Ideal) h src) ep) dst) w1 b1 w2 b2

def kZZ (h : TF S100000x32) (ep : TF S3200000x32) (src dst : TI S3200000)
    (w1 : TF S32x75) (b1 : TF S75) (w2 : TF S75x32) (b2 : TF S32) : TF S100000x32 :=
  mulf (F := Ideal) (s := S100000x32) (φ := .f32) (kZ h ep src dst w1 b1 w2 b2) (kZ h ep src dst w1 b1 w2 b2)

def kLayer (h : TF S100000x32) (ep : TF S3200000x32) (src dst : TI S3200000)
    (w1 : TF S32x75) (b1 : TF S75) (w2 : TF S75x32) (b2 g b : TF S32) : TF S100000x32 :=
  normOf (kZ h ep src dst w1 b1 w2 b2)
    (scaleKer (colSum (kZ h ep src dst w1 b1 w2 b2)) (colSum (kZZ h ep src dst w1 b1 w2 b2)) g)
    (shiftKer (colSum (kZ h ep src dst w1 b1 w2 b2)) (colSum (kZZ h ep src dst w1 b1 w2 b2)) g b)

def kH1 (x : TF S100000x14) (ei : TI S2x3200000) (ea : TF S3200000x3) (nw : TF S14x32) (nb : TF S32)
    (ew : TF S3x32) (eb : TF S32) (w1 : TF S2x32x75) (b1 : TF S2x75) (w2 : TF S2x75x32) (b2 g b : TF S2x32) :
    TF S100000x32 :=
  kLayer (nodeProj x nw nb) (edgeProj ea ew eb) (srcOf ei) (dstOf ei)
    (sliceW1_0 w1) (sliceB1_0 b1) (sliceW2_0 w2) (sliceB2_0 b2) (sliceG_0 g) (sliceB_0 b)

def kH2 (x : TF S100000x14) (ei : TI S2x3200000) (ea : TF S3200000x3) (nw : TF S14x32) (nb : TF S32)
    (ew : TF S3x32) (eb : TF S32) (w1 : TF S2x32x75) (b1 : TF S2x75) (w2 : TF S2x75x32) (b2 g b : TF S2x32) :
    TF S100000x32 :=
  kLayer (kH1 x ei ea nw nb ew eb w1 b1 w2 b2 g b) (edgeProj ea ew eb) (srcOf ei) (dstOf ei)
    (sliceW1_1 w1) (sliceB1_1 b1) (sliceW2_1 w2) (sliceB2_1 b2) (sliceG_1 g) (sliceB_1 b)

def kForward (x : TF S100000x14) (ei : TI S2x3200000) (ea : TF S3200000x3) (batch : TI S100000)
    (nw : TF S14x32) (nb : TF S32) (ew : TF S3x32) (eb : TF S32)
    (w1 : TF S2x32x75) (b1 : TF S2x75) (w2 : TF S2x75x32) (b2 g b : TF S2x32)
    (l1w : TF S32x16) (l1b : TF S16) (l2w : TF S16x2) (l2b : TF S2) : TF S5000x2 :=
  pool (kH2 x ei ea nw nb ew eb w1 b1 w2 b2 g b) batch l1w l1b l2w l2b

end Cert.Net

end
-- ==== Proof.KI.Chain.lean ====
import proofs.«417359_j61564061221146_2_alg».proof.Proof.KI.Fold
import proofs.«417359_j61564061221146_2_alg».proof.Proof.KI.Host1
import proofs.«417359_j61564061221146_2_alg».proof.Proof.KI.Host2
import proofs.«417359_j61564061221146_2_alg».proof.Proof.KI.HostTake
import proofs.«417359_j61564061221146_2_alg».proof.Proof.KI.V0
import proofs.«417359_j61564061221146_2_alg».proof.Proof.KI.V1
import proofs.«417359_j61564061221146_2_alg».proof.Proof.KI.V2
import proofs.«417359_j61564061221146_2_alg».proof.Proof.KI.V3
import proofs.«417359_j61564061221146_2_alg».proof.Proof.KI.V4
import proofs.«417359_j61564061221146_2_alg».proof.Proof.KI.V5
import proofs.«417359_j61564061221146_2_alg».proof.Proof.KI.V6
import proofs.«417359_j61564061221146_2_alg».proof.Proof.Net.KNet

noncomputable section

namespace Cert.KernelIdeal.HandValue

open Cert.KernelIdeal Cert.KernelIdeal.Gen Cert.KernelIdeal.Hand
open Idealize.ShloMosaic Idealize.ShloMosaic.TcCoe Idealize.SL.Sem

variable [Cert.ReferenceIdeal.Facts]
variable (m : (ℓ : Loc nD τ sig) → Buf (Elt Ideal) ℓ) (c : Dev nD)

abbrev La (r : Ref sig .tc) : Buf (Elt Ideal) ((c : Thread nD τ).loc r) := m ((c : Thread nD τ).loc r)

/-- Every array that an item after the first host stretch writes. -/
abbrev Wr : List (Ref sig .tc) :=
  main_v4 :: main_v6 :: main_v18_0 :: main_v18_1 :: main_v18_2 :: main_v35 :: main_v37 :: main_v49_0 :: main_v49_1 :: main_v49_2
    :: main_v66 :: (hostOps1_W ++ hostOps2_W ++ hostOps3_W ++ hostOps4_W ++ hostOps5_W ++ hostOps6_W)

/-- The contents `X` hold, off the written arrays, what the arrays held before region 0. -/
def Same (X : Valuation τ sig (Elt Ideal)) : Prop := ∀ r : Ref sig .tc, r ∉ Wr → X r = X1 m c r

variable {m c}

theorem Same.after {X : Valuation τ sig (Elt Ideal)} (h : Same m c X) {W : List (Ref sig .tc)}
    {ops : List (HloOp τ sig (Elt Ideal))}
    (hW : ops.Forall fun op => op.writes ⊆ (W.map (Proc.devRef (τ := τ) .tc)).toFinset) (hs : ∀ r ∈ W, r ∈ Wr) :
    Same m c (StableHlo.after ops X) :=
  fun r hr => (StableHlo.after_of_writes_sub ops X hW fun hh => hr (hs r hh)).trans (h r hr)

theorem Same.update {X : Valuation τ sig (Elt Ideal)} (h : Same m c X) {b : Ref sig .tc} (hb : b ∈ Wr) (v) :
    Same m c (Function.update X b v) :=
  fun r hr => (Function.update_of_ne (StableHlo.devRef_ne_of_ne (fun e => hr (e ▸ hb) : r ≠ b)) v X).trans (h r hr)

/-- No item writes an argument: where `Same` holds, it has its launch contents. -/
theorem Same.arg {X : Valuation τ sig (Elt Ideal)} (h : Same m c X) (r : Ref sig .tc) (hr : r ∉ hostOps0_W ++ Wr) :
    X r = La m c r :=
  (h r fun hh => hr (List.mem_append_right _ hh)).trans (V1_of m c r fun hh => hr (List.mem_append_left _ hh))

variable (m c)

theorem same1 : Same m c (X1 m c) := fun _ _ => rfl
theorem same2 : Same m c (X2 m c) := (same1 m c).update (by decide) _
theorem same3 : Same m c (X3 m c) := (same2 m c).after hostOps1_writes (by decide)
theorem same4 : Same m c (X4 m c) := (same3 m c).update (by decide) _
theorem same6 : Same m c (X6 m c) :=
  ((((same4 m c).after hostOps2_writes (by decide)).update (by decide) _).update (by decide) _).update (by decide) _
theorem same8 : Same m c (X8 m c) := ((same6 m c).after hostOps3_writes (by decide)).update (by decide) _
theorem same9 : Same m c (X9 m c) := (same8 m c).after hostOps4_writes (by decide)
theorem same10 : Same m c (X10 m c) := (same9 m c).update (by decide) _
theorem same12 : Same m c (X12 m c) :=
  ((((same10 m c).after hostOps5_writes (by decide)).update (by decide) _).update (by decide) _).update (by decide) _
theorem same14 : Same m c (X14 m c) := ((same12 m c).after hostOps6_writes (by decide)).update (by decide) _

theorem X1_src : X1 m c main_v1 = Cert.Net.srcOf (La m c main_arg1) := host0_src (V0 m c)
theorem X1_dst : X1 m c main_v3 = Cert.Net.dstOf (La m c main_arg1) := host0_dst (V0 m c)

theorem stage0 : X2 m c main_v4 = Cert.Net.nodeProj (La m c main_arg0) (La m c main_arg4) (La m c main_arg5) := by
  refine ((X2_at m c).trans (arr0_3 (Rd (X1 m)) c)).trans ?_
  simp (disch := decide) only [Rd, (same1 m c).arg]

-- The first layer, read back from its last region to the launch arguments.
theorem stage1 :
    X8 m c main_v35
      = Cert.Net.kH1 (La m c main_arg0) (La m c main_arg1) (La m c main_arg2) (La m c main_arg4) (La m c main_arg5)
          (La m c main_arg6) (La m c main_arg7) (La m c main_arg8) (La m c main_arg9) (La m c main_arg10)
          (La m c main_arg11) (La m c main_arg12) (La m c main_arg13) := by
  have hz : z2 (Rd (X5 m)) c = _ := host2_z (X4 m c)
  have hm := (X4_at m c).trans (final1 (Rd (X3 m)) c)
  dsimp only [Rd] at hm
  refine ((X8_at m c).trans (final3 (Rd (X7 m)) c)).trans ((host3_n (X6 m c)).trans ?_)
  rw [(X6_at_0 m c).trans (arr2_6 (Rd (X5 m)) c), (X6_at_1 m c).trans (arr2_7 (Rd (X5 m)) c),
    (X6_at_2 m c).trans (arr2_8 (Rd (X5 m)) c)]
  dsimp only [zz2]
  rw [hz, X4_of_ne m c main_v4 (by decide),
    show X3 m c main_v4 = X2 m c main_v4 from StableHlo.after_of_writes_sub hostOps1 _ hostOps1_writes (by decide), hm,
    show X3 m c main_v5 = Cert.Net.takeOf (F := Ideal) (X2 m c main_v4) (X2 m c main_v1) from host1_take_typed (X2 m c),
    stage0 m c, same2 m c main_v1 (by decide), X1_src m c, same4 m c main_v3 (by decide), X1_dst m c]
  simp (disch := decide) only [(same3 m c).arg, (same4 m c).arg, (same6 m c).arg]
  rfl

-- The second layer, likewise, on the first layer's result.
theorem stage2 :
    X14 m c main_v66
      = Cert.Net.kH2 (La m c main_arg0) (La m c main_arg1) (La m c main_arg2) (La m c main_arg4) (La m c main_arg5)
          (La m c main_arg6) (La m c main_arg7) (La m c main_arg8) (La m c main_arg9) (La m c main_arg10)
          (La m c main_arg11) (La m c main_arg12) (La m c main_arg13) := by
  have hz : z5 (Rd (X11 m)) c = _ := host5_z (X10 m c)
  have hm := (X10_at m c).trans (final4 (Rd (X9 m)) c)
  dsimp only [Rd] at hm
  refine ((X14_at m c).trans (final6 (Rd (X13 m)) c)).trans ((host6_n (X12 m c)).trans ?_)
  rw [(X12_at_0 m c).trans (arr5_6 (Rd (X11 m)) c), (X12_at_1 m c).trans (arr5_7 (Rd (X11 m)) c),
    (X12_at_2 m c).trans (arr5_8 (Rd (X11 m)) c)]
  dsimp only [zz5]
  rw [hz, X10_of_ne m c main_v35 (by decide),
    show X9 m c main_v35 = X8 m c main_v35 from StableHlo.after_of_writes_sub hostOps4 _ hostOps4_writes (by decide), hm,
    show X9 m c main_v36 = Cert.Net.takeOf (F := Ideal) (X8 m c main_v35) (X8 m c main_v1) from host4_take_typed (X8 m c),
    stage1 m c, same8 m c main_v1 (by decide), X1_src m c, same10 m c main_v3 (by decide), X1_dst m c]
  simp (disch := decide) only [(same9 m c).arg, (same10 m c).arg, (same12 m c).arg]
  rfl

/-- At the return the result array holds the network, as the kernel computes it, of the launch arguments. -/
theorem kernel_value :
    X17 m c main_v87
      = Cert.Net.kForward (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17)) := by
  refine (host7_pool (X14 m c)).trans ?_
  rw [stage2 m c]
  simp (disch := decide) only [(same14 m c).arg]
  rfl

end Cert.KernelIdeal.HandValue

end
-- ==== Proof.Net.RefOps.lean ====
import proofs.«417359_j61564061221146_2_alg».proof.ReferenceIdeal
import Idealize.ShloMosaic.Lib.StableHlo.Run

noncomputable section

namespace Cert.Net.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- Each operation of `l` writes only references listed in `W`, besides what a run of `l` asks of it. -/
def Ok (W : List (Ref sig .tc)) (l : List (HloOp τ sig (Elt F))) : Prop :=
  l.Forall fun op => op.bufs ⊆ tcRefs τ sig ∧ op.fresh = ∅ ∧ op.writes ⊆ (W.map (Proc.devRef (τ := τ) .tc)).toFinset

theorem Ok.append {W₁ W₂ : List (Ref sig .tc)} {l₁ l₂ : List (HloOp τ sig (Elt F))} (h₁ : Ok W₁ l₁) (h₂ : Ok W₂ l₂) :
    Ok (W₁ ++ W₂) (l₁ ++ l₂) := by
  refine List.forall_append.2 ⟨List.Forall.imp (fun _ h => ⟨h.1, h.2.1, h.2.2.trans fun x hx => ?_⟩) h₁,
    List.Forall.imp (fun _ h => ⟨h.1, h.2.1, h.2.2.trans fun x hx => ?_⟩) h₂⟩ <;>
  rw [List.mem_toFinset, List.map_append, List.mem_append] <;> rw [List.mem_toFinset] at hx
  exacts [.inl hx, .inr hx]

/-- No operation of `l` writes a reference outside `W`. -/
theorem Ok.keep {W : List (Ref sig .tc)} {l : List (HloOp τ sig (Elt F))} (h : Ok W l) (V : Valuation τ sig (Elt F))
    {r : Ref sig .tc} (hr : r ∉ W) : after l V (no_index (Proc.devRef .tc r)) = V (Proc.devRef .tc r) :=
  after_of_writes_sub l V (List.Forall.imp (fun _ h => h.2.2) h) hr

/-- The operations of the column variance over one call's buffers. -/
def varOps (z : TRef sig ⟨S100000x32, .f32⟩) (n : TRef sig ⟨S_, .i32⟩) (φ : fn_var.Bufs) : List (HloOp τ sig (Elt F)) :=
  [ TRef.nullary φ.cst (constant S_ .f32 0x00000000#32),
    TRef.binary z φ.cst φ.v0 (fun x v => Host.reduceAdd x v reducesTo_S100000x32_S32_d0 h_S_),
    TRef.unary φ.v0 φ.v1 (broadcastInDim S1x32 ![1] bcast_S32_S1x32_1),
    TRef.nullary φ.cst_0 (constant S_ .f32 0x47C35000#32),
    TRef.unary φ.cst_0 φ.v2 (broadcastInDim S1x32 ![] bcast_S_S1x32),
    TRef.binary φ.v1 φ.v2 φ.v3 Host.divf,
    TRef.unary φ.v3 φ.v4 (broadcastInDim S100000x32 ![0, 1] bcast_S1x32_S100000x32_0_1),
    TRef.binary z φ.v4 φ.v5 subf,
    TRef.binary φ.v5 φ.v5 φ.v6 mulf,
    TRef.unary n φ.v7 (sitofp (F := F) .f32),
    TRef.nullary φ.cst_1 (constant S_ .f32 0x47C35000#32),
    TRef.binary φ.cst_1 φ.v7 φ.v8 subf,
    TRef.nullary φ.cst_2 (constant S_ .f32 0x00000000#32),
    TRef.binary φ.v6 φ.cst_2 φ.v9 (fun x v => Host.reduceAdd x v reducesTo_S100000x32_S32_d0 h_S_),
    TRef.unary φ.v8 φ.v10 (broadcastInDim S32 ![] bcast_S_S32),
    TRef.binary φ.v9 φ.v10 φ.v11 Host.divf,
    TRef.nullary φ.cst_3 (constant S_ .f32 0x00000000#32),
    TRef.binary φ.v8 φ.cst_3 φ.v12 (cmpf (F := F) .ogt),
    TRef.nullary φ.cst_4 (constant S_ .f32 0x7FC00000#32),
    TRef.unary φ.cst_4 φ.call0.v0 id,
    TRef.unary φ.call0.v0 φ.call0.v1 (broadcastInDim S32 ![] bcast_S_S32),
    TRef.ternary φ.v12 φ.v11 φ.call0.v1 φ.call0.v2 (fun p a b => select (broadcastInDim S32 ![] bcast_S_S32 p) a b) ]

/-- The references the column variance's operations write, in order. -/
def varW (φ : fn_var.Bufs) : List (Ref sig .tc) :=
  [φ.cst.ref, φ.v0.ref, φ.v1.ref, φ.cst_0.ref, φ.v2.ref, φ.v3.ref, φ.v4.ref, φ.v5.ref, φ.v6.ref, φ.v7.ref, φ.cst_1.ref, φ.v8.ref,
    φ.cst_2.ref, φ.v9.ref, φ.v10.ref, φ.v11.ref, φ.cst_3.ref, φ.v12.ref, φ.cst_4.ref, φ.call0.v0.ref, φ.call0.v1.ref, φ.call0.v2.ref]

def c0 : List (HloOp τ sig (Elt F)) :=
  [ unary main_arg1 main_v0 (extractStridedSlice S1x3200000 ![0, 0] · slices_S2x3200000_S1x3200000_0_0),
    reshape main_v0 main_v1 rfl shapeCasts_S1x3200000_S3200000,
    unary main_arg1 main_v2 (extractStridedSlice S1x3200000 ![1, 0] · slices_S2x3200000_S1x3200000_1_0),
    reshape main_v2 main_v3 rfl shapeCasts_S1x3200000_S3200000,
    binary main_arg0 main_arg4 main_v4 (fun l r => Host.dotGeneral dot_S100000x14_S14x32_S100000x32_1_0_0_1_n_n none l r),
    unary main_arg5 main_v5 (broadcastInDim S1x32 ![1] bcast_S32_S1x32_1),
    unary main_v5 main_v6 (broadcastInDim S100000x32 ![0, 1] bcast_S1x32_S100000x32_0_1),
    binary main_v4 main_v6 main_v7 addf,
    binary main_arg2 main_arg6 main_v8 (fun l r => Host.dotGeneral dot_S3200000x3_S3x32_S3200000x32_1_0_0_1_n_n none l r),
    unary main_arg7 main_v9 (broadcastInDim S1x32 ![1] bcast_S32_S1x32_1),
    unary main_v9 main_v10 (broadcastInDim S3200000x32 ![0, 1] bcast_S1x32_S3200000x32_0_1),
    binary main_v8 main_v10 main_v11 addf ]

abbrev c0_W : List (Ref sig .tc) := [main_v0, main_v1, main_v2, main_v3, main_v4, main_v5, main_v6, main_v7, main_v8, main_v9, main_v10, main_v11]

def c1 : List (HloOp τ sig (Elt F)) :=
  [ nullary main_c (constantI S_ 32 0#32),
    unary main_c main_v12 (broadcastInDim S3200000 ![] bcast_S_S3200000),
    binary main_v1 main_v12 main_v13 (cmpi .slt),
    nullary main_c_0 (constantI S_ 32 100000#32),
    unary main_c_0 main_v14 (broadcastInDim S3200000 ![] bcast_S_S3200000),
    binary main_v1 main_v14 main_v15 addi,
    ternary main_v13 main_v15 main_v1 main_v16 select,
    unary main_v16 main_v17 (broadcastInDim S3200000x1 ![0] bcast_S3200000_S3200000x1_0),
    binary main_v7 main_v17 main_v18 (fun x i => Host.gather gather_S100000x32_S3200000x1_S3200000x32_1_0_n_n_0_1_132 x i),
    binary main_v18 main_v11 main_v19 addf,
    TRef.nullary main_call0.cst (constant S_ .f32 0x00000000#32),
    TRef.unary main_call0.cst main_call0.v0 (broadcastInDim S3200000x32 ![] bcast_S_S3200000x32),
    TRef.binary (.of main_v19) main_call0.v0 main_call0.v1 maximumf ]

abbrev c1_W : List (Ref sig .tc) := [main_c, main_v12, main_v13, main_c_0, main_v14, main_v15, main_v16, main_v17, main_v18, main_v19, main_call0_cst, main_call0_v0, main_v20]

def c2 : List (HloOp τ sig (Elt F)) :=
  [ nullary main_cst (constant S_ .f32 0x00000000#32),
    unary main_cst main_v21 (broadcastInDim S100000x32 ![] bcast_S_S100000x32),
    unary main_v3 main_v22 (broadcastInDim S3200000x1 ![0] bcast_S3200000_S3200000x1_0),
    ternary main_v21 main_v22 main_v20 main_v23 (fun x i u => Host.scatterAdd scatter_S100000x32_S3200000x1_S3200000x32_1_0_0_1 x i u) ]

abbrev c2_W : List (Ref sig .tc) := [main_cst, main_v21, main_v22, main_v23]

def c3 : List (HloOp τ sig (Elt F)) :=
  [ binary main_v7 main_v23 main_v24 addf,
    unary main_arg8 main_v25 (extractStridedSlice S1x32x75 ![0, 0, 0] · slices_S2x32x75_S1x32x75_0_0_0),
    reshape main_v25 main_v26 rfl shapeCasts_S1x32x75_S32x75,
    binary main_v24 main_v26 main_v27 (fun l r => Host.dotGeneral dot_S100000x32_S32x75_S100000x75_1_0_0_1_n_n none l r),
    unary main_arg9 main_v28 (extractStridedSlice S1x75 ![0, 0] · slices_S2x75_S1x75_0_0),
    reshape main_v28 main_v29 rfl shapeCasts_S1x75_S75,
    unary main_v29 main_v30 (broadcastInDim S1x75 ![1] bcast_S75_S1x75_1),
    unary main_v30 main_v31 (broadcastInDim S100000x75 ![0, 1] bcast_S1x75_S100000x75_0_1),
    binary main_v27 main_v31 main_v32 addf,
    TRef.nullary main_call1.cst (constant S_ .f32 0x00000000#32),
    TRef.unary main_call1.cst main_call1.v0 (broadcastInDim S100000x75 ![] bcast_S_S100000x75),
    TRef.binary (.of main_v32) main_call1.v0 main_call1.v1 maximumf,
    unary main_arg10 main_v34 (extractStridedSlice S1x75x32 ![0, 0, 0] · slices_S2x75x32_S1x75x32_0_0_0),
    reshape main_v34 main_v35 rfl shapeCasts_S1x75x32_S75x32,
    binary main_v33 main_v35 main_v36 (fun l r => Host.dotGeneral dot_S100000x75_S75x32_S100000x32_1_0_0_1_n_n none l r),
    unary main_arg11 main_v37 (extractStridedSlice S1x32 ![0, 0] · slices_S2x32_S1x32_0_0),
    reshape main_v37 main_v38 rfl shapeCasts_S1x32_S32,
    unary main_v38 main_v39 (broadcastInDim S1x32 ![1] bcast_S32_S1x32_1),
    unary main_v39 main_v40 (broadcastInDim S100000x32 ![0, 1] bcast_S1x32_S100000x32_0_1),
    binary main_v36 main_v40 main_v41 addf ]

abbrev c3_W : List (Ref sig .tc) := [main_v24, main_v25, main_v26, main_v27, main_v28, main_v29, main_v30, main_v31, main_v32, main_call1_cst, main_call1_v0, main_v33, main_v34, main_v35, main_v36, main_v37, main_v38, main_v39, main_v40, main_v41]

def c4a : List (HloOp τ sig (Elt F)) :=
  [ nullary main_cst_1 (constant S_ .f32 0x00000000#32),
    binary main_v41 main_cst_1 main_v42 (fun x v => Host.reduceAdd x v reducesTo_S100000x32_S32_d0 h_S_),
    nullary main_cst_2 (constant S_ .f32 0x47C35000#32),
    unary main_cst_2 main_v43 (broadcastInDim S32 ![] bcast_S_S32),
    binary main_v42 main_v43 main_v44 Host.divf ]

abbrev c4a_W : List (Ref sig .tc) := [main_cst_1, main_v42, main_cst_2, main_v43, main_v44]

def c4b : List (HloOp τ sig (Elt F)) :=
  nullary main_c_3 (constantI S_ 32 0#32) :: varOps (.of main_v41) (.of main_c_3) main_call2

abbrev c4b_W : List (Ref sig .tc) := main_c_3 :: varW main_call2

def c4c : List (HloOp τ sig (Elt F)) :=
  [ unary main_v44 main_v46 (broadcastInDim S1x32 ![1] bcast_S32_S1x32_1),
    unary main_v46 main_v47 (broadcastInDim S100000x32 ![0, 1] bcast_S1x32_S100000x32_0_1),
    binary main_v41 main_v47 main_v48 subf,
    nullary main_cst_4 (constant S_ .f32 0x3727C5AC#32),
    unary main_cst_4 main_v49 (broadcastInDim S32 ![] bcast_S_S32),
    binary main_v45 main_v49 main_v50 addf,
    unary main_v50 main_v51 Host.rsqrt,
    unary main_v51 main_v52 (broadcastInDim S1x32 ![1] bcast_S32_S1x32_1) ]

abbrev c4c_W : List (Ref sig .tc) := [main_v46, main_v47, main_v48, main_cst_4, main_v49, main_v50, main_v51, main_v52]

def c5 : List (HloOp τ sig (Elt F)) :=
  [ unary main_v52 main_v53 (broadcastInDim S100000x32 ![0, 1] bcast_S1x32_S100000x32_0_1),
    binary main_v48 main_v53 main_v54 mulf,
    unary main_arg12 main_v55 (extractStridedSlice S1x32 ![0, 0] · slices_S2x32_S1x32_0_0),
    reshape main_v55 main_v56 rfl shapeCasts_S1x32_S32,
    unary main_v56 main_v57 (broadcastInDim S1x32 ![1] bcast_S32_S1x32_1),
    unary main_v57 main_v58 (broadcastInDim S100000x32 ![0, 1] bcast_S1x32_S100000x32_0_1),
    binary main_v54 main_v58 main_v59 mulf,
    unary main_arg13 main_v60 (extractStridedSlice S1x32 ![0, 0] · slices_S2x32_S1x32_0_0),
    reshape main_v60 main_v61 rfl shapeCasts_S1x32_S32,
    unary main_v61 main_v62 (broadcastInDim S1x32 ![1] bcast_S32_S1x32_1),
    unary main_v62 main_v63 (broadcastInDim S100000x32 ![0, 1] bcast_S1x32_S100000x32_0_1),
    binary main_v59 main_v63 main_v64 addf,
    TRef.nullary main_call3.cst (constant S_ .f32 0x00000000#32),
    TRef.unary main_call3.cst main_call3.v0 (broadcastInDim S100000x32 ![] bcast_S_S100000x32),
    TRef.binary (.of main_v64) main_call3.v0 main_call3.v1 maximumf ]

abbrev c5_W : List (Ref sig .tc) := [main_v53, main_v54, main_v55, main_v56, main_v57, main_v58, main_v59, main_v60, main_v61, main_v62, main_v63, main_v64, main_call3_cst, main_call3_v0, main_v65]

def c6 : List (HloOp τ sig (Elt F)) :=
  [ nullary main_c_5 (constantI S_ 32 0#32),
    unary main_c_5 main_v66 (broadcastInDim S3200000 ![] bcast_S_S3200000),
    binary main_v1 main_v66 main_v67 (cmpi .slt),
    nullary main_c_6 (constantI S_ 32 100000#32),
    unary main_c_6 main_v68 (broadcastInDim S3200000 ![] bcast_S_S3200000),
    binary main_v1 main_v68 main_v69 addi,
    ternary main_v67 main_v69 main_v1 main_v70 select,
    unary main_v70 main_v71 (broadcastInDim S3200000x1 ![0] bcast_S3200000_S3200000x1_0),
    binary main_v65 main_v71 main_v72 (fun x i => Host.gather gather_S100000x32_S3200000x1_S3200000x32_1_0_n_n_0_1_132 x i),
    binary main_v72 main_v11 main_v73 addf,
    TRef.nullary main_call4.cst (constant S_ .f32 0x00000000#32),
    TRef.unary main_call4.cst main_call4.v0 (broadcastInDim S3200000x32 ![] bcast_S_S3200000x32),
    TRef.binary (.of main_v73) main_call4.v0 main_call4.v1 maximumf ]

abbrev c6_W : List (Ref sig .tc) := [main_c_5, main_v66, main_v67, main_c_6, main_v68, main_v69, main_v70, main_v71, main_v72, main_v73, main_call4_cst, main_call4_v0, main_v74]

def c7 : List (HloOp τ sig (Elt F)) :=
  [ nullary main_cst_7 (constant S_ .f32 0x00000000#32),
    unary main_cst_7 main_v75 (broadcastInDim S100000x32 ![] bcast_S_S100000x32),
    unary main_v3 main_v76 (broadcastInDim S3200000x1 ![0] bcast_S3200000_S3200000x1_0),
    ternary main_v75 main_v76 main_v74 main_v77 (fun x i u => Host.scatterAdd scatter_S100000x32_S3200000x1_S3200000x32_1_0_0_1 x i u) ]

abbrev c7_W : List (Ref sig .tc) := [main_cst_7, main_v75, main_v76, main_v77]

def c8 : List (HloOp τ sig (Elt F)) :=
  [ binary main_v65 main_v77 main_v78 addf,
    unary main_arg8 main_v79 (extractStridedSlice S1x32x75 ![1, 0, 0] · slices_S2x32x75_S1x32x75_1_0_0),
    reshape main_v79 main_v80 rfl shapeCasts_S1x32x75_S32x75,
    binary main_v78 main_v80 main_v81 (fun l r => Host.dotGeneral dot_S100000x32_S32x75_S100000x75_1_0_0_1_n_n none l r),
    unary main_arg9 main_v82 (extractStridedSlice S1x75 ![1, 0] · slices_S2x75_S1x75_1_0),
    reshape main_v82 main_v83 rfl shapeCasts_S1x75_S75,
    unary main_v83 main_v84 (broadcastInDim S1x75 ![1] bcast_S75_S1x75_1),
    unary main_v84 main_v85 (broadcastInDim S100000x75 ![0, 1] bcast_S1x75_S100000x75_0_1),
    binary main_v81 main_v85 main_v86 addf,
    TRef.nullary main_call5.cst (constant S_ .f32 0x00000000#32),
    TRef.unary main_call5.cst main_call5.v0 (broadcastInDim S100000x75 ![] bcast_S_S100000x75),
    TRef.binary (.of main_v86) main_call5.v0 main_call5.v1 maximumf,
    unary main_arg10 main_v88 (extractStridedSlice S1x75x32 ![1, 0, 0] · slices_S2x75x32_S1x75x32_1_0_0),
    reshape main_v88 main_v89 rfl shapeCasts_S1x75x32_S75x32,
    binary main_v87 main_v89 main_v90 (fun l r => Host.dotGeneral dot_S100000x75_S75x32_S100000x32_1_0_0_1_n_n none l r),
    unary main_arg11 main_v91 (extractStridedSlice S1x32 ![1, 0] · slices_S2x32_S1x32_1_0),
    reshape main_v91 main_v92 rfl shapeCasts_S1x32_S32,
    unary main_v92 main_v93 (broadcastInDim S1x32 ![1] bcast_S32_S1x32_1),
    unary main_v93 main_v94 (broadcastInDim S100000x32 ![0, 1] bcast_S1x32_S100000x32_0_1),
    binary main_v90 main_v94 main_v95 addf ]

abbrev c8_W : List (Ref sig .tc) := [main_v78, main_v79, main_v80, main_v81, main_v82, main_v83, main_v84, main_v85, main_v86, main_call5_cst, main_call5_v0, main_v87, main_v88, main_v89, main_v90, main_v91, main_v92, main_v93, main_v94, main_v95]

def c9a : List (HloOp τ sig (Elt F)) :=
  [ nullary main_cst_8 (constant S_ .f32 0x00000000#32),
    binary main_v95 main_cst_8 main_v96 (fun x v => Host.reduceAdd x v reducesTo_S100000x32_S32_d0 h_S_),
    nullary main_cst_9 (constant S_ .f32 0x47C35000#32),
    unary main_cst_9 main_v97 (broadcastInDim S32 ![] bcast_S_S32),
    binary main_v96 main_v97 main_v98 Host.divf ]

abbrev c9a_W : List (Ref sig .tc) := [main_cst_8, main_v96, main_cst_9, main_v97, main_v98]

def c9b : List (HloOp τ sig (Elt F)) :=
  nullary main_c_10 (constantI S_ 32 0#32) :: varOps (.of main_v95) (.of main_c_10) main_call6

abbrev c9b_W : List (Ref sig .tc) := main_c_10 :: varW main_call6

def c9c : List (HloOp τ sig (Elt F)) :=
  [ unary main_v98 main_v100 (broadcastInDim S1x32 ![1] bcast_S32_S1x32_1),
    unary main_v100 main_v101 (broadcastInDim S100000x32 ![0, 1] bcast_S1x32_S100000x32_0_1),
    binary main_v95 main_v101 main_v102 subf,
    nullary main_cst_11 (constant S_ .f32 0x3727C5AC#32),
    unary main_cst_11 main_v103 (broadcastInDim S32 ![] bcast_S_S32),
    binary main_v99 main_v103 main_v104 addf,
    unary main_v104 main_v105 Host.rsqrt ]

abbrev c9c_W : List (Ref sig .tc) := [main_v100, main_v101, main_v102, main_cst_11, main_v103, main_v104, main_v105]

def c10 : List (HloOp τ sig (Elt F)) :=
  [ unary main_v105 main_v106 (broadcastInDim S1x32 ![1] bcast_S32_S1x32_1),
    unary main_v106 main_v107 (broadcastInDim S100000x32 ![0, 1] bcast_S1x32_S100000x32_0_1),
    binary main_v102 main_v107 main_v108 mulf,
    unary main_arg12 main_v109 (extractStridedSlice S1x32 ![1, 0] · slices_S2x32_S1x32_1_0),
    reshape main_v109 main_v110 rfl shapeCasts_S1x32_S32,
    unary main_v110 main_v111 (broadcastInDim S1x32 ![1] bcast_S32_S1x32_1),
    unary main_v111 main_v112 (broadcastInDim S100000x32 ![0, 1] bcast_S1x32_S100000x32_0_1),
    binary main_v108 main_v112 main_v113 mulf,
    unary main_arg13 main_v114 (extractStridedSlice S1x32 ![1, 0] · slices_S2x32_S1x32_1_0),
    reshape main_v114 main_v115 rfl shapeCasts_S1x32_S32,
    unary main_v115 main_v116 (broadcastInDim S1x32 ![1] bcast_S32_S1x32_1),
    unary main_v116 main_v117 (broadcastInDim S100000x32 ![0, 1] bcast_S1x32_S100000x32_0_1),
    binary main_v113 main_v117 main_v118 addf,
    TRef.nullary main_call7.cst (constant S_ .f32 0x00000000#32),
    TRef.unary main_call7.cst main_call7.v0 (broadcastInDim S100000x32 ![] bcast_S_S100000x32),
    TRef.binary (.of main_v118) main_call7.v0 main_call7.v1 maximumf ]

abbrev c10_W : List (Ref sig .tc) := [main_v106, main_v107, main_v108, main_v109, main_v110, main_v111, main_v112, main_v113, main_v114, main_v115, main_v116, main_v117, main_v118, main_call7_cst, main_call7_v0, main_v119]

def c11 : List (HloOp τ sig (Elt F)) :=
  [ nullary main_cst_12 (constant S_ .f32 0x00000000#32),
    unary main_cst_12 main_v120 (broadcastInDim S5000x32 ![] bcast_S_S5000x32),
    unary main_arg3 main_v121 (broadcastInDim S100000x1 ![0] bcast_S100000_S100000x1_0),
    ternary main_v120 main_v121 main_v119 main_v122 (fun x i u => Host.scatterAdd scatter_S5000x32_S100000x1_S100000x32_1_0_0_1 x i u),
    nullary main_cst_13 (constant S_ .f32 0x3F800000#32),
    unary main_cst_13 main_v123 (broadcastInDim S100000 ![] bcast_S_S100000),
    nullary main_cst_14 (constant S_ .f32 0x00000000#32),
    unary main_cst_14 main_v124 (broadcastInDim S5000 ![] bcast_S_S5000),
    unary main_arg3 main_v125 (broadcastInDim S100000x1 ![0] bcast_S100000_S100000x1_0),
    ternary main_v124 main_v125 main_v123 main_v126 (fun x i u => Host.scatterAdd scatter_S5000_S100000x1_S100000_n_0_0_1 x i u),
    nullary main_cst_15 (constant S_ .f32 0x3F800000#32),
    unary main_cst_15 main_v127 (broadcastInDim S5000 ![] bcast_S_S5000),
    binary main_v126 main_v127 main_v128 maximumf,
    unary main_v128 main_v129 (broadcastInDim S5000x1 ![0] bcast_S5000_S5000x1_0),
    unary main_v129 main_v130 (broadcastInDim S5000x32 ![0, 1] bcast_S5000x1_S5000x32_0_1),
    binary main_v122 main_v130 main_v131 Host.divf,
    binary main_v131 main_arg14 main_v132 (fun l r => Host.dotGeneral dot_S5000x32_S32x16_S5000x16_1_0_0_1_n_n none l r),
    unary main_arg15 main_v133 (broadcastInDim S1x16 ![1] bcast_S16_S1x16_1),
    unary main_v133 main_v134 (broadcastInDim S5000x16 ![0, 1] bcast_S1x16_S5000x16_0_1),
    binary main_v132 main_v134 main_v135 addf,
    TRef.nullary main_call8.cst (constant S_ .f32 0x00000000#32),
    TRef.unary main_call8.cst main_call8.v0 (broadcastInDim S5000x16 ![] bcast_S_S5000x16),
    TRef.binary (.of main_v135) main_call8.v0 main_call8.v1 maximumf,
    binary main_v136 main_arg16 main_v137 (fun l r => Host.dotGeneral dot_S5000x16_S16x2_S5000x2_1_0_0_1_n_n none l r),
    unary main_arg17 main_v138 (broadcastInDim S1x2 ![1] bcast_S2_S1x2_1),
    unary main_v138 main_v139 (broadcastInDim S5000x2 ![0, 1] bcast_S1x2_S5000x2_0_1),
    binary main_v137 main_v139 main_v140 addf ]

abbrev c11_W : List (Ref sig .tc) := [main_cst_12, main_v120, main_v121, main_v122, main_cst_13, main_v123, main_cst_14, main_v124, main_v125, main_v126, main_cst_15, main_v127, main_v128, main_v129, main_v130, main_v131, main_v132, main_v133, main_v134, main_v135, main_call8_cst, main_call8_v0, main_v136, main_v137, main_v138, main_v139, main_v140]

/-- Operation by operation: the one reference written is the operation's last, found in the list by computation. -/
theorem oks : Ok c0_W (c0 (F := F)) ∧ Ok c1_W (c1 (F := F)) ∧ Ok c2_W (c2 (F := F)) ∧ Ok c3_W (c3 (F := F)) ∧
    Ok c4a_W (c4a (F := F)) ∧ Ok c4b_W (c4b (F := F)) ∧ Ok c4c_W (c4c (F := F)) ∧ Ok c5_W (c5 (F := F)) ∧
    Ok c6_W (c6 (F := F)) ∧ Ok c7_W (c7 (F := F)) ∧ Ok c8_W (c8 (F := F)) ∧ Ok c9a_W (c9a (F := F)) ∧
    Ok c9b_W (c9b (F := F)) ∧ Ok c9c_W (c9c (F := F)) ∧ Ok c10_W (c10 (F := F)) ∧ Ok c11_W (c11 (F := F)) := by
  simp only [Ok, c0, c1, c2, c3, c4a, c4b, c4c, c5, c6, c7, c8, c9a, c9b, c9c, c10, c11, varOps, List.Forall, nullary_bufs_sub, unary_bufs_sub,
    binary_bufs_sub, ternary_bufs_sub, reshape_bufs_sub, nullary_writes, unary_writes, binary_writes, ternary_writes, reshape_writes,
    Finset.singleton_subset_iff, List.mem_toFinset, true_and]
  repeat' apply And.intro
  all_goals first | rfl | exact List.mem_map_of_mem (by decide)

abbrev opsP0 : List (HloOp τ sig (Elt F)) := c0 ++ c1 ++ c2 ++ c3 ++ c4a ++ c4b ++ c4c
abbrev opsP1 : List (HloOp τ sig (Elt F)) := c5 ++ c6 ++ c7 ++ c8 ++ c9a ++ c9b ++ c9c
abbrev opsP2 : List (HloOp τ sig (Elt F)) := c10 ++ c11
abbrev ops : List (HloOp τ sig (Elt F)) := opsP0 ++ opsP1 ++ opsP2

abbrev ops_W : List (Ref sig .tc) :=
  (c0_W ++ c1_W ++ c2_W ++ c3_W ++ c4a_W ++ c4b_W ++ c4c_W) ++ (c5_W ++ c6_W ++ c7_W ++ c8_W ++ c9a_W ++ c9b_W ++ c9c_W)
    ++ (c10_W ++ c11_W)

theorem ops_ok : Ok ops_W (ops (F := F)) := by
  obtain ⟨h0, h1, h2, h3, h4a, h4b, h4c, h5, h6, h7, h8, h9a, h9b, h9c, h10, h11⟩ := oks (F := F)
  exact (((((((h0.append h1).append h2).append h3).append h4a).append h4b).append h4c).append
    ((((((h5.append h6).append h7).append h8).append h9a).append h9b).append h9c)).append (h10.append h11)

/-- Each window of the entry function is its operations in order: a call is the callee's body over the call's buffers. -/
theorem part0_eq (d : Dev nD) : main_part0 (F := F) d = seq opsP0 := by
  simp only [main_part0, fn_relu.body, fn_relu_0.body, fn_var.body, fn_where.body, c0, c1, c2, c3, c4a, c4b, c4c, varOps, seq_append,
    seq, bind_assoc, pure_bind]
  rfl

theorem part1_eq (d : Dev nD) : main_part1 (F := F) d = seq opsP1 := by
  simp only [main_part1, fn_relu.body, fn_relu_0.body, fn_relu_1.body, fn_var.body, fn_where.body, c5, c6, c7, c8, c9a, c9b,
    c9c, varOps, seq_append, seq, bind_assoc, pure_bind]
  rfl

theorem part2_eq (d : Dev nD) : main_part2 (F := F) d = seq opsP2 := by
  simp only [main_part2, fn_relu_1.body, fn_relu_2.body, c10, c11, seq_append, seq, bind_assoc, pure_bind]
  rfl

theorem main_eq (d : Dev nD) : main (F := F) d = seq ops := by
  rw [seq_append, seq_append, bind_assoc, ← part0_eq d, ← part1_eq d, ← part2_eq d]
  rfl

theorem scopedRefs_eq : (Finset.univ.filter fun b : Ref sig .tc => b.isScoped) = ∅ := by decide

theorem scopedSems_eq : (Finset.univ.filter fun sm : SemLoc sig => sm.isScoped .tc) = ∅ := by decide

/-- The entry function is a straight line of operations, so the library's run of a line applies. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => List.Forall.imp (fun _ h => h.1) ops_ok) m ρ
    (fun _ => List.forall_iff_forall_mem.1 (List.Forall.imp (fun _ h => h.2.1) ops_ok))

end Cert.Net.Ref

end
-- ==== Proof.Net.RefWin.lean ====
import proofs.«417359_j61564061221146_2_alg».proof.Proof.Net.Spec
import proofs.«417359_j61564061221146_2_alg».proof.Proof.Net.RefOps

noncomputable section

namespace Cert.Net.Ref

open Cert.ReferenceIdeal Cert.ReferenceIdeal.Facts₀ Idealize.ShloMosaic Idealize.ShloMosaic.TcCoe Idealize.SL.Sem
  Idealize.ShloMosaic.StableHlo Cert.Net

variable [Cert.ReferenceIdeal.Facts]

abbrev Vals : Type := Valuation τ sig (Elt Ideal)

/-- A stretch's operations, composed in order, are the operations its layer function composes. -/
theorem w0_v1 (W : Vals) :
    after c0 W (no_index (Proc.devRef .tc main_v1)) =
      srcOf (W main_arg1) := by
  simp only [c0]; after_results_simp; rfl

theorem w0_v3 (W : Vals) :
    after c0 W (no_index (Proc.devRef .tc main_v3)) =
      dstOf (W main_arg1) := by
  simp only [c0]; after_results_simp; rfl

theorem w0_v7 (W : Vals) :
    after c0 W (no_index (Proc.devRef .tc main_v7)) =
      nodeProj (W main_arg0) (W main_arg4) (W main_arg5) := by
  simp only [c0]; after_results_simp; rfl

theorem w0_v11 (W : Vals) :
    after c0 W (no_index (Proc.devRef .tc main_v11)) =
      edgeProj (W main_arg2) (W main_arg6) (W main_arg7) := by
  simp only [c0]; after_results_simp; rfl

theorem w1_v20 (W : Vals) :
    after c1 W (no_index (Proc.devRef .tc main_v20)) =
      msgOf (takeRows (W main_v7) (W main_v1)) (W main_v11) := by
  simp only [c1]; after_results_simp; rfl

theorem w2_v23 (W : Vals) :
    after c2 W (no_index (Proc.devRef .tc main_v23)) =
      agg (W main_v20) (W main_v3) := by
  simp only [c2]; after_results_simp; rfl

theorem w3_v41 (W : Vals) :
    after c3 W (no_index (Proc.devRef .tc main_v41)) =
      convZ (W main_v7) (W main_v23) (sliceW1_0 (W main_arg8)) (sliceB1_0 (W main_arg9)) (sliceW2_0 (W main_arg10)) (sliceB2_0 (W main_arg11)) := by
  simp only [c3]; after_results_simp; rfl

theorem w4a_v44 (W : Vals) :
    after c4a W (no_index (Proc.devRef .tc main_v44)) =
      meanRef (W main_v41) := by
  simp only [c4a]; after_results_simp; rfl

theorem w4b_v45 (W : Vals) :
    after c4b W (no_index (Proc.devRef .tc main_v45)) =
      varRef (W main_v41) := by
  simp only [c4b, varOps]; after_results_simp; rfl

theorem w5_v65 (W : Vals) :
    after c5 (after c4c W) (no_index (Proc.devRef .tc main_v65)) =
      bnApply (W main_v41) (W main_v44) (W main_v45) (sliceG_0 (W main_arg12)) (sliceB_0 (W main_arg13)) := by
  simp only [c5, c4c]; after_results_simp; rfl

theorem w6_v74 (W : Vals) :
    after c6 W (no_index (Proc.devRef .tc main_v74)) =
      msgOf (takeRows (W main_v65) (W main_v1)) (W main_v11) := by
  simp only [c6]; after_results_simp; rfl

theorem w7_v77 (W : Vals) :
    after c7 W (no_index (Proc.devRef .tc main_v77)) =
      agg (W main_v74) (W main_v3) := by
  simp only [c7]; after_results_simp; rfl

theorem w8_v95 (W : Vals) :
    after c8 W (no_index (Proc.devRef .tc main_v95)) =
      convZ (W main_v65) (W main_v77) (sliceW1_1 (W main_arg8)) (sliceB1_1 (W main_arg9)) (sliceW2_1 (W main_arg10)) (sliceB2_1 (W main_arg11)) := by
  simp only [c8]; after_results_simp; rfl

theorem w9a_v98 (W : Vals) :
    after c9a W (no_index (Proc.devRef .tc main_v98)) =
      meanRef (W main_v95) := by
  simp only [c9a]; after_results_simp; rfl

theorem w9b_v99 (W : Vals) :
    after c9b W (no_index (Proc.devRef .tc main_v99)) =
      varRef (W main_v95) := by
  simp only [c9b, varOps]; after_results_simp; rfl

theorem w10_v119 (W : Vals) :
    after c10 (after c9c W) (no_index (Proc.devRef .tc main_v119)) =
      bnApply (W main_v95) (W main_v98) (W main_v99) (sliceG_1 (W main_arg12)) (sliceB_1 (W main_arg13)) := by
  simp only [c10, c9c]; after_results_simp; rfl

theorem w11_v140 (W : Vals) :
    after c11 W (no_index (Proc.devRef .tc main_v140)) =
      pool (W main_v119) (W main_arg3) (W main_arg14) (W main_arg15) (W main_arg16) (W main_arg17) := by
  simp only [c11]; after_results_simp; rfl

end Cert.Net.Ref

end
-- ==== Proof.Net.RefRun.lean ====
import proofs.«417359_j61564061221146_2_alg».proof.Proof.Net.RefWin
import Idealize.ShloMosaic.Lib.Pipeline.Frame

noncomputable section

namespace Cert.Net.Ref

open Cert.ReferenceIdeal Cert.ReferenceIdeal.Facts₀ Idealize.ShloMosaic Idealize.ShloMosaic.TcCoe Idealize.SL.Sem
  Idealize.ShloMosaic.StableHlo Cert.Net

variable [Cert.ReferenceIdeal.Facts]

/-- Each stretch's end buffer is its layer function of buffers the later stretches keep, so the layers compose to the network. -/
theorem after_ops_out (V : Vals) :
    after (ops (F := Ideal)) V main_v140 =
      forward (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) := by
  obtain ⟨h0, h1, h2, h3, h4a, h4b, h4c, h5, h6, h7, h8, h9a, h9b, h9c, h10, h11⟩ := oks (F := Ideal)
  simp only [ops, opsP0, opsP1, opsP2, after_append]
  simp (disch := decide) only [w0_v1, w0_v3, w0_v7, w0_v11, w1_v20, w2_v23, w3_v41, w4a_v44, w4b_v45, w5_v65, w6_v74, w7_v77, w8_v95, w9a_v98, w9b_v99, w10_v119, w11_v140,
    h0.keep, h1.keep, h2.keep, h3.keep, h4a.keep, h4b.keep, h4c.keep, h5.keep, h6.keep, h7.keep, h8.keep, h9a.keep, h9b.keep, h9c.keep, h10.keep, h11.keep]
  rfl

end Cert.Net.Ref

namespace Cert.Net

open Cert.ReferenceIdeal Idealize.ShloMosaic Idealize.ShloMosaic.TcCoe Idealize.SL.Sem Idealize.ShloMosaic.StableHlo

variable [Cert.ReferenceIdeal.Facts]

/-- The run ends with each buffer at the fold; the fold is the network at the result and keeps every argument, none being written. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v140) =
        forward (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono
    (fun _ h c => by
      refine ⟨(h c _).trans (Ref.after_ops_out _), ?_⟩
      repeat' apply And.intro
      all_goals exact (h c _).trans (Ref.ops_ok.keep _ (by decide)))
    (Ref.run_after m ρ)

end Cert.Net

end
-- ==== Proof.Net.Pre.lean ====
import proofs.«417359_j61564061221146_2_alg».proof.Defs
import proofs.«417359_j61564061221146_2_alg».proof.Proof.LibAllReal
import Idealize.ShloMosaic.Lib.ReduceAll

noncomputable section

namespace Cert.Net.Pre

open Idealize.ShloMosaic Idealize.SL.Sem Cert.Spec
open Cert.Pre_finite_inputs (S100000x14 S2x3200000 S3200000x3 S100000 S14x32 S32 S3x32 S2x32x75 S2x75 S2x75x32 S2x32 S32x16 S16 S16x2 S2 S_ S1x3200000 S3200000)

variable [Cert.Pre_finite_inputs.Facts]

def srcRow (ei : IVec S2x3200000 32) : IVec S3200000 32 :=
  shapeCast S3200000
    (extractStridedSlice S1x3200000 ![0, 0] ei Cert.Pre_finite_inputs.Facts.slices_S2x3200000_S1x3200000_0_0)
    Cert.Pre_finite_inputs.Facts.shapeCasts_S1x3200000_S3200000

/-- The precondition read at the extended reals: real float arguments, source indices in [0, 100000). -/
structure Decoded (a0 : FVec Ideal S100000x14 .f32) (a1 : IVec S2x3200000 32) (a2 : FVec Ideal S3200000x3 .f32) (a3 : IVec S100000 32) (a4 : FVec Ideal S14x32 .f32) (a5 : FVec Ideal S32 .f32) (a6 : FVec Ideal S3x32 .f32) (a7 : FVec Ideal S32 .f32) (a8 : FVec Ideal S2x32x75 .f32) (a9 : FVec Ideal S2x75 .f32) (a10 : FVec Ideal S2x75x32 .f32) (a11 : FVec Ideal S2x32 .f32) (a12 : FVec Ideal S2x32 .f32) (a13 : FVec Ideal S2x32 .f32) (a14 : FVec Ideal S32x16 .f32) (a15 : FVec Ideal S16 .f32) (a16 : FVec Ideal S16x2 .f32) (a17 : FVec Ideal S2 .f32) : Prop where
  real0 : AllReal a0
  real2 : AllReal a2
  real4 : AllReal a4
  real5 : AllReal a5
  real6 : AllReal a6
  real7 : AllReal a7
  real8 : AllReal a8
  real9 : AllReal a9
  real10 : AllReal a10
  real11 : AllReal a11
  real12 : AllReal a12
  real13 : AllReal a13
  real14 : AllReal a14
  real15 : AllReal a15
  real16 : AllReal a16
  real17 : AllReal a17
  src_nonneg : ∀ e, 0 ≤ (srcRow a1 e).toInt
  src_lt : ∀ e, (srcRow a1 e).toInt < 100000

instance : Subsingleton S_.Idx := ⟨fun a b => funext fun d => d.elim0⟩

/-- Both infinities have absolute value +∞, so an absolute value below +∞ leaves only the reals. -/
theorem exists_real_of_abs_lt_top (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  induction x using EReal.rec with
  | bot => exact absurd h (by simp [FloatOps.cmpf, FloatOps.absf, Ideal.cmp, Ideal.ofBits, Ideal.ieee])
  | coe r => exact ⟨r, rfl⟩
  | top => exact absurd h (by simp [FloatOps.cmpf, FloatOps.absf, Ideal.cmp, Ideal.ofBits, Ideal.ieee])

/-- A conjunction over all entries that came out true holds at every entry. -/
theorem allReal_of_all {s : Shape} {axes : List (Fin s.rank)} {a : FVec Ideal s .f32}
    {hb : S_.BroadcastsInDim s (![] : Fin 0 → Fin s.rank)} {hr : s.ReducesTo axes S_} {hu : 0 < S_.numel} {j : S_.Idx}
    (e : Host.reduce IntOp.andi
        (cmpf .olt (Host.absf a) (broadcastInDim s ![] hb (constant (F := Ideal) S_ .f32 0x7F800000#32)))
        (constantI S_ 1 1#1) hr hu j = 1#1) :
    AllReal a :=
  fun i => exists_real_of_abs_lt_top (a i) (Host.reduce_andi_all _ _ hr hu j e i)

/-- Each conjunct of the precondition that came out true is read back at every entry. -/
theorem decoded_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  have e := congrFun (h c) (fun d => d.elim0)
  simp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    andi, IntOp.andi_eq_one] at e
  obtain ⟨⟨⟨⟨⟨⟨⟨⟨⟨⟨⟨⟨⟨⟨⟨⟨⟨h0, h2⟩, h4⟩, h5⟩, h6⟩, h7⟩, h8⟩, h9⟩, h10⟩, h11⟩, h12⟩, h13⟩, h14⟩, h15⟩, h16⟩, h17⟩, hlo⟩, hhi⟩ := e
  have hz : (0#32 : BitVec 32).toInt = 0 := by decide
  have hN : (100000#32 : BitVec 32).toInt = 100000 := by decide
  refine ⟨allReal_of_all h0, allReal_of_all h2, allReal_of_all h4, allReal_of_all h5, allReal_of_all h6, allReal_of_all h7, allReal_of_all h8, allReal_of_all h9, allReal_of_all h10, allReal_of_all h11, allReal_of_all h12, allReal_of_all h13, allReal_of_all h14, allReal_of_all h15, allReal_of_all h16, allReal_of_all h17, fun i => ?_, fun i => ?_⟩
  · have := Host.reduce_andi_all _ _ _ _ _ hlo i
    rw [show cmpi .sge _ _ i = IntOp.cmpi .sge (srcRow _ i) 0#32 from rfl, IntOp.cmpi_sge, hz] at this
    exact this
  · have := Host.reduce_andi_all _ _ _ _ _ hhi i
    rw [show cmpi .slt _ _ i = IntOp.cmpi .slt (srcRow _ i) 100000#32 from rfl, IntOp.cmpi_slt, hN] at this
    exact this

end Cert.Net.Pre

end
-- ==== Proof.Net.Finite.lean ====
import proofs.«417359_j61564061221146_2_alg».proof.Proof.Net.Spec
import proofs.«417359_j61564061221146_2_alg».proof.Proof.LibAllReal

noncomputable section

namespace Cert.Net

open Idealize.ShloMosaic
open Cert.ReferenceIdeal Cert.ReferenceIdeal.Facts₀
open Cert.Spec

variable [Cert.ReferenceIdeal.Facts]

theorem allReal_nodeProj {x : TF S100000x14} {w : TF S14x32} {b : TF S32} (hx : AllReal x) (hw : AllReal w)
    (hb : AllReal b) : AllReal (nodeProj x w b) :=
  (AllReal.dotGeneral hx hw).addf fun _ => hb _

theorem allReal_edgeProj {ea : TF S3200000x3} {ew : TF S3x32} {eb : TF S32} (hea : AllReal ea) (hew : AllReal ew)
    (heb : AllReal eb) : AllReal (edgeProj ea ew eb) :=
  (AllReal.dotGeneral hea hew).addf fun _ => heb _

/-- The node update before normalisation is built from sums, products, maxima with zero and re-indexings. -/
theorem allReal_convZ {h : TF S100000x32} {ep : TF S3200000x32} (src dst : TI S3200000) {w1 : TF S32x75} {b1 : TF S75}
    {w2 : TF S75x32} {b2 : TF S32} (hh : AllReal h) (hep : AllReal ep) (hw1 : AllReal w1) (hb1 : AllReal b1)
    (hw2 : AllReal w2) (hb2 : AllReal b2) :
    AllReal (convZ h (agg (msgOf (takeRows h src) ep) dst) w1 b1 w2 b2) :=
  have z {t : Shape} {hbc : S_.BroadcastsInDim t ![]} :
      AllReal (broadcastInDim t ![] hbc (constant (F := Ideal) S_ .f32 0x00000000#32)) :=
    AllReal.broadcastInDim AllReal.constant_zero
  have ha : AllReal (agg (msgOf (takeRows h src) ep) dst) :=
    AllReal.scatterAdd z (((AllReal.gather hh).addf hep).maximumf z)
  (AllReal.dotGeneral ((((hh.addf ha).dotGeneral hw1).addf fun _ => hb1 _).maximumf z) hw2).addf fun _ => hb2 _

end Cert.Net

end
-- ==== Proof.Net.TakeSpec.lean ====
import proofs.«417359_j61564061221146_2_alg».proof.Proof.Net.Spec
import proofs.«417359_j61564061221146_2_alg».proof.Proof.Net.Take

noncomputable section

namespace Cert.Net

open Idealize.ShloMosaic

variable [Cert.KernelIdeal.Facts] [Cert.ReferenceIdeal.Facts]

/-- With every index in [0, 100000) the take is the row lookup: the moved index and the read pattern are the same. -/
theorem takeOf_eq_takeRows (h : FVec Ideal Cert.KernelIdeal.S100000x32 .f32) (src : IVec Cert.KernelIdeal.S3200000 32)
    (hs : ∀ e, 0 ≤ (src e).toInt ∧ (src e).toInt < 100000) :
    takeOf (F := Ideal) h src = takeRows h src :=
  takeOf_eq_gather h src hs

end Cert.Net

end
-- ==== Proof.Net.BNNorm.lean ====
import proofs.«417359_j61564061221146_2_alg».proof.Proof.Net.BNArr
import proofs.«417359_j61564061221146_2_alg».proof.Proof.Net.Norm

noncomputable section

namespace Cert.Net

open Idealize.ShloMosaic Idealize.ShloMosaic.ValueIdx
open Cert.ReferenceIdeal Cert.ReferenceIdeal.Facts₀
open Cert.Spec

variable [Cert.ReferenceIdeal.Facts]

/-- On reals the normalisation is the affine layer at the scale and shift from the column sums, and its entries are real. -/
theorem bnRef_eq_normOf (z : TF S100000x32) (g b : TF S32) (hz : AllReal z) (hg : AllReal g) (hb : AllReal b) :
    bnRef z g b = normOf z (kScale z g) (kShift z g b) ∧ AllReal (bnRef z g b) := by
  have key : ∀ j, ∃ r : ℝ, bnRef z g b j = r ∧ normOf z (kScale z g) (kShift z g b) j = r := fun j => by
    obtain ⟨p, q, rfl⟩ : ∃ (p : Fin 100000) (q : Fin 32), j = ix2 p q := ⟨j 0, j 1, eq_ix2 j⟩
    rw [normOf_apply]
    exact bnRef_apply_eq z g b hz hg hb p q
  exact ⟨funext fun j => let ⟨_, h1, h2⟩ := key j; h1.trans h2.symm, fun j => let ⟨r, h1, _⟩ := key j; ⟨r, h1⟩⟩

end Cert.Net

end
-- ==== Proof.Net.Bridge.lean ====
import proofs.«417359_j61564061221146_2_alg».proof.Proof.Net.KNet
import proofs.«417359_j61564061221146_2_alg».proof.Proof.Net.Finite
import proofs.«417359_j61564061221146_2_alg».proof.Proof.Net.TakeSpec
import proofs.«417359_j61564061221146_2_alg».proof.Proof.Net.BNNorm
import proofs.«417359_j61564061221146_2_alg».proof.Proof.Net.Pre

noncomputable section

namespace Cert.Net

open Idealize.ShloMosaic
open Cert.ReferenceIdeal Cert.ReferenceIdeal.Facts₀
open Cert.Spec

variable [Cert.KernelIdeal.Facts] [Cert.ReferenceIdeal.Facts] [Cert.Pre_finite_inputs.Facts]

/-- With the lookups agreeing and real operands the two layers normalise the same array of reals. -/
theorem kLayer_eq_layer (h : TF S100000x32) (ep : TF S3200000x32) (src dst : TI S3200000)
    (w1 : TF S32x75) (b1 : TF S75) (w2 : TF S75x32) (b2 g b : TF S32)
    (hs : takeOf (F := Ideal) h src = takeRows h src)
    (hh : AllReal h) (hep : AllReal ep) (hw1 : AllReal w1) (hb1 : AllReal b1) (hw2 : AllReal w2) (hb2 : AllReal b2)
    (hg : AllReal g) (hb : AllReal b) :
    kLayer h ep src dst w1 b1 w2 b2 g b = layer h ep src dst w1 b1 w2 b2 g b
      ∧ AllReal (layer h ep src dst w1 b1 w2 b2 g b) := by
  have hn := bnRef_eq_normOf _ g b (allReal_convZ src dst hh hep hw1 hb1 hw2 hb2) hg hb
  unfold kLayer kZZ kZ
  rw [hs]
  exact ⟨hn.1.symm, hn.2⟩

section Args
variable {a0 : FVec Ideal Cert.Pre_finite_inputs.S100000x14 .f32} {a1 : IVec Cert.Pre_finite_inputs.S2x3200000 32} {a2 : FVec Ideal Cert.Pre_finite_inputs.S3200000x3 .f32} {a3 : IVec Cert.Pre_finite_inputs.S100000 32} {a4 : FVec Ideal Cert.Pre_finite_inputs.S14x32 .f32} {a5 : FVec Ideal Cert.Pre_finite_inputs.S32 .f32} {a6 : FVec Ideal Cert.Pre_finite_inputs.S3x32 .f32} {a7 : FVec Ideal Cert.Pre_finite_inputs.S32 .f32} {a8 : FVec Ideal Cert.Pre_finite_inputs.S2x32x75 .f32} {a9 : FVec Ideal Cert.Pre_finite_inputs.S2x75 .f32} {a10 : FVec Ideal Cert.Pre_finite_inputs.S2x75x32 .f32} {a11 : FVec Ideal Cert.Pre_finite_inputs.S2x32 .f32} {a12 : FVec Ideal Cert.Pre_finite_inputs.S2x32 .f32} {a13 : FVec Ideal Cert.Pre_finite_inputs.S2x32 .f32} {a14 : FVec Ideal Cert.Pre_finite_inputs.S32x16 .f32} {a15 : FVec Ideal Cert.Pre_finite_inputs.S16 .f32} {a16 : FVec Ideal Cert.Pre_finite_inputs.S16x2 .f32} {a17 : FVec Ideal Cert.Pre_finite_inputs.S2 .f32}

/-- Layer 0 agrees and its result is real, -/
theorem kH1_eq_h1 (d : Pre.Decoded a0 a1 a2 a3 a4 a5 a6 a7 a8 a9 a10 a11 a12 a13 a14 a15 a16 a17) :
    kH1 a0 a1 a2 a4 a5 a6 a7 a8 a9 a10 a11 a12 a13 = h1 a0 a1 a2 a4 a5 a6 a7 a8 a9 a10 a11 a12 a13
      ∧ AllReal (h1 a0 a1 a2 a4 a5 a6 a7 a8 a9 a10 a11 a12 a13) := by
  unfold kH1 h1
  exact kLayer_eq_layer _ _ _ _ _ _ _ _ _ _ (takeOf_eq_takeRows _ _ fun e => ⟨d.src_nonneg e, d.src_lt e⟩)
    (allReal_nodeProj d.real0 d.real4 d.real5) (allReal_edgeProj d.real2 d.real6 d.real7)
    (fun _ => d.real8 _) (fun _ => d.real9 _) (fun _ => d.real10 _) (fun _ => d.real11 _) (fun _ => d.real12 _)
    (fun _ => d.real13 _)

/-- so layer 1 agrees, and the readout is the same function of the same array. -/
theorem kForward_eq_forward (d : Pre.Decoded a0 a1 a2 a3 a4 a5 a6 a7 a8 a9 a10 a11 a12 a13 a14 a15 a16 a17) :
    kForward a0 a1 a2 a3 a4 a5 a6 a7 a8 a9 a10 a11 a12 a13 a14 a15 a16 a17
      = forward a0 a1 a2 a3 a4 a5 a6 a7 a8 a9 a10 a11 a12 a13 a14 a15 a16 a17 := by
  unfold kForward forward kH2 h2
  rw [(kH1_eq_h1 d).1]
  exact congrArg (pool · a3 a14 a15 a16 a17) (And.left
    (kLayer_eq_layer _ _ _ _ _ _ _ _ _ _ (takeOf_eq_takeRows _ _ fun e => ⟨d.src_nonneg e, d.src_lt e⟩)
      (kH1_eq_h1 d).2 (allReal_edgeProj d.real2 d.real6 d.real7)
      (fun _ => d.real8 _) (fun _ => d.real9 _) (fun _ => d.real10 _) (fun _ => d.real11 _) (fun _ => d.real12 _)
      (fun _ => d.real13 _)))

end Args

end Cert.Net

end
-- ==== Proof.lean ====
import proofs.«417359_j61564061221146_2_alg».proof.Defs
import proofs.«417359_j61564061221146_2_alg».proof.Proof.Gen.Kernel
import proofs.«417359_j61564061221146_2_alg».proof.Proof.Gen.KernelIdeal
import proofs.«417359_j61564061221146_2_alg».proof.Proof.Gen.ReferenceIdeal
import proofs.«417359_j61564061221146_2_alg».proof.Proof.Gen.Pre_finite_inputs
import proofs.«417359_j61564061221146_2_alg».proof.Proof.K.Frame
import proofs.«417359_j61564061221146_2_alg».proof.Proof.KI.Frame
import proofs.«417359_j61564061221146_2_alg».proof.Proof.KI.Value
import proofs.«417359_j61564061221146_2_alg».proof.Proof.KI.Chain
import proofs.«417359_j61564061221146_2_alg».proof.Proof.Net.RefRun
import proofs.«417359_j61564061221146_2_alg».proof.Proof.Net.Pre
import proofs.«417359_j61564061221146_2_alg».proof.Proof.Net.Bridge
import Idealize.ShloMosaic.Adequacy
import Idealize.ShloMosaic.Init

noncomputable section

namespace Cert.Proof

open Idealize.ShloMosaic Idealize.ShloMosaic.TcCoe Idealize.SL.Sem

open Cert.KernelIdeal in
/-- The network of the kernel's argument arrays on core `c`: the value both programs end with. -/
abbrev resultOf (m : (ℓ : Loc nD τ sig) → Buf (Elt Ideal) ℓ)
    (c : Dev nD) :=
  Cert.Net.forward
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))

/-- The kernel's chain of regions computes the network in its own arrangement; with every source index a node and every
    float input finite that arrangement equals the reference's. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Gen.V17 m (Cert.KernelIdeal.Hand.outs m) c Cert.KernelIdeal.main_v87 = resultOf m c := by
  rw [Cert.KernelIdeal.Hand.V17_eq]
  exact (Cert.KernelIdeal.HandValue.kernel_value m c).trans
    (Cert.Net.kForward_eq_forward (Cert.Net.Pre.decoded_of_pre m hpre c))

theorem frame_k : Cert.frame_Kernel := fun m ρ _ => Cert.Kernel.Hand.frameOf m ρ
theorem frame_ki : Cert.frame_KernelIdeal := fun m ρ _ => Cert.KernelIdeal.Hand.frameOf m ρ
theorem frame_ri : Cert.frame_ReferenceIdeal := fun m ρ _ =>
  (θ_run Cert.ReferenceIdeal.defs _ _).mono (fun _ h c => (h c).2) (Cert.Net.refRun m ρ)

theorem preserves : Cert.preserves_Kernel_KernelIdeal := trivial

theorem algebraic : Cert.algebraic_KernelIdeal_ReferenceIdeal := by
  intro m ρ m' ρ' hpre hagree
  refine ⟨fun c => resultOf m c, ?_, ?_⟩
  · exact (θ_run Cert.KernelIdeal.defs _ _).mono
      (fun r h c => ⟨(h c).1.trans (kernel_result m hpre c), (h c).2⟩) (Cert.KernelIdeal.Hand.valueOf m ρ)
  · refine (θ_run Cert.ReferenceIdeal.defs _ _).mono (fun r h c => ⟨(h c).1.trans ?_, (h c).2⟩) (Cert.Net.refRun m' ρ')
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
